-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v351) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S8x64x64 : Shape := ⟨3, ![8, 64, 64]⟩
abbrev S64x64 : Shape := ⟨2, ![64, 64]⟩
abbrev S64 : Shape := ⟨1, ![64]⟩
abbrev S8x64x16 : Shape := ⟨3, ![8, 64, 16]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S8x64x64 : S_.BroadcastsInDim S8x64x64 (![] : Fin 0 → Fin S8x64x64.rank)
  reducesTo_S8x64x64_S_d0_1_2 : S8x64x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S8x64x16 : S_.BroadcastsInDim S8x64x16 (![] : Fin 0 → Fin S8x64x16.rank)
  reducesTo_S8x64x16_S_d0_1_2 : S8x64x16.ReducesTo [0, 1, 2] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S2x1600000 : S_.BroadcastsInDim S2x1600000 (![] : Fin 0 → Fin S2x1600000.rank)
  reducesTo_S2x1600000_S_d0_1 : S2x1600000.ReducesTo [0, 1] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_arg2 : IVec S1600000 32) (main_v33 : IVec S_ 1) : IVec S_ 1 :=
  let main_c_12 : IVec S_ 32 := constantI S_ 32 0#32
  let main_v34 : IVec S2x1600000 32 := broadcastInDim S2x1600000 ![] bcast_S_S2x1600000 main_c_12
  let main_v35 : IVec S2x1600000 1 := cmpi .sge main_arg1 main_v34
  let main_c_13 : IVec S_ 1 := constantI S_ 1 1#1
  let main_v36 : IVec S_ 1 := (fun x v => Host.reduce IntOp.andi x v reducesTo_S2x1600000_S_d0_1 h_S_) main_v35 main_c_13
  let main_v37 : IVec S_ 1 := andi main_v33 main_v36
  let main_c_14 : IVec S_ 32 := constantI S_ 32 100000#32
  let main_v38 : IVec S2x1600000 32 := broadcastInDim S2x1600000 ![] bcast_S_S2x1600000 main_c_14
  let main_v39 : IVec S2x1600000 1 := cmpi .slt main_arg1 main_v38
  let main_c_15 : IVec S_ 1 := constantI S_ 1 1#1
  let main_v40 : IVec S_ 1 := (fun x v => Host.reduce IntOp.andi x v reducesTo_S2x1600000_S_d0_1 h_S_) main_v39 main_c_15
  let main_v41 : IVec S_ 1 := andi main_v37 main_v40
  let main_c_16 : IVec S_ 32 := constantI S_ 32 0#32
  let main_v42 : IVec S1600000 32 := broadcastInDim S1600000 ![] bcast_S_S1600000 main_c_16
  let main_v43 : IVec S1600000 1 := cmpi .sge main_arg2 main_v42
  let main_c_17 : IVec S_ 1 := constantI S_ 1 1#1
  let main_v44 : IVec S_ 1 := (fun x v => Host.reduce IntOp.andi x v reducesTo_S1600000_S_d0 h_S_) main_v43 main_c_17
  let main_v45 : IVec S_ 1 := andi main_v41 main_v44
  let main_c_18 : IVec S_ 32 := constantI S_ 32 8#32
  let main_v46 : IVec S1600000 32 := broadcastInDim S1600000 ![] bcast_S_S1600000 main_c_18
  let main_v47 : IVec S1600000 1 := cmpi .slt main_arg2 main_v46
  let main_c_19 : IVec S_ 1 := constantI S_ 1 1#1
  let main_v48 : IVec S_ 1 := (fun x v => Host.reduce IntOp.andi x v reducesTo_S1600000_S_d0 h_S_) main_v47 main_c_19
  let main_v49 : IVec S_ 1 := andi main_v45 main_v48
  main_v49

def fn_part1 {F : FTy → Type} [FloatOps F] (main_arg1 : IVec S2x1600000 32) (main_arg2 : IVec S1600000 32) (main_arg6 : FVec F S8x64x16 .f32) (main_arg7 : FVec F S64x16 .f32) (main_arg8 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S8x64x16 .f32 := Host.absf main_arg6
  let main_cst_6 : FVec F S_ .f32 := constant S_ .f32 0x7F800000#32
  let main_v20 : FVec F S8x64x16 .f32 := broadcastInDim S8x64x16 ![] bcast_S_S8x64x16 main_cst_6
  let main_v21 : IVec S8x64x16 1 := cmpf .olt main_v19 main_v20
  let main_c_7 : IVec S_ 1 := constantI S_ 1 1#1
  let main_v22 : IVec S_ 1 := (fun x v => Host.reduce IntOp.andi x v reducesTo_S8x64x16_S_d0_1_2 h_S_) main_v21 main_c_7
  let main_v23 : IVec S_ 1 := andi main_v18 main_v22
  let main_v24 : FVec F S64x16 .f32 := Host.absf main_arg7
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_arg2 main_v33

def fn {F : FTy → Type} [FloatOps F] (main_arg0 : FVec F S100000x64 .f32) (main_arg1 : IVec S2x1600000 32) (main_arg2 : IVec S1600000 32) (main_arg3 : FVec F S8x64x64 .f32) (main_arg4 : FVec F S64x64 .f32) (main_arg5 : FVec F S64 .f32) (main_arg6 : FVec F S8x64x16 .f32) (main_arg7 : FVec F S64x16 .f32) (main_arg8 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S8x64x64 .f32 := Host.absf main_arg3
  let main_cst_0 : FVec F S_ .f32 := constant S_ .f32 0x7F800000#32
  let main_v5 : FVec F S8x64x64 .f32 := broadcastInDim S8x64x64 ![] bcast_S_S8x64x64 main_cst_0
  let main_v6 : IVec S8x64x64 1 := cmpf .olt main_v4 main_v5
  let main_c_1 : IVec S_ 1 := constantI S_ 1 1#1
  let main_v7 : IVec S_ 1 := (fun x v => Host.reduce IntOp.andi x v reducesTo_S8x64x64_S_d0_1_2 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg2 main_arg6 main_arg7 main_arg8 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S8x64x64 : Shape := ⟨3, ![8, 64, 64]⟩
abbrev S64x64 : Shape := ⟨2, ![64, 64]⟩
abbrev S64 : Shape := ⟨1, ![64]⟩
abbrev S8x64x16 : Shape := ⟨3, ![8, 64, 16]⟩
abbrev S64x16 : Shape := ⟨2, ![64, 16]⟩
abbrev S16 : Shape := ⟨1, ![16]⟩
abbrev S1x1600000 : Shape := ⟨2, ![1, 1600000]⟩
abbrev S_ : Shape := ⟨0, ![]⟩
abbrev S800000 : Shape := ⟨1, ![800000]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S800000x64 : Shape := ⟨2, ![800000, 64]⟩
abbrev S100000x512 : Shape := ⟨2, ![100000, 512]⟩
abbrev S512x64 : Shape := ⟨2, ![512, 64]⟩
abbrev S1x64 : Shape := ⟨2, ![1, 64]⟩
abbrev S5000x64 : Shape := ⟨2, ![5000, 64]⟩
abbrev S5000x512 : Shape := ⟨2, ![5000, 512]⟩
abbrev S512x16 : Shape := ⟨2, ![512, 16]⟩
abbrev S1x16 : Shape := ⟨2, ![1, 16]⟩
abbrev S5000x16 : Shape := ⟨2, ![5000, 16]⟩

abbrev nBuf : Space → Nat
  | .hbm => 120
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .i32⟩
  | .hbm, ⟨3, _⟩ => ⟨S8x64x64, .f32⟩
  | .hbm, ⟨4, _⟩ => ⟨S64x64, .f32⟩
  | .hbm, ⟨5, _⟩ => ⟨S64, .f32⟩
  | .hbm, ⟨6, _⟩ => ⟨S8x64x16, .f32⟩
  | .hbm, ⟨7, _⟩ => ⟨S64x16, .f32⟩
  | .hbm, ⟨8, _⟩ => ⟨S16, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S800000, .f32⟩
  | .hbm, ⟨21, _⟩ => ⟨S1600000x1, .i32⟩
  | .hbm, ⟨22, _⟩ => ⟨S800000, .f32⟩
  | .hbm, ⟨23, _⟩ => ⟨S_, .f32⟩
  | .hbm, ⟨24, _⟩ => ⟨S_, .f32⟩
  | .hbm, ⟨25, _⟩ => ⟨S800000, .f32⟩
  | .hbm, ⟨26, _⟩ => ⟨S800000, .f32⟩
  | .hbm, ⟨27, _⟩ => ⟨S_, .f32⟩
  | .hbm, ⟨28, _⟩ => ⟨S800000, .f32⟩
  | .hbm, ⟨29, _⟩ => ⟨S800000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1, .i32⟩
  | .hbm, ⟨39, _⟩ => ⟨S_, .i32⟩
  | .hbm, ⟨40, _⟩ => ⟨S1600000x1, .i32⟩
  | .hbm, ⟨41, _⟩ => ⟨S1600000x1, .i1⟩
  | .hbm, ⟨42, _⟩ => ⟨S1x1, .i32⟩
  | .hbm, ⟨43, _⟩ => ⟨S1600000x1, .i32⟩
  | .hbm, ⟨44, _⟩ => ⟨S1600000x1, .i1⟩
  | .hbm, ⟨45, _⟩ => ⟨S1600000x1, .i1⟩
  | .hbm, ⟨46, _⟩ => ⟨S_, .i1⟩
  | .hbm, ⟨47, _⟩ => ⟨S1600000, .i1⟩
  | .hbm, ⟨48, _⟩ => ⟨S1600000, .f32⟩
  | .hbm, ⟨49, _⟩ => ⟨S_, .f32⟩
  | .hbm, ⟨50, _⟩ => ⟨S1600000, .f32⟩
  | .hbm, ⟨51, _⟩ => ⟨S1600000, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1, .i32⟩
  | .hbm, ⟨61, _⟩ => ⟨S_, .i32⟩
  | .hbm, ⟨62, _⟩ => ⟨S1600000x1, .i32⟩
  | .hbm, ⟨63, _⟩ => ⟨S1600000x1, .i1⟩
  | .hbm, ⟨64, _⟩ => ⟨S1x1, .i32⟩
  | .hbm, ⟨65, _⟩ => ⟨S1600000x1, .i32⟩
  | .hbm, ⟨66, _⟩ => ⟨S1600000x1, .i1⟩
  | .hbm, ⟨67, _⟩ => ⟨S1600000x1, .i1⟩
  | .hbm, ⟨68, _⟩ => ⟨S_, .i1⟩
  | .hbm, ⟨69, _⟩ => ⟨S1600000, .i1⟩
  | .hbm, ⟨70, _⟩ => ⟨S1600000x64, .f32⟩
  | .hbm, ⟨71, _⟩ => ⟨S1600000x64, .i1⟩
  | .hbm, ⟨72, _⟩ => ⟨S_, .f32⟩
  | .hbm, ⟨73, _⟩ => ⟨S1600000x64, .f32⟩
  | .hbm, ⟨74, _⟩ => ⟨S1600000x64, .f32⟩
  | .hbm, ⟨75, _⟩ => ⟨S1600000x1, .f32⟩
  | .hbm, ⟨76, _⟩ => ⟨S1600000x64, .f32⟩
  | .hbm, ⟨77, _⟩ => ⟨S1600000x64, .f32⟩
  | .hbm, ⟨78, _⟩ => ⟨S_, .f32⟩
  | .hbm, ⟨79, _⟩ => ⟨S800000x64, .f32⟩
  | .hbm, ⟨80, _⟩ => ⟨S1600000x1, .i32⟩
  | .hbm, ⟨81, _⟩ => ⟨S800000x64, .f32⟩
  | .hbm, ⟨82, _⟩ => ⟨S100000x512, .f32⟩
  | .hbm, ⟨83, _⟩ => ⟨S512x64, .f32⟩
  | .hbm, ⟨84, _⟩ => ⟨S1x64, .f32⟩
  | .hbm, ⟨85, _⟩ => ⟨S100000x64, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1, .i32⟩
  | .hbm, ⟨95, _⟩ => ⟨S_, .i32⟩
  | .hbm, ⟨96, _⟩ => ⟨S1600000x1, .i32⟩
  | .hbm, ⟨97, _⟩ => ⟨S1600000x1, .i1⟩
  | .hbm, ⟨98, _⟩ => ⟨S1x1, .i32⟩
  | .hbm, ⟨99, _⟩ => ⟨S1600000x1, .i32⟩
  | .hbm, ⟨100, _⟩ => ⟨S1600000x1, .i1⟩
  | .hbm, ⟨101, _⟩ => ⟨S1600000x1, .i1⟩
  | .hbm, ⟨102, _⟩ => ⟨S_, .i1⟩
  | .hbm, ⟨103, _⟩ => ⟨S1600000, .i1⟩
  | .hbm, ⟨104, _⟩ => ⟨S1600000x64, .f32⟩
  | .hbm, ⟨105, _⟩ => ⟨S1600000x64, .i1⟩
  | .hbm, ⟨106, _⟩ => ⟨S_, .f32⟩
  | .hbm, ⟨107, _⟩ => ⟨S1600000x64, .f32⟩
  | .hbm, ⟨108, _⟩ => ⟨S1600000x64, .f32⟩
  | .hbm, ⟨109, _⟩ => ⟨S1600000x1, .f32⟩
  | .hbm, ⟨110, _⟩ => ⟨S1600000x64, .f32⟩
  | .hbm, ⟨111, _⟩ => ⟨S1600000x64, .f32⟩
  | .hbm, ⟨112, _⟩ => ⟨S_, .f32⟩
  | .hbm, ⟨113, _⟩ => ⟨S800000x64, .f32⟩
  | .hbm, ⟨114, _⟩ => ⟨S1600000x1, .i32⟩
  | .hbm, ⟨115, _⟩ => ⟨S800000x64, .f32⟩
  | .hbm, ⟨116, _⟩ => ⟨S100000x512, .f32⟩
  | .hbm, ⟨117, _⟩ => ⟨S512x16, .f32⟩
  | .hbm, ⟨118, _⟩ => ⟨S1x16, .f32⟩
  | .hbm, ⟨119, _⟩ => ⟨S1x16, .f32⟩
  | .local _ .vmem, ⟨0, _⟩ => ⟨S5000x64, .f32⟩
  | .local _ .vmem, ⟨1, _⟩ => ⟨S5000x64, .f32⟩
  | .local _ .vmem, ⟨2, _⟩ => ⟨S5000x512, .f32⟩
  | .local _ .vmem, ⟨3, _⟩ => ⟨S5000x512, .f32⟩
  | .local _ .vmem, ⟨4, _⟩ => ⟨S64x64, .f32⟩
  | .local _ .vmem, ⟨5, _⟩ => ⟨S512x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x512, .f32⟩
  | .local _ .vmem, ⟨12, _⟩ => ⟨S5000x512, .f32⟩
  | .local _ .vmem, ⟨13, _⟩ => ⟨S64x16, .f32⟩
  | .local _ .vmem, ⟨14, _⟩ => ⟨S512x16, .f32⟩
  | .local _ .vmem, ⟨15, _⟩ => ⟨S1x16, .f32⟩
  | .local _ .vmem, ⟨16, _⟩ => ⟨S1x16, .f32⟩
  | .local _ .vmem, ⟨17, _⟩ => ⟨S1x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v14 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_call2_cst : Ref sig .tc := ⟨.hbm, 72, rfl⟩
abbrev main_call2_v15 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_3 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_v14 : Ref sig .tc := ⟨.hbm, 105, rfl⟩
abbrev main_call3_cst : Ref sig .tc := ⟨.hbm, 106, rfl⟩
abbrev main_call3_v15 : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_cst_4 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩
abbrev main_v33 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v28 : BitVec 1 := Scalar.cmpi .eq arg0 c19_i32
  let v29 : BitVec 32 := Scalar.extui v28
  let c0_i32_16 : BitVec 32 := 0#32
  let v30 : BitVec 1 := Scalar.cmpi .ne v29 c0_i32_16
  v30

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S800000 : S_.BroadcastsInDim S800000 (![] : Fin 0 → Fin S800000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S1600000x1_S1600000x64_0_1 : S1600000x1.BroadcastsInDim S1600000x64 (![0, 1] : Fin 2 → Fin S1600000x64.rank)
  bcast_S_S800000x64 : S_.BroadcastsInDim S800000x64 (![] : Fin 0 → Fin S800000x64.rank)
  shapeCasts_S800000x64_S100000x512 : S800000x64.ShapeCasts S100000x512
  shapeCasts_S8x64x64_S512x64 : S8x64x64.ShapeCasts S512x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S64x64_S64x64_0_0 : ∀ a, (![0, 0] : Fin 2 → Nat) a + S64x64.size a ≤ S64x64.size a
  h_S64x64 : 0 < S64x64.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S8x64x16_S512x16 : S8x64x16.ShapeCasts S512x16
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  shapeCasts_S5000x64_S5000x64 : S5000x64.ShapeCasts S5000x64
  inb_S64x16_S64x16_0_0 : ∀ a, (![0, 0] : Fin 2 → Nat) a + S64x16.size a ≤ S64x16.size a
  h_S64x16 : 0 < S64x16.numel
  inb_S512x16_S512x16_0_0 : ∀ a, (![0, 0] : Fin 2 → Nat) a + S512x16.size a ≤ S512x16.size a
  h_S512x16 : 0 < S512x16.numel
  shapeCasts_S512x16_S512x16 : S512x16.ShapeCasts S512x16
  broadcasts_S1x16_S5000x16 : S1x16.Broadcasts S5000x16
  reduces_S5000x16_S16 : S5000x16.Reduces [0] S16
  reduces_S1x16_S1 : S1x16.Reduces [1] S1
  shapeCasts_S1_S1x1 : S1.ShapeCasts S1x1
  broadcasts_S1x1_S1x16 : S1x1.Broadcasts S1x16
  scatter_S800000_S1600000x1_S1600000_n_0_0_1_wf : ScatterDims.WF S800000 S1600000x1 S1600000 [] [0] [0] 1
  gather_S800000_S1600000x1_S1600000_n_0_n_n_0_1_1_wf : GatherDims.WF S800000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S800000x64_S1600000x1_S1600000x64_1_0_0_1_wf : ScatterDims.WF S800000x64 S1600000x1 S1600000x64 [1] [0] [0] 1
  dot_S5000x64_S64x64_S5000x64_1_0_0_1_n_n_wf : DotDims.WF S5000x64 S64x64 S5000x64 [1] [0] [0] [1] [] []
  dot_S5000x512_S512x64_S5000x64_1_0_0_1_n_n_wf : DotDims.WF S5000x512 S512x64 S5000x64 [1] [0] [0] [1] [] []
  dot_S5000x64_S64x16_S5000x16_1_0_0_1_n_n_wf : DotDims.WF S5000x64 S64x16 S5000x16 [1] [0] [0] [1] [] []
  dot_S5000x512_S512x16_S5000x16_1_0_0_1_n_n_wf : DotDims.WF S5000x512 S512x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x512.size a ≤ S100000x512.size a
  hwx0_1 : ∀ i : grid0.Coords, EltTy.bits .f32 = 32 ∨ (Rect.block (s := S100000x512) S5000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x512.size a ≤ S100000x512.size a
  hwx1_1 : ∀ i : grid1.Coords, EltTy.bits .f32 = 32 ∨ (Rect.block (s := S100000x512) S5000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x16.size a ≤ S512x16.size a
  hwx1_3 : ∀ i : grid1.Coords, EltTy.bits .f32 = 32 ∨ (Rect.block (s := S512x16) S512x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)

variable [Facts₀]

def scatter_S800000_S1600000x1_S1600000_n_0_0_1 : ScatterDims S800000 S1600000x1 S1600000 where
  updateWindowDims := []
  insertedWindowDims := [0]
  scatterDimsToOperandDims := [0]
  indexVectorDim := 1
  wf := scatter_S800000_S1600000x1_S1600000_n_0_0_1_wf
def gather_S800000_S1600000x1_S1600000_n_0_n_n_0_1_1 : GatherDims S800000 S1600000x1 S1600000 where
  offsetDims := []
  collapsedSliceDims := [0]
  operandBatchingDims := []
  startIndicesBatchingDims := []
  startIndexMap := [0]
  indexVectorDim := 1
  sliceSizes := ![1]
  wf := gather_S800000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S800000x64_S1600000x1_S1600000x64_1_0_0_1 : ScatterDims S800000x64 S1600000x1 S1600000x64 where
  updateWindowDims := [1]
  insertedWindowDims := [0]
  scatterDimsToOperandDims := [0]
  indexVectorDim := 1
  wf := scatter_S800000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S512x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x16.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S8x64x64 : Shape := ⟨3, ![8, 64, 64]⟩
abbrev S64x64 : Shape := ⟨2, ![64, 64]⟩
abbrev S64 : Shape := ⟨1, ![64]⟩
abbrev S8x64x16 : Shape := ⟨3, ![8, 64, 16]⟩
abbrev S64x16 : Shape := ⟨2, ![64, 16]⟩
abbrev S16 : Shape := ⟨1, ![16]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000 : Shape := ⟨1, ![100000]⟩
abbrev S100000x1 : Shape := ⟨2, ![100000, 1]⟩
abbrev S1x64x64 : Shape := ⟨3, ![1, 64, 64]⟩
abbrev S100000x16 : Shape := ⟨2, ![100000, 16]⟩
abbrev S1x16 : Shape := ⟨2, ![1, 16]⟩
abbrev S1x64x16 : Shape := ⟨3, ![1, 64, 16]⟩
abbrev S1 : Shape := ⟨1, ![1]⟩
abbrev S1x1 : Shape := ⟨2, ![1, 1]⟩

abbrev nBuf : Space → Nat
  | .hbm => 479
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .i32⟩
  | 3 => ⟨S8x64x64, .f32⟩
  | 4 => ⟨S64x64, .f32⟩
  | 5 => ⟨S64, .f32⟩
  | 6 => ⟨S8x64x16, .f32⟩
  | 7 => ⟨S64x16, .f32⟩
  | 8 => ⟨S16, .f32⟩
  | 9 => ⟨S1x1600000, .i32⟩
  | 10 => ⟨S1600000, .i32⟩
  | 11 => ⟨S1x1600000, .i32⟩
  | 12 => ⟨S1600000, .i32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S100000x64, .f32⟩
  | 23 => ⟨S1x64, .f32⟩
  | 24 => ⟨S100000x64, .f32⟩
  | 25 => ⟨S100000x64, .f32⟩
  | 26 => ⟨S_, .i32⟩
  | 27 => ⟨S1600000, .i32⟩
  | 28 => ⟨S1600000, .i1⟩
  | 29 => ⟨S1600000, .f32⟩
  | 30 => ⟨S1600000x1, .f32⟩
  | 31 => ⟨S1600000x64, .f32⟩
  | 32 => ⟨S1600000x64, .f32⟩
  | 33 => ⟨S_, .f32⟩
  | 34 => ⟨S100000x64, .f32⟩
  | 35 => ⟨S1600000x1, .i32⟩
  | 36 => ⟨S100000x64, .f32⟩
  | 37 => ⟨S_, .f32⟩
  | 38 => ⟨S100000, .f32⟩
  | 39 => ⟨S1600000x1, .i32⟩
  | 40 => ⟨S100000, .f32⟩
  | 41 => ⟨S_, .f32⟩
  | 42 => ⟨S_, .f32⟩
  | 43 => ⟨S100000, .f32⟩
  | 44 => ⟨S100000, .f32⟩
  | 45 => ⟨S100000x1, .f32⟩
  | 46 => ⟨S100000x64, .f32⟩
  | 47 => ⟨S100000x64, .f32⟩
  | 48 => ⟨S1x64x64, .f32⟩
  | 49 => ⟨S64x64, .f32⟩
  | 50 => ⟨S100000x64, .f32⟩
  | 51 => ⟨S100000x64, .f32⟩
  | 52 => ⟨S_, .i32⟩
  | 53 => ⟨S1600000, .i32⟩
  | 54 => ⟨S1600000, .i1⟩
  | 55 => ⟨S1600000, .f32⟩
  | 56 => ⟨S1600000x1, .f32⟩
  | 57 => ⟨S1600000x64, .f32⟩
  | 58 => ⟨S1600000x64, .f32⟩
  | 59 => ⟨S_, .f32⟩
  | 60 => ⟨S100000x64, .f32⟩
  | 61 => ⟨S1600000x1, .i32⟩
  | 62 => ⟨S100000x64, .f32⟩
  | 63 => ⟨S_, .f32⟩
  | 64 => ⟨S100000, .f32⟩
  | 65 => ⟨S1600000x1, .i32⟩
  | 66 => ⟨S100000, .f32⟩
  | 67 => ⟨S_, .f32⟩
  | 68 => ⟨S_, .f32⟩
  | 69 => ⟨S100000, .f32⟩
  | 70 => ⟨S100000, .f32⟩
  | 71 => ⟨S100000x1, .f32⟩
  | 72 => ⟨S100000x64, .f32⟩
  | 73 => ⟨S100000x64, .f32⟩
  | 74 => ⟨S1x64x64, .f32⟩
  | 75 => ⟨S64x64, .f32⟩
  | 76 => ⟨S100000x64, .f32⟩
  | 77 => ⟨S100000x64, .f32⟩
  | 78 => ⟨S_, .i32⟩
  | 79 => ⟨S1600000, .i32⟩
  | 80 => ⟨S1600000, .i1⟩
  | 81 => ⟨S1600000, .f32⟩
  | 82 => ⟨S1600000x1, .f32⟩
  | 83 => ⟨S1600000x64, .f32⟩
  | 84 => ⟨S1600000x64, .f32⟩
  | 85 => ⟨S_, .f32⟩
  | 86 => ⟨S100000x64, .f32⟩
  | 87 => ⟨S1600000x1, .i32⟩
  | 88 => ⟨S100000x64, .f32⟩
  | 89 => ⟨S_, .f32⟩
  | 90 => ⟨S100000, .f32⟩
  | 91 => ⟨S1600000x1, .i32⟩
  | 92 => ⟨S100000, .f32⟩
  | 93 => ⟨S_, .f32⟩
  | 94 => ⟨S_, .f32⟩
  | 95 => ⟨S100000, .f32⟩
  | 96 => ⟨S100000, .f32⟩
  | 97 => ⟨S100000x1, .f32⟩
  | 98 => ⟨S100000x64, .f32⟩
  | 99 => ⟨S100000x64, .f32⟩
  | 100 => ⟨S1x64x64, .f32⟩
  | 101 => ⟨S64x64, .f32⟩
  | 102 => ⟨S100000x64, .f32⟩
  | 103 => ⟨S100000x64, .f32⟩
  | 104 => ⟨S_, .i32⟩
  | 105 => ⟨S1600000, .i32⟩
  | 106 => ⟨S1600000, .i1⟩
  | 107 => ⟨S1600000, .f32⟩
  | 108 => ⟨S1600000x1, .f32⟩
  | 109 => ⟨S1600000x64, .f32⟩
  | 110 => ⟨S1600000x64, .f32⟩
  | 111 => ⟨S_, .f32⟩
  | 112 => ⟨S100000x64, .f32⟩
  | 113 => ⟨S1600000x1, .i32⟩
  | 114 => ⟨S100000x64, .f32⟩
  | 115 => ⟨S_, .f32⟩
  | 116 => ⟨S100000, .f32⟩
  | 117 => ⟨S1600000x1, .i32⟩
  | 118 => ⟨S100000, .f32⟩
  | 119 => ⟨S_, .f32⟩
  | 120 => ⟨S_, .f32⟩
  | 121 => ⟨S100000, .f32⟩
  | 122 => ⟨S100000, .f32⟩
  | 123 => ⟨S100000x1, .f32⟩
  | 124 => ⟨S100000x64, .f32⟩
  | 125 => ⟨S100000x64, .f32⟩
  | 126 => ⟨S1x64x64, .f32⟩
  | 127 => ⟨S64x64, .f32⟩
  | _ => ⟨S100000x64, .f32⟩

abbrev hbmTy0_1 (i : Nat) : BufTy := match i % 128 with
  | 0 => ⟨S100000x64, .f32⟩
  | 1 => ⟨S100000x64, .f32⟩
  | 2 => ⟨S_, .i32⟩
  | 3 => ⟨S1600000, .i32⟩
  | 4 => ⟨S1600000, .i1⟩
  | 5 => ⟨S1600000, .f32⟩
  | 6 => ⟨S1600000x1, .f32⟩
  | 7 => ⟨S1600000x64, .f32⟩
  | 8 => ⟨S1600000x64, .f32⟩
  | 9 => ⟨S_, .f32⟩
  | 10 => ⟨S100000x64, .f32⟩
  | 11 => ⟨S1600000x1, .i32⟩
  | 12 => ⟨S100000x64, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S_, .f32⟩
  | 19 => ⟨S100000, .f32⟩
  | 20 => ⟨S100000, .f32⟩
  | 21 => ⟨S100000x1, .f32⟩
  | 22 => ⟨S100000x64, .f32⟩
  | 23 => ⟨S100000x64, .f32⟩
  | 24 => ⟨S1x64x64, .f32⟩
  | 25 => ⟨S64x64, .f32⟩
  | 26 => ⟨S100000x64, .f32⟩
  | 27 => ⟨S100000x64, .f32⟩
  | 28 => ⟨S_, .i32⟩
  | 29 => ⟨S1600000, .i32⟩
  | 30 => ⟨S1600000, .i1⟩
  | 31 => ⟨S1600000, .f32⟩
  | 32 => ⟨S1600000x1, .f32⟩
  | 33 => ⟨S1600000x64, .f32⟩
  | 34 => ⟨S1600000x64, .f32⟩
  | 35 => ⟨S_, .f32⟩
  | 36 => ⟨S100000x64, .f32⟩
  | 37 => ⟨S1600000x1, .i32⟩
  | 38 => ⟨S100000x64, .f32⟩
  | 39 => ⟨S_, .f32⟩
  | 40 => ⟨S100000, .f32⟩
  | 41 => ⟨S1600000x1, .i32⟩
  | 42 => ⟨S100000, .f32⟩
  | 43 => ⟨S_, .f32⟩
  | 44 => ⟨S_, .f32⟩
  | 45 => ⟨S100000, .f32⟩
  | 46 => ⟨S100000, .f32⟩
  | 47 => ⟨S100000x1, .f32⟩
  | 48 => ⟨S100000x64, .f32⟩
  | 49 => ⟨S100000x64, .f32⟩
  | 50 => ⟨S1x64x64, .f32⟩
  | 51 => ⟨S64x64, .f32⟩
  | 52 => ⟨S100000x64, .f32⟩
  | 53 => ⟨S100000x64, .f32⟩
  | 54 => ⟨S_, .i32⟩
  | 55 => ⟨S1600000, .i32⟩
  | 56 => ⟨S1600000, .i1⟩
  | 57 => ⟨S1600000, .f32⟩
  | 58 => ⟨S1600000x1, .f32⟩
  | 59 => ⟨S1600000x64, .f32⟩
  | 60 => ⟨S1600000x64, .f32⟩
  | 61 => ⟨S_, .f32⟩
  | 62 => ⟨S100000x64, .f32⟩
  | 63 => ⟨S1600000x1, .i32⟩
  | 64 => ⟨S100000x64, .f32⟩
  | 65 => ⟨S_, .f32⟩
  | 66 => ⟨S100000, .f32⟩
  | 67 => ⟨S1600000x1, .i32⟩
  | 68 => ⟨S100000, .f32⟩
  | 69 => ⟨S_, .f32⟩
  | 70 => ⟨S_, .f32⟩
  | 71 => ⟨S100000, .f32⟩
  | 72 => ⟨S100000, .f32⟩
  | 73 => ⟨S100000x1, .f32⟩
  | 74 => ⟨S100000x64, .f32⟩
  | 75 => ⟨S100000x64, .f32⟩
  | 76 => ⟨S1x64x64, .f32⟩
  | 77 => ⟨S64x64, .f32⟩
  | 78 => ⟨S100000x64, .f32⟩
  | 79 => ⟨S100000x64, .f32⟩
  | 80 => ⟨S_, .i32⟩
  | 81 => ⟨S1600000, .i32⟩
  | 82 => ⟨S1600000, .i1⟩
  | 83 => ⟨S1600000, .f32⟩
  | 84 => ⟨S1600000x1, .f32⟩
  | 85 => ⟨S1600000x64, .f32⟩
  | 86 => ⟨S1600000x64, .f32⟩
  | 87 => ⟨S_, .f32⟩
  | 88 => ⟨S100000x64, .f32⟩
  | 89 => ⟨S1600000x1, .i32⟩
  | 90 => ⟨S100000x64, .f32⟩
  | 91 => ⟨S_, .f32⟩
  | 92 => ⟨S100000, .f32⟩
  | 93 => ⟨S1600000x1, .i32⟩
  | 94 => ⟨S100000, .f32⟩
  | 95 => ⟨S_, .f32⟩
  | 96 => ⟨S_, .f32⟩
  | 97 => ⟨S100000, .f32⟩
  | 98 => ⟨S100000, .f32⟩
  | 99 => ⟨S100000x1, .f32⟩
  | 100 => ⟨S100000x64, .f32⟩
  | 101 => ⟨S100000x64, .f32⟩
  | 102 => ⟨S1x64x64, .f32⟩
  | 103 => ⟨S64x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x64, .f32⟩
  | 118 => ⟨S100000x16, .f32⟩
  | 119 => ⟨S1x16, .f32⟩
  | 120 => ⟨S100000x16, .f32⟩
  | 121 => ⟨S100000x16, .f32⟩
  | 122 => ⟨S_, .i32⟩
  | 123 => ⟨S1600000, .i32⟩
  | 124 => ⟨S1600000, .i1⟩
  | 125 => ⟨S1600000, .f32⟩
  | 126 => ⟨S1600000x1, .f32⟩
  | 127 => ⟨S1600000x64, .f32⟩
  | _ => ⟨S100000x64, .f32⟩

abbrev hbmTy0_2 (i : Nat) : BufTy := match i % 128 with
  | 0 => ⟨S1600000x64, .f32⟩
  | 1 => ⟨S_, .f32⟩
  | 2 => ⟨S100000x64, .f32⟩
  | 3 => ⟨S1600000x1, .i32⟩
  | 4 => ⟨S100000x64, .f32⟩
  | 5 => ⟨S_, .f32⟩
  | 6 => ⟨S100000, .f32⟩
  | 7 => ⟨S1600000x1, .i32⟩
  | 8 => ⟨S100000, .f32⟩
  | 9 => ⟨S_, .f32⟩
  | 10 => ⟨S_, .f32⟩
  | 11 => ⟨S100000, .f32⟩
  | 12 => ⟨S100000, .f32⟩
  | 13 => ⟨S100000x1, .f32⟩
  | 14 => ⟨S100000x64, .f32⟩
  | 15 => ⟨S100000x64, .f32⟩
  | 16 => ⟨S1x64x16, .f32⟩
  | 17 => ⟨S64x16, .f32⟩
  | 18 => ⟨S100000x16, .f32⟩
  | 19 => ⟨S100000x16, .f32⟩
  | 20 => ⟨S_, .i32⟩
  | 21 => ⟨S1600000, .i32⟩
  | 22 => ⟨S1600000, .i1⟩
  | 23 => ⟨S1600000, .f32⟩
  | 24 => ⟨S1600000x1, .f32⟩
  | 25 => ⟨S1600000x64, .f32⟩
  | 26 => ⟨S1600000x64, .f32⟩
  | 27 => ⟨S_, .f32⟩
  | 28 => ⟨S100000x64, .f32⟩
  | 29 => ⟨S1600000x1, .i32⟩
  | 30 => ⟨S100000x64, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S_, .f32⟩
  | 37 => ⟨S100000, .f32⟩
  | 38 => ⟨S100000, .f32⟩
  | 39 => ⟨S100000x1, .f32⟩
  | 40 => ⟨S100000x64, .f32⟩
  | 41 => ⟨S100000x64, .f32⟩
  | 42 => ⟨S1x64x16, .f32⟩
  | 43 => ⟨S64x16, .f32⟩
  | 44 => ⟨S100000x16, .f32⟩
  | 45 => ⟨S100000x16, .f32⟩
  | 46 => ⟨S_, .i32⟩
  | 47 => ⟨S1600000, .i32⟩
  | 48 => ⟨S1600000, .i1⟩
  | 49 => ⟨S1600000, .f32⟩
  | 50 => ⟨S1600000x1, .f32⟩
  | 51 => ⟨S1600000x64, .f32⟩
  | 52 => ⟨S1600000x64, .f32⟩
  | 53 => ⟨S_, .f32⟩
  | 54 => ⟨S100000x64, .f32⟩
  | 55 => ⟨S1600000x1, .i32⟩
  | 56 => ⟨S100000x64, .f32⟩
  | 57 => ⟨S_, .f32⟩
  | 58 => ⟨S100000, .f32⟩
  | 59 => ⟨S1600000x1, .i32⟩
  | 60 => ⟨S100000, .f32⟩
  | 61 => ⟨S_, .f32⟩
  | 62 => ⟨S_, .f32⟩
  | 63 => ⟨S100000, .f32⟩
  | 64 => ⟨S100000, .f32⟩
  | 65 => ⟨S100000x1, .f32⟩
  | 66 => ⟨S100000x64, .f32⟩
  | 67 => ⟨S100000x64, .f32⟩
  | 68 => ⟨S1x64x16, .f32⟩
  | 69 => ⟨S64x16, .f32⟩
  | 70 => ⟨S100000x16, .f32⟩
  | 71 => ⟨S100000x16, .f32⟩
  | 72 => ⟨S_, .i32⟩
  | 73 => ⟨S1600000, .i32⟩
  | 74 => ⟨S1600000, .i1⟩
  | 75 => ⟨S1600000, .f32⟩
  | 76 => ⟨S1600000x1, .f32⟩
  | 77 => ⟨S1600000x64, .f32⟩
  | 78 => ⟨S1600000x64, .f32⟩
  | 79 => ⟨S_, .f32⟩
  | 80 => ⟨S100000x64, .f32⟩
  | 81 => ⟨S1600000x1, .i32⟩
  | 82 => ⟨S100000x64, .f32⟩
  | 83 => ⟨S_, .f32⟩
  | 84 => ⟨S100000, .f32⟩
  | 85 => ⟨S1600000x1, .i32⟩
  | 86 => ⟨S100000, .f32⟩
  | 87 => ⟨S_, .f32⟩
  | 88 => ⟨S_, .f32⟩
  | 89 => ⟨S100000, .f32⟩
  | 90 => ⟨S100000, .f32⟩
  | 91 => ⟨S100000x1, .f32⟩
  | 92 => ⟨S100000x64, .f32⟩
  | 93 => ⟨S100000x64, .f32⟩
  | 94 => ⟨S1x64x16, .f32⟩
  | 95 => ⟨S64x16, .f32⟩
  | 96 => ⟨S100000x16, .f32⟩
  | 97 => ⟨S100000x16, .f32⟩
  | 98 => ⟨S_, .i32⟩
  | 99 => ⟨S1600000, .i32⟩
  | 100 => ⟨S1600000, .i1⟩
  | 101 => ⟨S1600000, .f32⟩
  | 102 => ⟨S1600000x1, .f32⟩
  | 103 => ⟨S1600000x64, .f32⟩
  | 104 => ⟨S1600000x64, .f32⟩
  | 105 => ⟨S_, .f32⟩
  | 106 => ⟨S100000x64, .f32⟩
  | 107 => ⟨S1600000x1, .i32⟩
  | 108 => ⟨S100000x64, .f32⟩
  | 109 => ⟨S_, .f32⟩
  | 110 => ⟨S100000, .f32⟩
  | 111 => ⟨S1600000x1, .i32⟩
  | 112 => ⟨S100000, .f32⟩
  | 113 => ⟨S_, .f32⟩
  | 114 => ⟨S_, .f32⟩
  | 115 => ⟨S100000, .f32⟩
  | 116 => ⟨S100000, .f32⟩
  | 117 => ⟨S100000x1, .f32⟩
  | 118 => ⟨S100000x64, .f32⟩
  | 119 => ⟨S100000x64, .f32⟩
  | 120 => ⟨S1x64x16, .f32⟩
  | 121 => ⟨S64x16, .f32⟩
  | 122 => ⟨S100000x16, .f32⟩
  | 123 => ⟨S100000x16, .f32⟩
  | 124 => ⟨S_, .i32⟩
  | 125 => ⟨S1600000, .i32⟩
  | 126 => ⟨S1600000, .i1⟩
  | 127 => ⟨S1600000, .f32⟩
  | _ => ⟨S100000x64, .f32⟩

abbrev hbmTy0_3 (i : Nat) : BufTy := match i % 128 with
  | 0 => ⟨S1600000x1, .f32⟩
  | 1 => ⟨S1600000x64, .f32⟩
  | 2 => ⟨S1600000x64, .f32⟩
  | 3 => ⟨S_, .f32⟩
  | 4 => ⟨S100000x64, .f32⟩
  | 5 => ⟨S1600000x1, .i32⟩
  | 6 => ⟨S100000x64, .f32⟩
  | 7 => ⟨S_, .f32⟩
  | 8 => ⟨S100000, .f32⟩
  | 9 => ⟨S1600000x1, .i32⟩
  | 10 => ⟨S100000, .f32⟩
  | 11 => ⟨S_, .f32⟩
  | 12 => ⟨S_, .f32⟩
  | 13 => ⟨S100000, .f32⟩
  | 14 => ⟨S100000, .f32⟩
  | 15 => ⟨S100000x1, .f32⟩
  | 16 => ⟨S100000x64, .f32⟩
  | 17 => ⟨S100000x64, .f32⟩
  | 18 => ⟨S1x64x16, .f32⟩
  | 19 => ⟨S64x16, .f32⟩
  | 20 => ⟨S100000x16, .f32⟩
  | 21 => ⟨S100000x16, .f32⟩
  | 22 => ⟨S_, .i32⟩
  | 23 => ⟨S1600000, .i32⟩
  | 24 => ⟨S1600000, .i1⟩
  | 25 => ⟨S1600000, .f32⟩
  | 26 => ⟨S1600000x1, .f32⟩
  | 27 => ⟨S1600000x64, .f32⟩
  | 28 => ⟨S1600000x64, .f32⟩
  | 29 => ⟨S_, .f32⟩
  | 30 => ⟨S100000x64, .f32⟩
  | 31 => ⟨S1600000x1, .i32⟩
  | 32 => ⟨S100000x64, .f32⟩
  | 33 => ⟨S_, .f32⟩
  | 34 => ⟨S100000, .f32⟩
  | 35 => ⟨S1600000x1, .i32⟩
  | 36 => ⟨S100000, .f32⟩
  | 37 => ⟨S_, .f32⟩
  | 38 => ⟨S_, .f32⟩
  | 39 => ⟨S100000, .f32⟩
  | 40 => ⟨S100000, .f32⟩
  | 41 => ⟨S100000x1, .f32⟩
  | 42 => ⟨S100000x64, .f32⟩
  | 43 => ⟨S100000x64, .f32⟩
  | 44 => ⟨S1x64x16, .f32⟩
  | 45 => ⟨S64x16, .f32⟩
  | 46 => ⟨S100000x16, .f32⟩
  | 47 => ⟨S100000x16, .f32⟩
  | 48 => ⟨S_, .i32⟩
  | 49 => ⟨S1600000, .i32⟩
  | 50 => ⟨S1600000, .i1⟩
  | 51 => ⟨S1600000, .f32⟩
  | 52 => ⟨S1600000x1, .f32⟩
  | 53 => ⟨S1600000x64, .f32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S_, .f32⟩
  | 60 => ⟨S100000, .f32⟩
  | 61 => ⟨S1600000x1, .i32⟩
  | 62 => ⟨S100000, .f32⟩
  | 63 => ⟨S_, .f32⟩
  | 64 => ⟨S_, .f32⟩
  | 65 => ⟨S100000, .f32⟩
  | 66 => ⟨S100000, .f32⟩
  | 67 => ⟨S100000x1, .f32⟩
  | 68 => ⟨S100000x64, .f32⟩
  | 69 => ⟨S100000x64, .f32⟩
  | 70 => ⟨S1x64x16, .f32⟩
  | 71 => ⟨S64x16, .f32⟩
  | 72 => ⟨S100000x16, .f32⟩
  | 73 => ⟨S100000x16, .f32⟩
  | 74 => ⟨S_, .f32⟩
  | 75 => ⟨S16, .f32⟩
  | 76 => ⟨S1x16, .f32⟩
  | 77 => ⟨S_, .f32⟩
  | 78 => ⟨S1x16, .f32⟩
  | 79 => ⟨S1x16, .f32⟩
  | 80 => ⟨S_, .f32⟩
  | 81 => ⟨S1, .f32⟩
  | 82 => ⟨S_, .f32⟩
  | 83 => ⟨S1, .f32⟩
  | 84 => ⟨S1, .f32⟩
  | 85 => ⟨S1x1, .f32⟩
  | 86 => ⟨S1x16, .f32⟩
  | 87 => ⟨S1x16, .f32⟩
  | 88 => ⟨S1x16, .f32⟩
  | 89 => ⟨S_, .f32⟩
  | 90 => ⟨S1, .f32⟩
  | 91 => ⟨S1x1, .f32⟩
  | 92 => ⟨S1x1, .f32⟩
  | 93 => ⟨S1x16, .f32⟩
  | 94 => ⟨S1x16, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_call1_v0 : Ref sig .tc := ⟨.hbm, 68, rfl⟩
abbrev main_call1_v1 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_8 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_9 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_10 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_11 : Ref sig .tc := ⟨.hbm, 93, rfl⟩
abbrev main_call2_v0 : Ref sig .tc := ⟨.hbm, 94, rfl⟩
abbrev main_call2_v1 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_12 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_13 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_14 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_15 : Ref sig .tc := ⟨.hbm, 119, rfl⟩
abbrev main_call3_v0 : Ref sig .tc := ⟨.hbm, 120, rfl⟩
abbrev main_call3_v1 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_16 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_17 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_18 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_19 : Ref sig .tc := ⟨.hbm, 145, rfl⟩
abbrev main_call4_v0 : Ref sig .tc := ⟨.hbm, 146, rfl⟩
abbrev main_call4_v1 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_c_20 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_21 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_22 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_23 : Ref sig .tc := ⟨.hbm, 171, rfl⟩
abbrev main_call5_v0 : Ref sig .tc := ⟨.hbm, 172, rfl⟩
abbrev main_call5_v1 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_c_24 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_25 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_26 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_cst_27 : Ref sig .tc := ⟨.hbm, 197, rfl⟩
abbrev main_call6_v0 : Ref sig .tc := ⟨.hbm, 198, rfl⟩
abbrev main_call6_v1 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_c_28 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_cst_29 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_cst_30 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_cst_31 : Ref sig .tc := ⟨.hbm, 223, rfl⟩
abbrev main_call7_v0 : Ref sig .tc := ⟨.hbm, 224, rfl⟩
abbrev main_call7_v1 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_call8_cst : Ref sig .tc := ⟨.hbm, 234, rfl⟩
abbrev main_call8_v0 : Ref sig .tc := ⟨.hbm, 235, rfl⟩
abbrev main_v175 : Ref sig .tc := ⟨.hbm, 236, rfl⟩
abbrev main_c_32 : Ref sig .tc := ⟨.hbm, 237, rfl⟩
abbrev main_v176 : Ref sig .tc := ⟨.hbm, 238, rfl⟩
abbrev main_v177 : Ref sig .tc := ⟨.hbm, 239, rfl⟩
abbrev main_c_33 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_c_34 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_cst_35 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_cst_36 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_cst_37 : Ref sig .tc := ⟨.hbm, 265, rfl⟩
abbrev main_call9_v0 : Ref sig .tc := ⟨.hbm, 266, rfl⟩
abbrev main_call9_v1 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_c_38 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_cst_39 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_cst_40 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_cst_41 : Ref sig .tc := ⟨.hbm, 291, rfl⟩
abbrev main_call10_v0 : Ref sig .tc := ⟨.hbm, 292, rfl⟩
abbrev main_call10_v1 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_c_42 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_cst_43 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_cst_44 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_cst_45 : Ref sig .tc := ⟨.hbm, 317, rfl⟩
abbrev main_call11_v0 : Ref sig .tc := ⟨.hbm, 318, rfl⟩
abbrev main_call11_v1 : Ref sig .tc := ⟨.hbm, 319, rfl⟩
abbrev main_v239 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_v244 : Ref sig .tc := ⟨.hbm, 325, rfl⟩
abbrev main_v245 : Ref sig .tc := ⟨.hbm, 326, rfl⟩
abbrev main_v246 : Ref sig .tc := ⟨.hbm, 327, rfl⟩
abbrev main_c_46 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_cst_47 : Ref sig .tc := ⟨.hbm, 335, rfl⟩
abbrev main_v253 : Ref sig .tc := ⟨.hbm, 336, rfl⟩
abbrev main_v254 : Ref sig .tc := ⟨.hbm, 337, rfl⟩
abbrev main_v255 : Ref sig .tc := ⟨.hbm, 338, rfl⟩
abbrev main_cst_48 : Ref sig .tc := ⟨.hbm, 339, rfl⟩
abbrev main_v256 : Ref sig .tc := ⟨.hbm, 340, rfl⟩
abbrev main_v257 : Ref sig .tc := ⟨.hbm, 341, rfl⟩
abbrev main_v258 : Ref sig .tc := ⟨.hbm, 342, rfl⟩
abbrev main_cst_49 : Ref sig .tc := ⟨.hbm, 343, rfl⟩
abbrev main_call12_v0 : Ref sig .tc := ⟨.hbm, 344, rfl⟩
abbrev main_call12_v1 : Ref sig .tc := ⟨.hbm, 345, rfl⟩
abbrev main_v259 : Ref sig .tc := ⟨.hbm, 346, rfl⟩
abbrev main_v260 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_v266 : Ref sig .tc := ⟨.hbm, 353, rfl⟩
abbrev main_c_50 : Ref sig .tc := ⟨.hbm, 354, rfl⟩
abbrev main_v267 : Ref sig .tc := ⟨.hbm, 355, rfl⟩
abbrev main_v268 : Ref sig .tc := ⟨.hbm, 356, rfl⟩
abbrev main_v269 : Ref sig .tc := ⟨.hbm, 357, rfl⟩
abbrev main_v270 : Ref sig .tc := ⟨.hbm, 358, rfl⟩
abbrev main_v271 : Ref sig .tc := ⟨.hbm, 359, rfl⟩
abbrev main_v272 : Ref sig .tc := ⟨.hbm, 360, rfl⟩
abbrev main_cst_51 : Ref sig .tc := ⟨.hbm, 361, rfl⟩
abbrev main_v273 : Ref sig .tc := ⟨.hbm, 362, rfl⟩
abbrev main_v274 : Ref sig .tc := ⟨.hbm, 363, rfl⟩
abbrev main_v275 : Ref sig .tc := ⟨.hbm, 364, rfl⟩
abbrev main_cst_52 : Ref sig .tc := ⟨.hbm, 365, rfl⟩
abbrev main_v276 : Ref sig .tc := ⟨.hbm, 366, rfl⟩
abbrev main_v277 : Ref sig .tc := ⟨.hbm, 367, rfl⟩
abbrev main_v278 : Ref sig .tc := ⟨.hbm, 368, rfl⟩
abbrev main_cst_53 : Ref sig .tc := ⟨.hbm, 369, rfl⟩
abbrev main_call13_v0 : Ref sig .tc := ⟨.hbm, 370, rfl⟩
abbrev main_call13_v1 : Ref sig .tc := ⟨.hbm, 371, rfl⟩
abbrev main_v279 : Ref sig .tc := ⟨.hbm, 372, rfl⟩
abbrev main_v280 : Ref sig .tc := ⟨.hbm, 373, rfl⟩
abbrev main_v281 : Ref sig .tc := ⟨.hbm, 374, rfl⟩
abbrev main_v282 : Ref sig .tc := ⟨.hbm, 375, rfl⟩
abbrev main_v283 : Ref sig .tc := ⟨.hbm, 376, rfl⟩
abbrev main_v284 : Ref sig .tc := ⟨.hbm, 377, rfl⟩
abbrev main_v285 : Ref sig .tc := ⟨.hbm, 378, rfl⟩
abbrev main_v286 : Ref sig .tc := ⟨.hbm, 379, rfl⟩
abbrev main_c_54 : Ref sig .tc := ⟨.hbm, 380, rfl⟩
abbrev main_v287 : Ref sig .tc := ⟨.hbm, 381, rfl⟩
abbrev main_v288 : Ref sig .tc := ⟨.hbm, 382, rfl⟩
abbrev main_v289 : Ref sig .tc := ⟨.hbm, 383, rfl⟩
abbrev main_v290 : Ref sig .tc := ⟨.hbm, 384, rfl⟩
abbrev main_v291 : Ref sig .tc := ⟨.hbm, 385, rfl⟩
abbrev main_v292 : Ref sig .tc := ⟨.hbm, 386, rfl⟩
abbrev main_cst_55 : Ref sig .tc := ⟨.hbm, 387, rfl⟩
abbrev main_v293 : Ref sig .tc := ⟨.hbm, 388, rfl⟩
abbrev main_v294 : Ref sig .tc := ⟨.hbm, 389, rfl⟩
abbrev main_v295 : Ref sig .tc := ⟨.hbm, 390, rfl⟩
abbrev main_cst_56 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_cst_57 : Ref sig .tc := ⟨.hbm, 395, rfl⟩
abbrev main_call14_v0 : Ref sig .tc := ⟨.hbm, 396, rfl⟩
abbrev main_call14_v1 : Ref sig .tc := ⟨.hbm, 397, rfl⟩
abbrev main_v299 : Ref sig .tc := ⟨.hbm, 398, rfl⟩
abbrev main_v300 : Ref sig .tc := ⟨.hbm, 399, rfl⟩
abbrev main_v301 : Ref sig .tc := ⟨.hbm, 400, rfl⟩
abbrev main_v302 : Ref sig .tc := ⟨.hbm, 401, rfl⟩
abbrev main_v303 : Ref sig .tc := ⟨.hbm, 402, rfl⟩
abbrev main_v304 : Ref sig .tc := ⟨.hbm, 403, rfl⟩
abbrev main_v305 : Ref sig .tc := ⟨.hbm, 404, rfl⟩
abbrev main_v306 : Ref sig .tc := ⟨.hbm, 405, rfl⟩
abbrev main_c_58 : Ref sig .tc := ⟨.hbm, 406, rfl⟩
abbrev main_v307 : Ref sig .tc := ⟨.hbm, 407, rfl⟩
abbrev main_v308 : Ref sig .tc := ⟨.hbm, 408, rfl⟩
abbrev main_v309 : Ref sig .tc := ⟨.hbm, 409, rfl⟩
abbrev main_v310 : Ref sig .tc := ⟨.hbm, 410, rfl⟩
abbrev main_v311 : Ref sig .tc := ⟨.hbm, 411, rfl⟩
abbrev main_v312 : Ref sig .tc := ⟨.hbm, 412, rfl⟩
abbrev main_cst_59 : Ref sig .tc := ⟨.hbm, 413, rfl⟩
abbrev main_v313 : Ref sig .tc := ⟨.hbm, 414, rfl⟩
abbrev main_v314 : Ref sig .tc := ⟨.hbm, 415, rfl⟩
abbrev main_v315 : Ref sig .tc := ⟨.hbm, 416, rfl⟩
abbrev main_cst_60 : Ref sig .tc := ⟨.hbm, 417, rfl⟩
abbrev main_v316 : Ref sig .tc := ⟨.hbm, 418, rfl⟩
abbrev main_v317 : Ref sig .tc := ⟨.hbm, 419, rfl⟩
abbrev main_v318 : Ref sig .tc := ⟨.hbm, 420, rfl⟩
abbrev main_cst_61 : Ref sig .tc := ⟨.hbm, 421, rfl⟩
abbrev main_call15_v0 : Ref sig .tc := ⟨.hbm, 422, rfl⟩
abbrev main_call15_v1 : Ref sig .tc := ⟨.hbm, 423, rfl⟩
abbrev main_v319 : Ref sig .tc := ⟨.hbm, 424, rfl⟩
abbrev main_v320 : Ref sig .tc := ⟨.hbm, 425, rfl⟩
abbrev main_v321 : Ref sig .tc := ⟨.hbm, 426, rfl⟩
abbrev main_v322 : Ref sig .tc := ⟨.hbm, 427, rfl⟩
abbrev main_v323 : Ref sig .tc := ⟨.hbm, 428, rfl⟩
abbrev main_v324 : Ref sig .tc := ⟨.hbm, 429, rfl⟩
abbrev main_v325 : Ref sig .tc := ⟨.hbm, 430, rfl⟩
abbrev main_v326 : Ref sig .tc := ⟨.hbm, 431, rfl⟩
abbrev main_c_62 : Ref sig .tc := ⟨.hbm, 432, rfl⟩
abbrev main_v327 : Ref sig .tc := ⟨.hbm, 433, rfl⟩
abbrev main_v328 : Ref sig .tc := ⟨.hbm, 434, rfl⟩
abbrev main_v329 : Ref sig .tc := ⟨.hbm, 435, rfl⟩
abbrev main_v330 : Ref sig .tc := ⟨.hbm, 436, rfl⟩
abbrev main_v331 : Ref sig .tc := ⟨.hbm, 437, rfl⟩
abbrev main_v332 : Ref sig .tc := ⟨.hbm, 438, rfl⟩
abbrev main_cst_63 : Ref sig .tc := ⟨.hbm, 439, rfl⟩
abbrev main_v333 : Ref sig .tc := ⟨.hbm, 440, rfl⟩
abbrev main_v334 : Ref sig .tc := ⟨.hbm, 441, rfl⟩
abbrev main_v335 : Ref sig .tc := ⟨.hbm, 442, rfl⟩
abbrev main_cst_64 : Ref sig .tc := ⟨.hbm, 443, rfl⟩
abbrev main_v336 : Ref sig .tc := ⟨.hbm, 444, rfl⟩
abbrev main_v337 : Ref sig .tc := ⟨.hbm, 445, rfl⟩
abbrev main_v338 : Ref sig .tc := ⟨.hbm, 446, rfl⟩
abbrev main_cst_65 : Ref sig .tc := ⟨.hbm, 447, rfl⟩
abbrev main_call16_v0 : Ref sig .tc := ⟨.hbm, 448, rfl⟩
abbrev main_call16_v1 : Ref sig .tc := ⟨.hbm, 449, rfl⟩
abbrev main_v339 : Ref sig .tc := ⟨.hbm, 450, rfl⟩
abbrev main_v340 : Ref sig .tc := ⟨.hbm, 451, rfl⟩
abbrev main_v341 : Ref sig .tc := ⟨.hbm, 452, rfl⟩
abbrev main_v342 : Ref sig .tc := ⟨.hbm, 453, rfl⟩
abbrev main_v343 : Ref sig .tc := ⟨.hbm, 454, rfl⟩
abbrev main_v344 : Ref sig .tc := ⟨.hbm, 455, rfl⟩
abbrev main_v345 : Ref sig .tc := ⟨.hbm, 456, rfl⟩
abbrev main_v346 : Ref sig .tc := ⟨.hbm, 457, rfl⟩
abbrev main_cst_66 : Ref sig .tc := ⟨.hbm, 458, rfl⟩
abbrev main_v347 : Ref sig .tc := ⟨.hbm, 459, rfl⟩
abbrev main_v348 : Ref sig .tc := ⟨.hbm, 460, rfl⟩
abbrev main_cst_67 : Ref sig .tc := ⟨.hbm, 461, rfl⟩
abbrev main_v349 : Ref sig .tc := ⟨.hbm, 462, rfl⟩
abbrev main_v350 : Ref sig .tc := ⟨.hbm, 463, rfl⟩
abbrev main_call17_cst : Ref sig .tc := ⟨.hbm, 464, rfl⟩
abbrev main_call17_v0 : Ref sig .tc := ⟨.hbm, 465, rfl⟩
abbrev main_call17_cst_0 : Ref sig .tc := ⟨.hbm, 466, rfl⟩
abbrev main_call17_v1 : Ref sig .tc := ⟨.hbm, 467, rfl⟩
abbrev main_call17_v2 : Ref sig .tc := ⟨.hbm, 468, rfl⟩
abbrev main_call17_v3 : Ref sig .tc := ⟨.hbm, 469, rfl⟩
abbrev main_call17_v4 : Ref sig .tc := ⟨.hbm, 470, rfl⟩
abbrev main_call17_v5 : Ref sig .tc := ⟨.hbm, 471, rfl⟩
abbrev main_call17_v6 : Ref sig .tc := ⟨.hbm, 472, rfl⟩
abbrev main_call17_cst_1 : Ref sig .tc := ⟨.hbm, 473, rfl⟩
abbrev main_call17_v7 : Ref sig .tc := ⟨.hbm, 474, rfl⟩
abbrev main_call17_v8 : Ref sig .tc := ⟨.hbm, 475, rfl⟩
abbrev main_call17_v9 : Ref sig .tc := ⟨.hbm, 476, rfl⟩
abbrev main_call17_v10 : Ref sig .tc := ⟨.hbm, 477, rfl⟩
abbrev main_v351 : Ref sig .tc := ⟨.hbm, 478, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S8x64x64_S1x64x64_0_0_0 : S8x64x64.Slices ![0, 0, 0] S1x64x64
  shapeCasts_S1x64x64_S64x64 : S1x64x64.ShapeCasts S64x64
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  slices_S8x64x16_S1x64x16_0_0_0 : S8x64x16.Slices ![0, 0, 0] S1x64x16
  shapeCasts_S1x64x16_S64x16 : S1x64x16.ShapeCasts S64x16
  slices_S8x64x16_S1x64x16_1_0_0 : S8x64x16.Slices ![1, 0, 0] S1x64x16
  slices_S8x64x16_S1x64x16_2_0_0 : S8x64x16.Slices ![2, 0, 0] S1x64x16
  slices_S8x64x16_S1x64x16_3_0_0 : S8x64x16.Slices ![3, 0, 0] S1x64x16
  slices_S8x64x16_S1x64x16_4_0_0 : S8x64x16.Slices ![4, 0, 0] S1x64x16
  slices_S8x64x16_S1x64x16_5_0_0 : S8x64x16.Slices ![5, 0, 0] S1x64x16
  slices_S8x64x16_S1x64x16_6_0_0 : S8x64x16.Slices ![6, 0, 0] S1x64x16
  slices_S8x64x16_S1x64x16_7_0_0 : S8x64x16.Slices ![7, 0, 0] S1x64x16
  reducesTo_S100000x16_S16_d0 : S100000x16.ReducesTo [0] S16
  h_S_ : 0 < S_.numel
  bcast_S_S1x16 : S_.BroadcastsInDim S1x16 (![] : Fin 0 → Fin S1x16.rank)
  reducesTo_S1x16_S1_d1 : S1x16.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x16_0_1 : S1x1.BroadcastsInDim S1x16 (![0, 1] : Fin 2 → Fin S1x16.rank)
  gather_S100000x64_S1600000x1_S1600000x64_1_0_n_n_0_1_164_wf : GatherDims.WF S100000x64 S1600000x1 S1600000x64 [1] [0] [] [0] [] 1 ![1, 64]
  dot_S100000x64_S64x64_S100000x64_1_0_0_1_n_n_wf : DotDims.WF S100000x64 S64x64 S100000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x16_S100000x16_1_0_0_1_n_n_wf : DotDims.WF S100000x64 S64x16 S100000x16 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.K.Region0.lean ====
import proofs.«409165_j17514876633598_2_alg».proof.Proof.Gen.Kernel.Launch
import proofs.«409165_j17514876633598_2_alg».proof.Proof.Gen.Kernel.Skeleton
import proofs.«409165_j17514876633598_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

noncomputable abbrev rA0 : Rect S5000x64 := Rect.unit (s := S5000x64) ![0, 0] S5000x64.size inb_S5000x64_S5000x64_0_0
noncomputable abbrev rB0 : Rect S5000x512 := Rect.unit (s := S5000x512) ![0, 0] S5000x512.size inb_S5000x512_S5000x512_0_0
noncomputable abbrev rC0 : Rect S64x64 := Rect.unit (s := S64x64) ![0, 0] S64x64.size inb_S64x64_S64x64_0_0
noncomputable abbrev rD0 : Rect S512x64 := Rect.unit (s := S512x64) ![0, 0] S512x64.size inb_S512x64_S512x64_0_0
noncomputable abbrev rE0 : Rect S1x64 := Rect.unit (s := S1x64) ![0, 0] S1x64.size inb_S1x64_S1x64_0_0

noncomputable def out0_5 (x0 : Vec F S5000x64 .f32) (x1 : Vec F S5000x512 .f32) (x2 : Vec F S64x64 .f32) (x3 : Vec F S512x64 .f32)
    (x4 : Vec F S1x64 .f32) : Vec F S5000x64 .f32 :=
  View.canon [⟨rA0, k0_pay1 (View.ld x0 rA0) (View.ld x1 rB0) (View.ld x2 rC0) (View.ld x3 rD0) (View.ld x4 rE0)⟩]

theorem cover0_5 (p0 : Vec F S5000x64 .f32) (y : S5000x64.Idx) :
    ∃ pc ∈ ([⟨rA0, p0⟩] : List (View.Piece (Elt F) S5000x64 .f32)), y ∈ pc.1.set :=
  View.cover_of_tiled [⟨rA0, p0⟩] S5000x64.size (by rfl) y

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

private theorem before0 (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t)
    ∧ (∀ d, (dat0 V c).before 4 t d = iblk0 V c 4 t) := by
  refine ⟨?_, ?_, ?_, ?_, ?_⟩ <;> intro d <;> rw [Dat.before_in_eq_fetched] <;> intros <;> rfl

theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)
        ∗ owns (c : Thread nD τ) (st0_3 t) fullShare ((dat0 V c).after 3 t)
        ∗ owns (c : Thread nD τ) (st0_4 t) fullShare ((dat0 V c).after 4 t)
        ∗ owns (c : Thread nD τ) (st0_5 t) fullShare ((dat0 V c).after 5 t))) := by
  unfold bodyAt0
  obtain ⟨b0, b1, b2, b3, b4⟩ := before0 V c t
  simp only [b0, b1, b2, b3, b4]
  rw [show (dat0 V c).Φ t.succ = (dat0 V c).Φ t.castSucc from rfl,
    show (dat0 V c).owesAt () t.succ = (dat0 V c).owesAt () t.castSucc from rfl]
  dsimp only [dat0]
  generalize iblk0 V c 0 t = x0; generalize iblk0 V c 1 t = x1; generalize iblk0 V c 2 t = x2
  generalize iblk0 V c 3 t = x3; generalize iblk0 V c 4 t = x4
  simp only [cc0__root_kernel_eq_skeleton]; unfold cc0__root_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, -, H5⟩⟩
  subst hf0 hf1 hf2 hf3 hf4
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

theorem body_obligation0 (c : Dev nD) :
    BodyObligation (dat0 (F := F) V c) (defs₀ (F := F)) Variants.none () Set.univ := fun t => by
  rw [bigSep_W0, bigSep_W0]
  exact sound_body0 V c t

end

end Cert.Kernel.Hand

end
-- ==== Proof.K.Region1.lean ====
import proofs.«409165_j17514876633598_2_alg».proof.Proof.Gen.Kernel.Launch
import proofs.«409165_j17514876633598_2_alg».proof.Proof.Gen.Kernel.Skeleton
import proofs.«409165_j17514876633598_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1

theorem hcond1_1 : ∀ t : Fin cfg1.N, cond1_1 (grid1.coords t) ↔ t.val = 19 :=
  (by decide +kernel : ∀ t : Fin grid1.N, cond1_1 (grid1.coords t) ↔ t.val = 19)

theorem hz1 : (![0, 0] : Fin 2 → Nat) = fun _ => 0 := funext fun a => by fin_cases a <;> rfl

section
variable (c : Dev nD) (i : grid1.Coords) (arg1 : Memref sig .tc .vmem S5000x64 .f32) (harg1 : arg1.IsWhole)
  (arg2 : Memref sig .tc .vmem S5000x512 .f32) (harg2 : arg2.IsWhole) (arg3 : Memref sig .tc .vmem S64x16 .f32) (harg3 : arg3.IsWhole)
  (arg4 : Memref sig .tc .vmem S512x16 .f32) (harg4 : arg4.IsWhole) (arg5 : Memref sig .tc .vmem S1x16 .f32) (harg5 : arg5.IsWhole)
  (arg6 : Memref sig .tc .vmem S1x16 .f32) (harg6 : arg6.IsWhole) (arg7 : Memref sig .tc .vmem S1x16 .f32) (harg7 : arg7.IsWhole)
  (x0 : Vec F S5000x64 .f32) (x1 : Vec F S5000x512 .f32) (x2 : Vec F S64x16 .f32) (x3 : Vec F S512x16 .f32)
  (x4 xi5 xs : Vec F S1x16 .f32) (E : Set ℕ) (K : PUnit → sProp (MT nD τ sig Unit (Elt F) ℕ (UR sig nD τ) ℕ))

private noncomputable abbrev ins1 : sProp (MT nD τ sig Unit (Elt F) ℕ (UR sig nD τ) ℕ) :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4)

-- Reading a whole buffer is a bijection on contents, so owning it at `X` is holding its raw contents `unread X`.
private theorem owns_unread {c : Dev nD} {sp : Space} {sh : Shape} {e : EltTy} {m : Memref sig .tc sp sh e} (h : m.IsWhole)
    (X : sh.Idx → Elt F e) :
    (owns (c : Thread nD τ) m fullShare X : sProp 𝕄)
      = (m.view.loc (c : Thread nD τ) ↦[m.view.set]{fullShare} h.unread X) := by
  have h₁ : (owns (c : Thread nD τ) m fullShare X : sProp 𝕄)
      ⊢ (m.view.loc (c : Thread nD τ) ↦[m.view.set]{fullShare} h.unread X) := by
    unfold owns; iintro ⟨%f, %hf, H⟩; obtain rfl := h.eq_unread hf; iexact H
  have h₂ := owns_intro (Ix := Unit) (Name := ℕ) (U := UR sig nD τ) (Lvl := ℕ) (c : Thread nD τ) m fullShare (h.unread X)
  rw [h.read_unread] at h₂
  exact BI.equiv_iff.mp ⟨h₁, h₂⟩

-- One triple for every grid point: the sums restart from the cleared scratch exactly when the first test holds, the
-- result row is written exactly when the second does, and no point passes both.
set_option maxHeartbeats 1000000 in
theorem run1 (hne : ¬(cond1_0 i ∧ cond1_1 i)) :
    iprop(ins1 c arg1 arg2 arg3 arg4 arg5 x0 x1 x2 x3 x4 ∗ owns (c : Thread nD τ) arg6 fullShare xi5
        ∗ owns (c : Thread nD τ) arg7 fullShare xs
        ∗ (iprop(ins1 c arg1 arg2 arg3 arg4 arg5 x0 x1 x2 x3 x4
          ∗ owns (c : Thread nD τ) arg6 fullShare (if cond1_1 i then k1_pay3 (k1_pay2 x0 x1 x2 x3 x4 (if cond1_0 i then k1_pay1 (F := F) else xs)) else xi5)
          ∗ owns (c : Thread nD τ) arg7 fullShare (k1_pay2 x0 x1 x2 x3 x4 (if cond1_0 i then k1_pay1 (F := F) else xs))) -∗ K ⟨⟩))
      ⊢ wp frame (wpE (defs₀ (F := F)) Variants.none c none) E (cc1__root_pool_kernel i arg1 harg1 arg2 harg2 arg3 harg3 arg4 harg4 arg5 harg5 arg6 harg6 arg7 harg7) K := by
  simp only [cc1__root_pool_kernel_eq_skeleton]; unfold cc1__root_pool_kernel_skel
  by_cases hc0 : cond1_0 i <;> by_cases hc1 : cond1_1 i
  · exact absurd ⟨hc0, hc1⟩ hne
  all_goals
    first | rw [if_pos hc0] | rw [if_neg hc0]
    first | rw [if_pos hc1] | rw [if_neg hc1]
    simp only [ins1, owns_unread harg1, owns_unread harg2, owns_unread harg3, owns_unread harg4, owns_unread harg5,
      owns_unread harg6 xi5, owns_unread harg7 xs]
    unfold owns
    iintro ⟨⟨H0, H1, H2, H3, H4⟩, H5, HS0, Hk⟩
    sl_exec (disch := first | exact hc0 | exact hc1)
    sl_step
    iapply Hk
    iframe H0 H1 H2 H3 H4
    first | iframe H5 | isplitl [H5]
    all_goals
      iexists _; isplitr
      swap; · iassumption
      ipureintro
      sl_unfold_words
      rw [View.read_writes_eq_canon _ _ _ (fun y => ⟨_, List.mem_cons_self, View.mem_set_unit_zero hz1 inb_S1x16_S1x16_0_0 y⟩)]
      rw [View.canon_cons_unit_zero (S := S1x16) hz1]
      simp only [View.readAt_eq_ld, Memref.IsWhole.read_unread, View.ld_unit_zero (S := S5000x64) hz1,
        View.ld_unit_zero (S := S5000x512) hz1, View.ld_unit_zero (S := S64x16) hz1, View.ld_unit_zero (S := S512x16) hz1,
        View.ld_unit_zero (S := S1x16) hz1, View.readCov_unit_zero (S := S1x16) _ hz1]

end

section
variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

noncomputable abbrev scM1 : Memref sig .tc .vmem S1x16 .f32 := Memref.whole cc1_scratch0

noncomputable def acc1 (c : Dev nD) : (n : ℕ) → n < cfg1.N → Vec F S1x16 .f32
  | 0, hn => k1_pay2 (iblk1 V c 0 ⟨0, hn⟩) (iblk1 V c 1 ⟨0, hn⟩) (iblk1 V c 2 ⟨0, hn⟩) (iblk1 V c 3 ⟨0, hn⟩)
      (iblk1 V c 4 ⟨0, hn⟩) (k1_pay1 (F := F))
  | n + 1, hn => k1_pay2 (iblk1 V c 0 ⟨n + 1, hn⟩) (iblk1 V c 1 ⟨n + 1, hn⟩) (iblk1 V c 2 ⟨n + 1, hn⟩)
      (iblk1 V c 3 ⟨n + 1, hn⟩) (iblk1 V c 4 ⟨n + 1, hn⟩) (acc1 c n (Nat.lt_of_succ_lt hn))

theorem acc1_zero (c : Dev nD) (hn : 0 < cfg1.N) :
    acc1 V c 0 hn = k1_pay2 (iblk1 V c 0 ⟨0, hn⟩) (iblk1 V c 1 ⟨0, hn⟩) (iblk1 V c 2 ⟨0, hn⟩) (iblk1 V c 3 ⟨0, hn⟩)
      (iblk1 V c 4 ⟨0, hn⟩) (k1_pay1 (F := F)) := rfl

theorem acc1_succ (c : Dev nD) (n : ℕ) (hn : n + 1 < cfg1.N) :
    acc1 V c (n + 1) hn = k1_pay2 (iblk1 V c 0 ⟨n + 1, hn⟩) (iblk1 V c 1 ⟨n + 1, hn⟩) (iblk1 V c 2 ⟨n + 1, hn⟩)
      (iblk1 V c 3 ⟨n + 1, hn⟩) (iblk1 V c 4 ⟨n + 1, hn⟩) (acc1 V c n (Nat.lt_of_succ_lt hn)) := rfl

noncomputable def out1_5 (c : Dev nD) (t : Fin cfg1.N) : Vec F S1x16 .f32 := k1_pay3 (acc1 V c t.val t.isLt)

noncomputable abbrev others1 (c : Dev nD) : sProp 𝕄 :=
  Pipeline.scopedRestBut (Ix := Unit) (Name := ℕ) (U := UR sig nD τ) (Lvl := ℕ) (Val := Elt F) spec1 c [cc1_scratch0]

noncomputable def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ others1 (F := F) c) ∗ (∃ r, prngReg c r))

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) : (dat1 V c).after 5 t = out1_5 V c t := by dsimp only [dat1]

theorem idleAt1_5 : ∀ t : Fin cfg1.N, ¬cond1_1 (grid1.coords t) → cfg1.idle 5 (grid1.coords t) = true := by decide +kernel

theorem noFlush1_5 : ∀ t : Fin cfg1.N, ¬cond1_1 (grid1.coords t) → (cfg1.win 5).flush t = false := by decide +kernel

theorem liveAt1_5 : ∀ t : Fin cfg1.N, cond1_1 (grid1.coords t) → cfg1.idle 5 (grid1.coords t) = false := by decide +kernel

theorem PhiA1_eq (c : Dev nD) :
    (Pipeline.ΦA spec1 c : sProp 𝕄)
      = iprop(iprop(iprop((∃ d, owns (c : Thread nD τ) scM1 fullShare d)) ∗ others1 (F := F) c) ∗ (∃ r, prngReg c r)) := by
  unfold Pipeline.ΦA; rw [Pipeline.scopedRest_split_of_list spec1 c [cc1_scratch0] (by decide) (by decide)]
  simp only [scM1, owns_whole]; try rfl

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ others1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ others1 (F := F) c) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

theorem acc1_first (c : Dev nD) (t : Fin cfg1.N) (h0 : t.val = 0) :
    acc1 V c t.val t.isLt = k1_pay2 (iblk1 V c 0 t) (iblk1 V c 1 t) (iblk1 V c 2 t) (iblk1 V c 3 t) (iblk1 V c 4 t) (k1_pay1 (F := F)) := by
  obtain ⟨n, hn⟩ := t
  cases n with
  | zero => exact acc1_zero V c hn
  | succ n => exact absurd h0 (Nat.succ_ne_zero n)

theorem acc1_later (c : Dev nD) (t : Fin cfg1.N) (hz : t.val ≠ 0) :
    acc1 V c t.val t.isLt = k1_pay2 (iblk1 V c 0 t) (iblk1 V c 1 t) (iblk1 V c 2 t) (iblk1 V c 3 t) (iblk1 V c 4 t)
      (acc1 V c (t.val - 1) (Nat.lt_of_le_of_lt (Nat.sub_le _ _) t.isLt)) := by
  obtain ⟨n, hn⟩ := t
  cases n with
  | zero => exact absurd rfl hz
  | succ n => exact acc1_succ V c n hn

private theorem before1 (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) := by
  refine ⟨?_, ?_, ?_, ?_, ?_⟩ <;> intro d <;> rw [Dat.before_in_eq_fetched] <;> intros <;> rfl

theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t)
        ∗ owns (c : Thread nD τ) (st1_4 t) fullShare ((dat1 V c).after 4 t)
        ∗ (dat1 V c).leavesExact 5 t)) := by
  unfold bodyAt1
  obtain ⟨b0, b1, b2, b3, b4⟩ := before1 V c t
  simp only [b0, b1, b2, b3, b4]
  rw [show (dat1 V c).owesAt () t.succ = (dat1 V c).owesAt () t.castSucc from rfl,
    show (dat1 V c).Φ t.succ = PhiS1 V c (t.val + 1) t.isLt from rfl, PhiS1_succ, PhiS1_castSucc V c t]
  have hne : ¬(cond1_0 (grid1.coords t) ∧ cond1_1 (grid1.coords t)) := fun h => by
    have := (hcond1_0 t).mp h.1; have := (hcond1_1 t).mp h.2; omega
  by_cases h0 : t.val = 0
  on_goal 2 => by_cases h1 : t.val = 19
  on_goal 1 =>
    have hc0 := (hcond1_0 t).mpr h0
    have hc1 : ¬cond1_1 (grid1.coords t) := fun h => hne ⟨hc0, h⟩
    rw [Dat.leavesExact_idle (dat1 V c) 5 t (idleAt1_5 t hc1) (noFlush1_5 t hc1), acc1_first V c t h0, PhiS1_zero V c _ _ h0, PhiA1_eq]
    dsimp only [dat1]
  on_goal 2 =>
    have hc0 : ¬cond1_0 (grid1.coords t) := fun h => h0 ((hcond1_0 t).mp h)
    have hc1 := (hcond1_1 t).mpr h1
    rw [acc1_later V c t h0, PhiS1_pos V c _ _ h0,
      show (dat1 V c).leavesExact 5 t = owns (c : Thread nD τ) (st1_5 t) fullShare ((dat1 V c).after 5 t) from by
        unfold Dat.leavesExact; rw [liveAt1_5 t hc1], after1_5]
    unfold out1_5
    rw [acc1_later V c t h0]
    dsimp only [dat1]
  on_goal 3 =>
    have hc0 : ¬cond1_0 (grid1.coords t) := fun h => h0 ((hcond1_0 t).mp h)
    have hc1 : ¬cond1_1 (grid1.coords t) := fun h => h1 ((hcond1_1 t).mp h)
    rw [acc1_later V c t h0, PhiS1_pos V c _ _ h0, Dat.leavesExact_idle (dat1 V c) 5 t (idleAt1_5 t hc1) (noFlush1_5 t hc1)]
    dsimp only [dat1]
  all_goals
    first
      | iintro ⟨⟨⟨⟨%ds, HS0⟩, Hr⟩, Hg⟩, Ho, ⟨%d0, H0⟩, ⟨%d1, H1⟩, ⟨%d2, H2⟩, ⟨%d3, H3⟩, ⟨%d4, H4⟩, ⟨%d5, H5⟩⟩
      | iintro ⟨⟨⟨HS0, Hr⟩, Hg⟩, Ho, ⟨%d0, H0⟩, ⟨%d1, H1⟩, ⟨%d2, H2⟩, ⟨%d3, H3⟩, ⟨%d4, H4⟩, ⟨%d5, H5⟩⟩
    iapply (run1 c (grid1.coords t) _ _ _ _ _ _ _ _ _ _ _ _ _ _ (iblk1 V c 0 t) (iblk1 V c 1 t) (iblk1 V c 2 t) (iblk1 V c 3 t) (iblk1 V c 4 t) _ _ Set.univ _ hne)
    unfold ins1
    iframe H0 H1 H2 H3 H4
    isplitl [H5]; · iexact H5
    isplitl [HS0]; · iexact HS0
    first | rw [if_pos hc0] | rw [if_neg hc0]
    first | rw [if_pos hc1] | rw [if_neg hc1]
    iintro ⟨⟨H0, H1, H2, H3, H4⟩, H5, HS0⟩
    iframe HS0 Hr Hg Ho H0 H1 H2 H3 H4
    first | iexact H5 | (iexists _; iexact H5)

theorem body_obligation1 (c : Dev nD) :
    BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 20 := N_1; omega), PhiA1_eq]
  iintro ⟨⟨HS0, Hr⟩, Hg⟩
  iframe Hr Hg
  iexists _; iexact HS0

end

end Cert.Kernel.Hand

end
-- ==== Proof.K.Fold.lean ====
import proofs.«409165_j17514876633598_2_alg».proof.Proof.K.Region0
import proofs.«409165_j17514876633598_2_alg».proof.Proof.K.Region1

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

noncomputable abbrev W0 : Dev nD → Valuation τ sig (Elt F) := fun c b => m (c, b)
noncomputable abbrev W1 : Dev nD → Valuation τ sig (Elt F) := fun c => StableHlo.after hostOps0 (W0 m c)
noncomputable abbrev W2 : Dev nD → Valuation τ sig (Elt F) := fun c => StableHlo.after hostOps0_1 (W1 m c)
noncomputable abbrev W3 : Dev nD → Valuation τ sig (Elt F) := fun c => StableHlo.after hostOps0_2 (W2 m c)
noncomputable abbrev W4 : Dev nD → Valuation τ sig (Elt F) := fun c => StableHlo.after hostOps0_3 (W3 m c)
noncomputable abbrev W5 : Dev nD → Valuation τ sig (Elt F) := fun c => StableHlo.after hostOps0_4 (W4 m c)

noncomputable abbrev W6 : Dev nD → Valuation τ sig (Elt F) := fun c => StableHlo.after hostOps0_5 (W5 m c)

noncomputable abbrev V6 : (c : Dev nD) → (b : Ref sig .tc) → Buf (Elt F) ((c : Thread nD τ).loc b) := fun c b => W6 m c b

noncomputable def W7 (c : Dev nD) : Valuation τ sig (Elt F) :=
  Pipeline.withArrays spec0 c (W6 m c) fun w => (dat0 (V6 m) c).arrAt w cfg0.N
noncomputable abbrev W8 : Dev nD → Valuation τ sig (Elt F) := fun c => StableHlo.after hostOps1 (W7 m c)

noncomputable abbrev W9 : Dev nD → Valuation τ sig (Elt F) := fun c => StableHlo.after hostOps1_1 (W8 m c)
noncomputable abbrev V9 : (c : Dev nD) → (b : Ref sig .tc) → Buf (Elt F) ((c : Thread nD τ).loc b) := fun c b => W9 m c b

noncomputable def W10 (c : Dev nD) : Valuation τ sig (Elt F) :=
  Pipeline.withArrays spec1 c (W9 m c) fun w => (dat1 (V9 m) c).arrAt w cfg1.N

theorem W7_arr (c : Dev nD) (w : Fin cfg0.W) :
    W7 m c (Proc.devRef .tc (Pipeline.arrRef spec0 w)) = (dat0 (V6 m) c).arrAt w cfg0.N := by
  unfold W7; exact Pipeline.withArrays_arr spec0 launch0.win.arr_inj c _ _ w
theorem W7_of_ne (c : Dev nD) (b : Ref sig .tc) (hb : ∀ w, Pipeline.arrRef spec0 w ≠ b) :
    W7 m c (Proc.devRef .tc b) = W6 m c (Proc.devRef .tc b) := by
  unfold W7; exact Pipeline.withArrays_of_ne spec0 c _ _ b hb
theorem W10_arr (c : Dev nD) (w : Fin cfg1.W) :
    W10 m c (Proc.devRef .tc (Pipeline.arrRef spec1 w)) = (dat1 (V9 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb

end Cert.Kernel.Hand

end
-- ==== Proof.K.Launch.lean ====
import proofs.«409165_j17514876633598_2_alg».proof.Proof.K.Fold
import proofs.«409165_j17514876633598_2_alg».proof.Proof.Gen.Kernel.Regions
import Idealize.ShloMosaic.Adequacy
import Idealize.ShloMosaic.Init

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W6_keep (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) :
    W6 m c (Proc.devRef .tc r) = m ((c.tc : Thread nD τ).loc r) :=
  (StableHlo.after_of_writes_sub hostOps0_5 _ hostOps0_5_writes h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

-- A region changes only its output windows' arrays: any other reference reads the same before and after it.
private theorem W7_keep (c : Dev nD) (r : Ref sig .tc) (k : ∀ w, Pipeline.arrRef spec0 w = r → (cfg0.win w).isOut = false) :
    W7 m c (Proc.devRef .tc r) = W6 m c (Proc.devRef .tc r) := by
  by_cases h : ∃ w, Pipeline.arrRef spec0 w = r
  · obtain ⟨w, rfl⟩ := h
    exact (W7_arr m c w).trans (((dat0 (V6 m) c).arrAt_in w (k w rfl) _).trans (A_eq0 (V6 m) c w))
  · exact W7_of_ne m c r fun w e => h ⟨w, e⟩

private theorem W10_keep (c : Dev nD) (r : Ref sig .tc) (k : ∀ w, Pipeline.arrRef spec1 w = r → (cfg1.win w).isOut = false) :
    W10 m c (Proc.devRef .tc r) = W9 m c (Proc.devRef .tc r) := by
  by_cases h : ∃ w, Pipeline.arrRef spec1 w = r
  · obtain ⟨w, rfl⟩ := h
    exact (W10_arr m c w).trans (((dat1 (V9 m) c).arrAt_in w (k w rfl) _).trans (A_eq1 (V9 m) c w))
  · exact W10_of_ne m c r fun w e => h ⟨w, e⟩

private noncomputable abbrev args : List (Ref sig .tc) :=
  [main_arg0, main_arg1, main_arg2, main_arg3, main_arg4, main_arg5, main_arg6, main_arg7, main_arg8]

-- No argument is scoped, written by a host stretch, or an output window's array of either region.
private theorem args_ok : ∀ r ∈ args, ¬ (Proc.devRef .tc r : DevRef τ sig).isScoped
    ∧ (∀ w, Pipeline.arrRef spec1 w = r → (cfg1.win w).isOut = false)
    ∧ (∀ w, Pipeline.arrRef spec0 w = r → (cfg0.win w).isOut = false)
    ∧ r ∉ hostOps0_W ++ hostOps0_1_W ++ hostOps0_2_W ++ hostOps0_3_W ++ hostOps0_4_W ++ hostOps0_5_W ++ hostOps1_W
        ++ hostOps1_1_W := by
  decide

private theorem W10_arg (c : Dev nD) (r : Ref sig .tc) (hr : r ∈ args) :
    W10 m c (Proc.devRef .tc r) = m ((c.tc : Thread nD τ).loc r) := by
  obtain ⟨-, k1, k0, h⟩ := args_ok r hr
  simp only [List.mem_append, not_or] at h
  obtain ⟨⟨⟨⟨⟨⟨⟨h0, h1⟩, h2⟩, h3⟩, h4⟩, h5⟩, h6⟩, h7⟩ := h
  exact (W10_keep m c r k1).trans <| (StableHlo.after_of_writes_sub hostOps1_1 _ hostOps1_1_writes h7).trans <|
    (StableHlo.after_of_writes_sub hostOps1 _ hostOps1_writes h6).trans <|
    (W7_keep m c r k0).trans (W6_keep m c r h0 h1 h2 h3 h4 h5)

noncomputable def pdats : (p : Fin 2) → (c : Dev nD) → Dat τ (Elt F) Unit ℕ (UR sig nD τ) ℕ (Pipeline.pin (pcfgs (F := F)) adm p) c
  | ⟨0, _⟩ => fun c => dat0 (V6 m) c
  | ⟨1, _⟩ => fun c => dat1 (V9 m) c
noncomputable abbrev 𝒱₀ : Variants := Variants.none

noncomputable abbrev L : GSem nD τ sig → Finset Unit := fun _ => ∅
noncomputable abbrev lv : GSem nD τ sig → Unit → ℕ := fun _ _ => 0

noncomputable abbrev R (c : Dev nD) : sProp 𝕄 := iprop((∃ r, prngReg c r) ∗ ∃ W, owes (c : Thread nD τ) (0 : CellTallies nD τ sig Unit) W)

noncomputable abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

noncomputable abbrev Tₙ (c : Dev nD) : sProp 𝕄 := iprop(StableHlo.held (c : Thread nD τ) (Pipeline.ucRefs τ sig) (W10 m c) ∗ ∃ r, prngReg c r)

private theorem hinA (p : Fin 2) (c : Dev nD) :
    (iprop((∃ r, prngReg c r) ∗ Pipeline.prefHeld (pcfgs (F := F) p).pre c (fun _ => fullShare) (adm (F := F) p).1
      ∗ Pipeline.scopedRest (Pipeline.pin (pcfgs (F := F)) adm p).spec c) : sProp 𝕄)
      ⊢ Pipeline.ΦA (Pipeline.pin (pcfgs (F := F)) adm p).spec c := by
  unfold Pipeline.ΦA
  iintro ⟨Hp, -, Hr⟩
  iframe Hr
  iexact Hp

private theorem houtA (p : Fin 2) (c : Dev nD) :
    (Pipeline.ΦA (Pipeline.pin (pcfgs (F := F)) adm p).spec c : sProp 𝕄) ⊢ iprop((∃ r, prngReg c r) ∗ BI.emp
      ∗ Pipeline.scopedRest (Pipeline.pin (pcfgs (F := F)) adm p).spec c) := by
  unfold Pipeline.ΦA
  iintro ⟨Hr, Hp⟩
  iframe Hp Hr
  iempintro

set_option backward.isDefEq.respectTransparency.types false in
noncomputable def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V6 m) c).loose
  hwaits := Pipeline.hwaits_of_owed_zero _ _ _ _ L lv 0 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec0 c (V6 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    iframe Ha Hrest
    isplitr; · unfold Pipeline.prefHeld; rw [show (Finset.univ : Finset (Fin 0)) = ∅ from rfl, BI.bigSep_empty]; iempintro
    isplitr [Hp]; swap; · iexact Hp
    unfold Pipeline.Dat.owesAt Pipeline.owesWithin
    icases HO with ⟨%W, HO⟩; iexists W; isplitr; · ipureintro; exact fun _ _ => Or.inl trivial
    iexact HO
  hin c := hinA 0 c
  hout c := by
    rw [Pipeline.ownSems0_none]
    exact houtA 0 c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V6 m c) (fun b => W7 m c b) ((pdats m 0 c).arrAt · cfg0.N) (fun w => (W7_arr m c w).symm)
      fun b hb => W7_of_ne m c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
noncomputable def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    iframe Ha Hrest
    isplitr; · unfold Pipeline.prefHeld; rw [show (Finset.univ : Finset (Fin 0)) = ∅ from rfl, BI.bigSep_empty]; iempintro
    isplitr [Hp]; swap; · iexact Hp
    unfold Pipeline.Dat.owesAt Pipeline.owesWithin
    icases HO with ⟨%W, HO⟩; iexists W; isplitr; · ipureintro; exact fun _ _ => Or.inl trivial
    iexact HO
  hin c := (hinA 1 c).trans (hin1 (V9 m) c)
  hout c := by
    rw [Pipeline.ownSems0_none]
    exact (hout1 (V9 m) c).trans (houtA 1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V9 m c) (fun b => W10 m c b) ((pdats m 1 c).arrAt · cfg1.N) (fun w => (W10_arr m c w).symm)
      fun b hb => W10_of_ne m c b fun w e => hb (Finset.mem_image.mpr ⟨w, Finset.mem_univ _, e⟩)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

noncomputable abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .region (reg0 m),
    .host (hseg hostOps1 hostOps1_sub hostOps1_fresh (W7 m)),
    .host (hseg hostOps1_1 hostOps1_1_sub hostOps1_1_fresh (W8 m)),
    .region (reg1 m) ]

theorem main_run (c : Dev nD) : main (F := F) c = Pipeline.Seg.run (segs m) := by
  rw [main_chain c, Pipeline.Seg.run_eq_chain]
  exact congrArg Pipeline.chain (show _ = (segs m).map Pipeline.Seg.prog from rfl)

set_option backward.isDefEq.respectTransparency.types false in
theorem run_all : θ_run defs (onTc (τ := τ) (main (F := F))) ⟨m, fun _ => 0, ρ⟩
    (fun r => ∀ c : Dev nD, ∀ b : Ref sig .tc, ¬ (Proc.devRef .tc b : DevRef τ sig).isScoped →
      r.2.mem ((c.tc : Thread nD τ).loc b) = W10 m c (Proc.devRef .tc b)) := by
  exact Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c b hb => h c _ (Finset.mem_filter.mpr ⟨StableHlo.devRef_mem_tcRefs b, hb⟩))

noncomputable def kres (c : Dev nD) : Buf (Elt F) ((c.tc : Thread nD τ).loc main_v36) := W10 m c (Proc.devRef .tc main_v36)

theorem kres_eq (c : Dev nD) : kres m c = (dat1 (V9 m) c).arrAt 5 cfg1.N := by
  exact W10_arr m c 5

theorem run_value : θ_run defs (onTc (τ := τ) (main (F := F))) ⟨m, fun _ => 0, ρ⟩ (fun r => ∀ c : Dev nD,
      r.2.mem ((c.tc : Thread nD τ).loc main_v36) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (run_all m ρ)
  have a : ∀ b ∈ args, r.2.mem ((c.tc : Thread nD τ).loc b) = m ((c.tc : Thread nD τ).loc b) := fun b hb =>
    (h c b (args_ok b hb).1).trans (W10_arg m c b hb)
  exact ⟨h c main_v36 (by decide), a main_arg0 (by decide), a main_arg1 (by decide), a main_arg2 (by decide),
    a main_arg3 (by decide), a main_arg4 (by decide), a main_arg5 (by decide), a main_arg6 (by decide),
    a main_arg7 (by decide), a main_arg8 (by decide)⟩

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  exact (θ_run defs _ _).mono (fun r h c => (h c).2) (run_value m ρ)

end Cert.Kernel.Hand

end
-- ==== Proof.KI.Region0.lean ====
import proofs.«409165_j17514876633598_2_alg».proof.Proof.Gen.KernelIdeal.Launch
import proofs.«409165_j17514876633598_2_alg».proof.Proof.Gen.KernelIdeal.Skeleton
import proofs.«409165_j17514876633598_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

noncomputable abbrev rA0 : Rect S5000x64 := Rect.unit (s := S5000x64) ![0, 0] S5000x64.size inb_S5000x64_S5000x64_0_0
noncomputable abbrev rB0 : Rect S5000x512 := Rect.unit (s := S5000x512) ![0, 0] S5000x512.size inb_S5000x512_S5000x512_0_0
noncomputable abbrev rC0 : Rect S64x64 := Rect.unit (s := S64x64) ![0, 0] S64x64.size inb_S64x64_S64x64_0_0
noncomputable abbrev rD0 : Rect S512x64 := Rect.unit (s := S512x64) ![0, 0] S512x64.size inb_S512x64_S512x64_0_0
noncomputable abbrev rE0 : Rect S1x64 := Rect.unit (s := S1x64) ![0, 0] S1x64.size inb_S1x64_S1x64_0_0

noncomputable def out0_5 (x0 : Vec F S5000x64 .f32) (x1 : Vec F S5000x512 .f32) (x2 : Vec F S64x64 .f32) (x3 : Vec F S512x64 .f32)
    (x4 : Vec F S1x64 .f32) : Vec F S5000x64 .f32 :=
  View.canon [⟨rA0, k0_pay1 (View.ld x0 rA0) (View.ld x1 rB0) (View.ld x2 rC0) (View.ld x3 rD0) (View.ld x4 rE0)⟩]

theorem cover0_5 (p0 : Vec F S5000x64 .f32) (y : S5000x64.Idx) :
    ∃ pc ∈ ([⟨rA0, p0⟩] : List (View.Piece (Elt F) S5000x64 .f32)), y ∈ pc.1.set :=
  View.cover_of_tiled [⟨rA0, p0⟩] S5000x64.size (by rfl) y

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

private theorem before0 (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t)
    ∧ (∀ d, (dat0 V c).before 4 t d = iblk0 V c 4 t) := by
  refine ⟨?_, ?_, ?_, ?_, ?_⟩ <;> intro d <;> rw [Dat.before_in_eq_fetched] <;> intros <;> rfl

theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)
        ∗ owns (c : Thread nD τ) (st0_3 t) fullShare ((dat0 V c).after 3 t)
        ∗ owns (c : Thread nD τ) (st0_4 t) fullShare ((dat0 V c).after 4 t)
        ∗ owns (c : Thread nD τ) (st0_5 t) fullShare ((dat0 V c).after 5 t))) := by
  unfold bodyAt0
  obtain ⟨b0, b1, b2, b3, b4⟩ := before0 V c t
  simp only [b0, b1, b2, b3, b4]
  rw [show (dat0 V c).Φ t.succ = (dat0 V c).Φ t.castSucc from rfl,
    show (dat0 V c).owesAt () t.succ = (dat0 V c).owesAt () t.castSucc from rfl]
  dsimp only [dat0]
  generalize iblk0 V c 0 t = x0; generalize iblk0 V c 1 t = x1; generalize iblk0 V c 2 t = x2
  generalize iblk0 V c 3 t = x3; generalize iblk0 V c 4 t = x4
  simp only [cc0__root_kernel_eq_skeleton]; unfold cc0__root_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, -, H5⟩⟩
  subst hf0 hf1 hf2 hf3 hf4
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

theorem body_obligation0 (c : Dev nD) :
    BodyObligation (dat0 (F := F) V c) (defs₀ (F := F)) Variants.none () Set.univ := fun t => by
  rw [bigSep_W0, bigSep_W0]
  exact sound_body0 V c t

end

end Cert.KernelIdeal.Hand

end
-- ==== Proof.KI.Region1.lean ====
import proofs.«409165_j17514876633598_2_alg».proof.Proof.Gen.KernelIdeal.Launch
import proofs.«409165_j17514876633598_2_alg».proof.Proof.Gen.KernelIdeal.Skeleton
import proofs.«409165_j17514876633598_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1

theorem hcond1_1 : ∀ t : Fin cfg1.N, cond1_1 (grid1.coords t) ↔ t.val = 19 :=
  (by decide +kernel : ∀ t : Fin grid1.N, cond1_1 (grid1.coords t) ↔ t.val = 19)

theorem hz1 : (![0, 0] : Fin 2 → Nat) = fun _ => 0 := funext fun a => by fin_cases a <;> rfl

section
variable (c : Dev nD) (i : grid1.Coords) (arg1 : Memref sig .tc .vmem S5000x64 .f32) (harg1 : arg1.IsWhole)
  (arg2 : Memref sig .tc .vmem S5000x512 .f32) (harg2 : arg2.IsWhole) (arg3 : Memref sig .tc .vmem S64x16 .f32) (harg3 : arg3.IsWhole)
  (arg4 : Memref sig .tc .vmem S512x16 .f32) (harg4 : arg4.IsWhole) (arg5 : Memref sig .tc .vmem S1x16 .f32) (harg5 : arg5.IsWhole)
  (arg6 : Memref sig .tc .vmem S1x16 .f32) (harg6 : arg6.IsWhole) (arg7 : Memref sig .tc .vmem S1x16 .f32) (harg7 : arg7.IsWhole)
  (x0 : Vec F S5000x64 .f32) (x1 : Vec F S5000x512 .f32) (x2 : Vec F S64x16 .f32) (x3 : Vec F S512x16 .f32)
  (x4 xi5 xs : Vec F S1x16 .f32) (E : Set ℕ) (K : PUnit → sProp (MT nD τ sig Unit (Elt F) ℕ (UR sig nD τ) ℕ))

private noncomputable abbrev ins1 : sProp (MT nD τ sig Unit (Elt F) ℕ (UR sig nD τ) ℕ) :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4)

-- Reading a whole buffer is a bijection on contents, so owning it at `X` is holding its raw contents `unread X`.
private theorem owns_unread {c : Dev nD} {sp : Space} {sh : Shape} {e : EltTy} {m : Memref sig .tc sp sh e} (h : m.IsWhole)
    (X : sh.Idx → Elt F e) :
    (owns (c : Thread nD τ) m fullShare X : sProp 𝕄)
      = (m.view.loc (c : Thread nD τ) ↦[m.view.set]{fullShare} h.unread X) := by
  have h₁ : (owns (c : Thread nD τ) m fullShare X : sProp 𝕄)
      ⊢ (m.view.loc (c : Thread nD τ) ↦[m.view.set]{fullShare} h.unread X) := by
    unfold owns; iintro ⟨%f, %hf, H⟩; obtain rfl := h.eq_unread hf; iexact H
  have h₂ := owns_intro (Ix := Unit) (Name := ℕ) (U := UR sig nD τ) (Lvl := ℕ) (c : Thread nD τ) m fullShare (h.unread X)
  rw [h.read_unread] at h₂
  exact BI.equiv_iff.mp ⟨h₁, h₂⟩

-- One triple for every grid point: the sums restart from the cleared scratch exactly when the first test holds, the
-- result row is written exactly when the second does, and no point passes both.
set_option maxHeartbeats 1000000 in
theorem run1 (hne : ¬(cond1_0 i ∧ cond1_1 i)) :
    iprop(ins1 c arg1 arg2 arg3 arg4 arg5 x0 x1 x2 x3 x4 ∗ owns (c : Thread nD τ) arg6 fullShare xi5
        ∗ owns (c : Thread nD τ) arg7 fullShare xs
        ∗ (iprop(ins1 c arg1 arg2 arg3 arg4 arg5 x0 x1 x2 x3 x4
          ∗ owns (c : Thread nD τ) arg6 fullShare (if cond1_1 i then k1_pay3 (k1_pay2 x0 x1 x2 x3 x4 (if cond1_0 i then k1_pay1 (F := F) else xs)) else xi5)
          ∗ owns (c : Thread nD τ) arg7 fullShare (k1_pay2 x0 x1 x2 x3 x4 (if cond1_0 i then k1_pay1 (F := F) else xs))) -∗ K ⟨⟩))
      ⊢ wp frame (wpE (defs₀ (F := F)) Variants.none c none) E (cc1__root_pool_kernel i arg1 harg1 arg2 harg2 arg3 harg3 arg4 harg4 arg5 harg5 arg6 harg6 arg7 harg7) K := by
  simp only [cc1__root_pool_kernel_eq_skeleton]; unfold cc1__root_pool_kernel_skel
  by_cases hc0 : cond1_0 i <;> by_cases hc1 : cond1_1 i
  · exact absurd ⟨hc0, hc1⟩ hne
  all_goals
    first | rw [if_pos hc0] | rw [if_neg hc0]
    first | rw [if_pos hc1] | rw [if_neg hc1]
    simp only [ins1, owns_unread harg1, owns_unread harg2, owns_unread harg3, owns_unread harg4, owns_unread harg5,
      owns_unread harg6 xi5, owns_unread harg7 xs]
    unfold owns
    iintro ⟨⟨H0, H1, H2, H3, H4⟩, H5, HS0, Hk⟩
    sl_exec (disch := first | exact hc0 | exact hc1)
    sl_step
    iapply Hk
    iframe H0 H1 H2 H3 H4
    first | iframe H5 | isplitl [H5]
    all_goals
      iexists _; isplitr
      swap; · iassumption
      ipureintro
      sl_unfold_words
      rw [View.read_writes_eq_canon _ _ _ (fun y => ⟨_, List.mem_cons_self, View.mem_set_unit_zero hz1 inb_S1x16_S1x16_0_0 y⟩)]
      rw [View.canon_cons_unit_zero (S := S1x16) hz1]
      simp only [View.readAt_eq_ld, Memref.IsWhole.read_unread, View.ld_unit_zero (S := S5000x64) hz1,
        View.ld_unit_zero (S := S5000x512) hz1, View.ld_unit_zero (S := S64x16) hz1, View.ld_unit_zero (S := S512x16) hz1,
        View.ld_unit_zero (S := S1x16) hz1, View.readCov_unit_zero (S := S1x16) _ hz1]

end

section
variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

noncomputable abbrev scM1 : Memref sig .tc .vmem S1x16 .f32 := Memref.whole cc1_scratch0

noncomputable def acc1 (c : Dev nD) : (n : ℕ) → n < cfg1.N → Vec F S1x16 .f32
  | 0, hn => k1_pay2 (iblk1 V c 0 ⟨0, hn⟩) (iblk1 V c 1 ⟨0, hn⟩) (iblk1 V c 2 ⟨0, hn⟩) (iblk1 V c 3 ⟨0, hn⟩)
      (iblk1 V c 4 ⟨0, hn⟩) (k1_pay1 (F := F))
  | n + 1, hn => k1_pay2 (iblk1 V c 0 ⟨n + 1, hn⟩) (iblk1 V c 1 ⟨n + 1, hn⟩) (iblk1 V c 2 ⟨n + 1, hn⟩)
      (iblk1 V c 3 ⟨n + 1, hn⟩) (iblk1 V c 4 ⟨n + 1, hn⟩) (acc1 c n (Nat.lt_of_succ_lt hn))

theorem acc1_zero (c : Dev nD) (hn : 0 < cfg1.N) :
    acc1 V c 0 hn = k1_pay2 (iblk1 V c 0 ⟨0, hn⟩) (iblk1 V c 1 ⟨0, hn⟩) (iblk1 V c 2 ⟨0, hn⟩) (iblk1 V c 3 ⟨0, hn⟩)
      (iblk1 V c 4 ⟨0, hn⟩) (k1_pay1 (F := F)) := rfl

theorem acc1_succ (c : Dev nD) (n : ℕ) (hn : n + 1 < cfg1.N) :
    acc1 V c (n + 1) hn = k1_pay2 (iblk1 V c 0 ⟨n + 1, hn⟩) (iblk1 V c 1 ⟨n + 1, hn⟩) (iblk1 V c 2 ⟨n + 1, hn⟩)
      (iblk1 V c 3 ⟨n + 1, hn⟩) (iblk1 V c 4 ⟨n + 1, hn⟩) (acc1 V c n (Nat.lt_of_succ_lt hn)) := rfl

noncomputable def out1_5 (c : Dev nD) (t : Fin cfg1.N) : Vec F S1x16 .f32 := k1_pay3 (acc1 V c t.val t.isLt)

noncomputable abbrev others1 (c : Dev nD) : sProp 𝕄 :=
  Pipeline.scopedRestBut (Ix := Unit) (Name := ℕ) (U := UR sig nD τ) (Lvl := ℕ) (Val := Elt F) spec1 c [cc1_scratch0]

noncomputable def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ others1 (F := F) c) ∗ (∃ r, prngReg c r))

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) : (dat1 V c).after 5 t = out1_5 V c t := by dsimp only [dat1]

theorem idleAt1_5 : ∀ t : Fin cfg1.N, ¬cond1_1 (grid1.coords t) → cfg1.idle 5 (grid1.coords t) = true := by decide +kernel

theorem noFlush1_5 : ∀ t : Fin cfg1.N, ¬cond1_1 (grid1.coords t) → (cfg1.win 5).flush t = false := by decide +kernel

theorem liveAt1_5 : ∀ t : Fin cfg1.N, cond1_1 (grid1.coords t) → cfg1.idle 5 (grid1.coords t) = false := by decide +kernel

theorem PhiA1_eq (c : Dev nD) :
    (Pipeline.ΦA spec1 c : sProp 𝕄)
      = iprop(iprop(iprop((∃ d, owns (c : Thread nD τ) scM1 fullShare d)) ∗ others1 (F := F) c) ∗ (∃ r, prngReg c r)) := by
  unfold Pipeline.ΦA; rw [Pipeline.scopedRest_split_of_list spec1 c [cc1_scratch0] (by decide) (by decide)]
  simp only [scM1, owns_whole]; try rfl

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ others1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ others1 (F := F) c) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

theorem acc1_first (c : Dev nD) (t : Fin cfg1.N) (h0 : t.val = 0) :
    acc1 V c t.val t.isLt = k1_pay2 (iblk1 V c 0 t) (iblk1 V c 1 t) (iblk1 V c 2 t) (iblk1 V c 3 t) (iblk1 V c 4 t) (k1_pay1 (F := F)) := by
  obtain ⟨n, hn⟩ := t
  cases n with
  | zero => exact acc1_zero V c hn
  | succ n => exact absurd h0 (Nat.succ_ne_zero n)

theorem acc1_later (c : Dev nD) (t : Fin cfg1.N) (hz : t.val ≠ 0) :
    acc1 V c t.val t.isLt = k1_pay2 (iblk1 V c 0 t) (iblk1 V c 1 t) (iblk1 V c 2 t) (iblk1 V c 3 t) (iblk1 V c 4 t)
      (acc1 V c (t.val - 1) (Nat.lt_of_le_of_lt (Nat.sub_le _ _) t.isLt)) := by
  obtain ⟨n, hn⟩ := t
  cases n with
  | zero => exact absurd rfl hz
  | succ n => exact acc1_succ V c n hn

private theorem before1 (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) := by
  refine ⟨?_, ?_, ?_, ?_, ?_⟩ <;> intro d <;> rw [Dat.before_in_eq_fetched] <;> intros <;> rfl

theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t)
        ∗ owns (c : Thread nD τ) (st1_4 t) fullShare ((dat1 V c).after 4 t)
        ∗ (dat1 V c).leavesExact 5 t)) := by
  unfold bodyAt1
  obtain ⟨b0, b1, b2, b3, b4⟩ := before1 V c t
  simp only [b0, b1, b2, b3, b4]
  rw [show (dat1 V c).owesAt () t.succ = (dat1 V c).owesAt () t.castSucc from rfl,
    show (dat1 V c).Φ t.succ = PhiS1 V c (t.val + 1) t.isLt from rfl, PhiS1_succ, PhiS1_castSucc V c t]
  have hne : ¬(cond1_0 (grid1.coords t) ∧ cond1_1 (grid1.coords t)) := fun h => by
    have := (hcond1_0 t).mp h.1; have := (hcond1_1 t).mp h.2; omega
  by_cases h0 : t.val = 0
  on_goal 2 => by_cases h1 : t.val = 19
  on_goal 1 =>
    have hc0 := (hcond1_0 t).mpr h0
    have hc1 : ¬cond1_1 (grid1.coords t) := fun h => hne ⟨hc0, h⟩
    rw [Dat.leavesExact_idle (dat1 V c) 5 t (idleAt1_5 t hc1) (noFlush1_5 t hc1), acc1_first V c t h0, PhiS1_zero V c _ _ h0, PhiA1_eq]
    dsimp only [dat1]
  on_goal 2 =>
    have hc0 : ¬cond1_0 (grid1.coords t) := fun h => h0 ((hcond1_0 t).mp h)
    have hc1 := (hcond1_1 t).mpr h1
    rw [acc1_later V c t h0, PhiS1_pos V c _ _ h0,
      show (dat1 V c).leavesExact 5 t = owns (c : Thread nD τ) (st1_5 t) fullShare ((dat1 V c).after 5 t) from by
        unfold Dat.leavesExact; rw [liveAt1_5 t hc1], after1_5]
    unfold out1_5
    rw [acc1_later V c t h0]
    dsimp only [dat1]
  on_goal 3 =>
    have hc0 : ¬cond1_0 (grid1.coords t) := fun h => h0 ((hcond1_0 t).mp h)
    have hc1 : ¬cond1_1 (grid1.coords t) := fun h => h1 ((hcond1_1 t).mp h)
    rw [acc1_later V c t h0, PhiS1_pos V c _ _ h0, Dat.leavesExact_idle (dat1 V c) 5 t (idleAt1_5 t hc1) (noFlush1_5 t hc1)]
    dsimp only [dat1]
  all_goals
    first
      | iintro ⟨⟨⟨⟨%ds, HS0⟩, Hr⟩, Hg⟩, Ho, ⟨%d0, H0⟩, ⟨%d1, H1⟩, ⟨%d2, H2⟩, ⟨%d3, H3⟩, ⟨%d4, H4⟩, ⟨%d5, H5⟩⟩
      | iintro ⟨⟨⟨HS0, Hr⟩, Hg⟩, Ho, ⟨%d0, H0⟩, ⟨%d1, H1⟩, ⟨%d2, H2⟩, ⟨%d3, H3⟩, ⟨%d4, H4⟩, ⟨%d5, H5⟩⟩
    iapply (run1 c (grid1.coords t) _ _ _ _ _ _ _ _ _ _ _ _ _ _ (iblk1 V c 0 t) (iblk1 V c 1 t) (iblk1 V c 2 t) (iblk1 V c 3 t) (iblk1 V c 4 t) _ _ Set.univ _ hne)
    unfold ins1
    iframe H0 H1 H2 H3 H4
    isplitl [H5]; · iexact H5
    isplitl [HS0]; · iexact HS0
    first | rw [if_pos hc0] | rw [if_neg hc0]
    first | rw [if_pos hc1] | rw [if_neg hc1]
    iintro ⟨⟨H0, H1, H2, H3, H4⟩, H5, HS0⟩
    iframe HS0 Hr Hg Ho H0 H1 H2 H3 H4
    first | iexact H5 | (iexists _; iexact H5)

theorem body_obligation1 (c : Dev nD) :
    BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 20 := N_1; omega), PhiA1_eq]
  iintro ⟨⟨HS0, Hr⟩, Hg⟩
  iframe Hr Hg
  iexists _; iexact HS0

end

end Cert.KernelIdeal.Hand

end
-- ==== Proof.KI.Fold.lean ====
import proofs.«409165_j17514876633598_2_alg».proof.Proof.KI.Region0
import proofs.«409165_j17514876633598_2_alg».proof.Proof.KI.Region1

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F] [Named F]

variable (m : (ℓ : Loc nD τ sig) → Buf (Elt F) ℓ)

noncomputable abbrev W0 : Dev nD → Valuation τ sig (Elt F) := fun c b => m (c, b)
noncomputable abbrev W1 : Dev nD → Valuation τ sig (Elt F) := fun c => StableHlo.after hostOps0 (W0 m c)
noncomputable abbrev W2 : Dev nD → Valuation τ sig (Elt F) := fun c => StableHlo.after hostOps0_1 (W1 m c)
noncomputable abbrev W3 : Dev nD → Valuation τ sig (Elt F) := fun c => StableHlo.after hostOps0_2 (W2 m c)
noncomputable abbrev W4 : Dev nD → Valuation τ sig (Elt F) := fun c => StableHlo.after hostOps0_3 (W3 m c)
noncomputable abbrev W5 : Dev nD → Valuation τ sig (Elt F) := fun c => StableHlo.after hostOps0_4 (W4 m c)

noncomputable abbrev W6 : Dev nD → Valuation τ sig (Elt F) := fun c => StableHlo.after hostOps0_5 (W5 m c)

noncomputable abbrev V6 : (c : Dev nD) → (b : Ref sig .tc) → Buf (Elt F) ((c : Thread nD τ).loc b) := fun c b => W6 m c b

noncomputable def W7 (c : Dev nD) : Valuation τ sig (Elt F) :=
  Pipeline.withArrays spec0 c (W6 m c) fun w => (dat0 (V6 m) c).arrAt w cfg0.N
noncomputable abbrev W8 : Dev nD → Valuation τ sig (Elt F) := fun c => StableHlo.after hostOps1 (W7 m c)

noncomputable abbrev W9 : Dev nD → Valuation τ sig (Elt F) := fun c => StableHlo.after hostOps1_1 (W8 m c)
noncomputable abbrev V9 : (c : Dev nD) → (b : Ref sig .tc) → Buf (Elt F) ((c : Thread nD τ).loc b) := fun c b => W9 m c b

noncomputable def W10 (c : Dev nD) : Valuation τ sig (Elt F) :=
  Pipeline.withArrays spec1 c (W9 m c) fun w => (dat1 (V9 m) c).arrAt w cfg1.N

theorem W7_arr (c : Dev nD) (w : Fin cfg0.W) :
    W7 m c (Proc.devRef .tc (Pipeline.arrRef spec0 w)) = (dat0 (V6 m) c).arrAt w cfg0.N := by
  unfold W7; exact Pipeline.withArrays_arr spec0 launch0.win.arr_inj c _ _ w
theorem W7_of_ne (c : Dev nD) (b : Ref sig .tc) (hb : ∀ w, Pipeline.arrRef spec0 w ≠ b) :
    W7 m c (Proc.devRef .tc b) = W6 m c (Proc.devRef .tc b) := by
  unfold W7; exact Pipeline.withArrays_of_ne spec0 c _ _ b hb
theorem W10_arr (c : Dev nD) (w : Fin cfg1.W) :
    W10 m c (Proc.devRef .tc (Pipeline.arrRef spec1 w)) = (dat1 (V9 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb

end Cert.KernelIdeal.Hand

end
-- ==== Proof.KI.Launch.lean ====
import proofs.«409165_j17514876633598_2_alg».proof.Proof.KI.Fold
import proofs.«409165_j17514876633598_2_alg».proof.Proof.Gen.KernelIdeal.Regions
import Idealize.ShloMosaic.Adequacy
import Idealize.ShloMosaic.Init

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem W6_keep (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) :
    W6 m c (Proc.devRef .tc r) = m ((c.tc : Thread nD τ).loc r) :=
  (StableHlo.after_of_writes_sub hostOps0_5 _ hostOps0_5_writes h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

-- A region changes only its output windows' arrays: any other reference reads the same before and after it.
private theorem W7_keep (c : Dev nD) (r : Ref sig .tc) (k : ∀ w, Pipeline.arrRef spec0 w = r → (cfg0.win w).isOut = false) :
    W7 m c (Proc.devRef .tc r) = W6 m c (Proc.devRef .tc r) := by
  by_cases h : ∃ w, Pipeline.arrRef spec0 w = r
  · obtain ⟨w, rfl⟩ := h
    exact (W7_arr m c w).trans (((dat0 (V6 m) c).arrAt_in w (k w rfl) _).trans (A_eq0 (V6 m) c w))
  · exact W7_of_ne m c r fun w e => h ⟨w, e⟩

private theorem W10_keep (c : Dev nD) (r : Ref sig .tc) (k : ∀ w, Pipeline.arrRef spec1 w = r → (cfg1.win w).isOut = false) :
    W10 m c (Proc.devRef .tc r) = W9 m c (Proc.devRef .tc r) := by
  by_cases h : ∃ w, Pipeline.arrRef spec1 w = r
  · obtain ⟨w, rfl⟩ := h
    exact (W10_arr m c w).trans (((dat1 (V9 m) c).arrAt_in w (k w rfl) _).trans (A_eq1 (V9 m) c w))
  · exact W10_of_ne m c r fun w e => h ⟨w, e⟩

private noncomputable abbrev args : List (Ref sig .tc) :=
  [main_arg0, main_arg1, main_arg2, main_arg3, main_arg4, main_arg5, main_arg6, main_arg7, main_arg8]

-- No argument is scoped, written by a host stretch, or an output window's array of either region.
private theorem args_ok : ∀ r ∈ args, ¬ (Proc.devRef .tc r : DevRef τ sig).isScoped
    ∧ (∀ w, Pipeline.arrRef spec1 w = r → (cfg1.win w).isOut = false)
    ∧ (∀ w, Pipeline.arrRef spec0 w = r → (cfg0.win w).isOut = false)
    ∧ r ∉ hostOps0_W ++ hostOps0_1_W ++ hostOps0_2_W ++ hostOps0_3_W ++ hostOps0_4_W ++ hostOps0_5_W ++ hostOps1_W
        ++ hostOps1_1_W := by
  decide

private theorem W10_arg (c : Dev nD) (r : Ref sig .tc) (hr : r ∈ args) :
    W10 m c (Proc.devRef .tc r) = m ((c.tc : Thread nD τ).loc r) := by
  obtain ⟨-, k1, k0, h⟩ := args_ok r hr
  simp only [List.mem_append, not_or] at h
  obtain ⟨⟨⟨⟨⟨⟨⟨h0, h1⟩, h2⟩, h3⟩, h4⟩, h5⟩, h6⟩, h7⟩ := h
  exact (W10_keep m c r k1).trans <| (StableHlo.after_of_writes_sub hostOps1_1 _ hostOps1_1_writes h7).trans <|
    (StableHlo.after_of_writes_sub hostOps1 _ hostOps1_writes h6).trans <|
    (W7_keep m c r k0).trans (W6_keep m c r h0 h1 h2 h3 h4 h5)

noncomputable def pdats : (p : Fin 2) → (c : Dev nD) → Dat τ (Elt F) Unit ℕ (UR sig nD τ) ℕ (Pipeline.pin (pcfgs (F := F)) adm p) c
  | ⟨0, _⟩ => fun c => dat0 (V6 m) c
  | ⟨1, _⟩ => fun c => dat1 (V9 m) c
noncomputable abbrev 𝒱₀ : Variants := Variants.none

noncomputable abbrev L : GSem nD τ sig → Finset Unit := fun _ => ∅
noncomputable abbrev lv : GSem nD τ sig → Unit → ℕ := fun _ _ => 0

noncomputable abbrev R (c : Dev nD) : sProp 𝕄 := iprop((∃ r, prngReg c r) ∗ ∃ W, owes (c : Thread nD τ) (0 : CellTallies nD τ sig Unit) W)

noncomputable abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

noncomputable abbrev Tₙ (c : Dev nD) : sProp 𝕄 := iprop(StableHlo.held (c : Thread nD τ) (Pipeline.ucRefs τ sig) (W10 m c) ∗ ∃ r, prngReg c r)

private theorem hinA (p : Fin 2) (c : Dev nD) :
    (iprop((∃ r, prngReg c r) ∗ Pipeline.prefHeld (pcfgs (F := F) p).pre c (fun _ => fullShare) (adm (F := F) p).1
      ∗ Pipeline.scopedRest (Pipeline.pin (pcfgs (F := F)) adm p).spec c) : sProp 𝕄)
      ⊢ Pipeline.ΦA (Pipeline.pin (pcfgs (F := F)) adm p).spec c := by
  unfold Pipeline.ΦA
  iintro ⟨Hp, -, Hr⟩
  iframe Hr
  iexact Hp

private theorem houtA (p : Fin 2) (c : Dev nD) :
    (Pipeline.ΦA (Pipeline.pin (pcfgs (F := F)) adm p).spec c : sProp 𝕄) ⊢ iprop((∃ r, prngReg c r) ∗ BI.emp
      ∗ Pipeline.scopedRest (Pipeline.pin (pcfgs (F := F)) adm p).spec c) := by
  unfold Pipeline.ΦA
  iintro ⟨Hr, Hp⟩
  iframe Hp Hr
  iempintro

set_option backward.isDefEq.respectTransparency.types false in
noncomputable def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V6 m) c).loose
  hwaits := Pipeline.hwaits_of_owed_zero _ _ _ _ L lv 0 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec0 c (V6 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    iframe Ha Hrest
    isplitr; · unfold Pipeline.prefHeld; rw [show (Finset.univ : Finset (Fin 0)) = ∅ from rfl, BI.bigSep_empty]; iempintro
    isplitr [Hp]; swap; · iexact Hp
    unfold Pipeline.Dat.owesAt Pipeline.owesWithin
    icases HO with ⟨%W, HO⟩; iexists W; isplitr; · ipureintro; exact fun _ _ => Or.inl trivial
    iexact HO
  hin c := hinA 0 c
  hout c := by
    rw [Pipeline.ownSems0_none]
    exact houtA 0 c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V6 m c) (fun b => W7 m c b) ((pdats m 0 c).arrAt · cfg0.N) (fun w => (W7_arr m c w).symm)
      fun b hb => W7_of_ne m c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
noncomputable def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    iframe Ha Hrest
    isplitr; · unfold Pipeline.prefHeld; rw [show (Finset.univ : Finset (Fin 0)) = ∅ from rfl, BI.bigSep_empty]; iempintro
    isplitr [Hp]; swap; · iexact Hp
    unfold Pipeline.Dat.owesAt Pipeline.owesWithin
    icases HO with ⟨%W, HO⟩; iexists W; isplitr; · ipureintro; exact fun _ _ => Or.inl trivial
    iexact HO
  hin c := (hinA 1 c).trans (hin1 (V9 m) c)
  hout c := by
    rw [Pipeline.ownSems0_none]
    exact (hout1 (V9 m) c).trans (houtA 1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V9 m c) (fun b => W10 m c b) ((pdats m 1 c).arrAt · cfg1.N) (fun w => (W10_arr m c w).symm)
      fun b hb => W10_of_ne m c b fun w e => hb (Finset.mem_image.mpr ⟨w, Finset.mem_univ _, e⟩)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

noncomputable abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .region (reg0 m),
    .host (hseg hostOps1 hostOps1_sub hostOps1_fresh (W7 m)),
    .host (hseg hostOps1_1 hostOps1_1_sub hostOps1_1_fresh (W8 m)),
    .region (reg1 m) ]

theorem main_run (c : Dev nD) : main (F := F) c = Pipeline.Seg.run (segs m) := by
  rw [main_chain c, Pipeline.Seg.run_eq_chain]
  exact congrArg Pipeline.chain (show _ = (segs m).map Pipeline.Seg.prog from rfl)

set_option backward.isDefEq.respectTransparency.types false in
theorem run_all : θ_run defs (onTc (τ := τ) (main (F := F))) ⟨m, fun _ => 0, ρ⟩
    (fun r => ∀ c : Dev nD, ∀ b : Ref sig .tc, ¬ (Proc.devRef .tc b : DevRef τ sig).isScoped →
      r.2.mem ((c.tc : Thread nD τ).loc b) = W10 m c (Proc.devRef .tc b)) := by
  exact Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c b hb => h c _ (Finset.mem_filter.mpr ⟨StableHlo.devRef_mem_tcRefs b, hb⟩))

noncomputable def kres (c : Dev nD) : Buf (Elt F) ((c.tc : Thread nD τ).loc main_v36) := W10 m c (Proc.devRef .tc main_v36)

theorem kres_eq (c : Dev nD) : kres m c = (dat1 (V9 m) c).arrAt 5 cfg1.N := by
  exact W10_arr m c 5

theorem run_value : θ_run defs (onTc (τ := τ) (main (F := F))) ⟨m, fun _ => 0, ρ⟩ (fun r => ∀ c : Dev nD,
      r.2.mem ((c.tc : Thread nD τ).loc main_v36) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (run_all m ρ)
  have a : ∀ b ∈ args, r.2.mem ((c.tc : Thread nD τ).loc b) = m ((c.tc : Thread nD τ).loc b) := fun b hb =>
    (h c b (args_ok b hb).1).trans (W10_arg m c b hb)
  exact ⟨h c main_v36 (by decide), a main_arg0 (by decide), a main_arg1 (by decide), a main_arg2 (by decide),
    a main_arg3 (by decide), a main_arg4 (by decide), a main_arg5 (by decide), a main_arg6 (by decide),
    a main_arg7 (by decide), a main_arg8 (by decide)⟩

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  exact (θ_run defs _ _).mono (fun r h c => (h c).2) (run_value m ρ)

end Cert.KernelIdeal.Hand

end
-- ==== Proof.Graph.lean ====
import Idealize.ShloMosaic.Lib.ValueIdx

noncomputable section

namespace Cert.Proof

open Idealize.ShloMosaic Idealize.ShloMosaic.ValueIdx

-- The graph the two integer inputs describe: their words are the numerals of node numbers below 100000 and relation numbers below 8.
structure Graph (a1 : IVec (⟨2, ![2, 1600000]⟩ : Shape) 32) (a2 : IVec (⟨1, ![1600000]⟩ : Shape) 32) where
  src : Fin 1600000 → Fin 100000
  dst : Fin 1600000 → Fin 100000
  et : Fin 1600000 → Fin 8
  hsrc : ∀ e : Fin 1600000, a1 (ix2 (0 : Fin 2) e) = BitVec.ofNat 32 (src e).val
  hdst : ∀ e : Fin 1600000, a1 (ix2 (1 : Fin 2) e) = BitVec.ofNat 32 (dst e).val
  het : ∀ e : Fin 1600000, a2 (ix1 e) = BitVec.ofNat 32 (et e).val

end Cert.Proof

end
-- ==== Proof.Spec.lean ====
import Idealize.ShloMosaic.PureOps.Ideal

noncomputable section

namespace Cert.Spec

open Idealize.ShloMosaic

variable {E N R Fi Fo : Type} [Fintype E] [Fintype N] [Fintype R] [Fintype Fi] [Fintype Fo]
  [DecidableEq N] [DecidableEq R]

-- The number of edges into node n that carry relation r.
def cnt (dst : E → N) (et : E → R) (n : N) (r : R) : EReal :=
  ∑ e, if dst e = n ∧ et e = r then (1 : EReal) else 0

-- The sum of feature f over the sources of those edges.
def nbrSum (src dst : E → N) (et : E → R) (z : N → Fi → EReal) (n : N) (r : R) (f : Fi) : EReal :=
  ∑ e, if dst e = n ∧ et e = r then z (src e) f else 0

-- The neighbourhood mean: that sum divided by the count taken as at least one.
def mean (src dst : E → N) (et : E → R) (z : N → Fi → EReal) (n : N) (r : R) (f : Fi) : EReal :=
  Ideal.div (nbrSum src dst et z n r f) (max (1 : EReal) (cnt dst et n r))

-- One relational graph convolution: the root transform, per relation the mean transformed by its weight, the bias.
def conv (src dst : E → N) (et : E → R) (W : R → Fi → Fo → EReal) (root : Fi → Fo → EReal) (b : Fo → EReal)
    (z : N → Fi → EReal) (n : N) (o : Fo) : EReal :=
  (∑ k, z n k * root k o) + (∑ r, ∑ f, mean src dst et z n r f * W r f o) + b o

def relu (z : N → Fo → EReal) (n : N) (o : Fo) : EReal := max (z n o) 0

def pool (invN : EReal) (z : N → Fo → EReal) (o : Fo) : EReal := (∑ n, z n o) * invN

def logSoftmax (mx : EReal) (g : Fo → EReal) (o : Fo) : EReal :=
  (g o - mx) - Ideal.log (∑ o', Ideal.exp (g o' - mx))

def rowMax (g : Fo → EReal) : EReal := (Finset.univ : Finset Fo).fold max ⊥ g

variable {Fh : Type} [Fintype Fh]

-- The network: two convolutions with a clamp at zero between them, the mean over the nodes, the logarithm of the softmax.
def net (src dst : E → N) (et : E → R)
    (W1 : R → Fi → Fh → EReal) (root1 : Fi → Fh → EReal) (b1 : Fh → EReal)
    (W2 : R → Fh → Fo → EReal) (root2 : Fh → Fo → EReal) (b2 : Fo → EReal)
    (invN : EReal) (x : N → Fi → EReal) : Fo → EReal :=
  let g := pool invN (conv src dst et W2 root2 b2 (relu (conv src dst et W1 root1 b1 x)))
  logSoftmax (rowMax g) g

end Cert.Spec

end
-- ==== Proof.LibSegNorm.lean ====
import Idealize.ShloMosaic.Lib.ValueIdx
import Mathlib.Data.EReal.Operations

noncomputable section

open scoped BigOperators

open Idealize.ShloMosaic

namespace SegNorm

open Idealize.ShloMosaic.ValueIdx

abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

abbrev eIdx {E : Nat} (e : Fin E) : (⟨2, ![E, 1]⟩ : Shape).Idx :=
  fun a => match a with | ⟨0, _⟩ => e | ⟨1, _⟩ => ⟨0, Nat.one_pos⟩

def clampRow {N E w : Nat} (hN : 0 < N) (idx : IVec ⟨2, ![E, 1]⟩ w) (e : Fin E) : Fin N :=
  ⟨min (idx (eIdx e)).toInt.toNat (N - 1), by omega⟩

-- A row index that is a row number, read signed, is kept by the clamp into the row axis.
theorem clampRow_of_eq {N E w : Nat} (hN : 0 < N) (idx : IVec ⟨2, ![E, 1]⟩ w) (e : Fin E) (n : Fin N)
    (h : (idx (eIdx e)).toInt = (n.val : Int)) : clampRow hN idx e = n := by
  apply Fin.ext
  show min (idx (eIdx e)).toInt.toNat (N - 1) = n.val
  rw [h, Int.toNat_natCast]
  have := n.isLt
  omega

section Gather
variable {α : Type}

-- A gather of scalars reads the entry at the clamped index.
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecGatherDims N E wf) x idx y = x (ix1 (clampRow hN idx ⟨(y 0).val, (y 0).isLt⟩)) := by
  unfold Host.gather
  refine congrArg x (funext fun a => Fin.ext ?_)
  obtain rfl : a = 0 := Subsingleton.elim _ _
  show (vecGatherDims N E wf).start y idx 0 = min (idx (eIdx ⟨(y 0).val, (y 0).isLt⟩)).toInt.toNat (N - 1)
  unfold GatherDims.start
  rw [dif_pos (show (0 : Fin 1) ∈ (vecGatherDims N E wf).startIndexMap from List.mem_singleton.mpr rfl)]
  congr 4
  funext b
  refine Fin.ext ?_
  match b with
  | ⟨0, _⟩ => rfl
  | ⟨1, _⟩ => rfl

end Gather

section Scatter

-- An update lands on an operand index exactly when, on every axis, its start plus its window coordinate is the index's coordinate.
theorem resultIdx?_eq_some {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hc
      have h0 : (d.start j idx a + (d.window j a : Int)).toNat = (i a).val :=
        congrArg Fin.val (congrFun (Option.some.inj h) a)
      have := (hc a).1
      omega
    · exact absurd h (by simp)
  · intro h
    rw [dif_pos fun a => by rw [h a]; exact ⟨Int.natCast_nonneg _, Int.ofNat_lt.mpr (i a).isLt⟩]
    exact congrArg some (funext fun a => Fin.ext (by
      show (d.start j idx a + (d.window j a : Int)).toNat = (i a).val
      rw [h a, Int.toNat_natCast]))

theorem vecScatter_start0 {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) :
    (vecScatterDims N E wf).start j idx 0 = (idx (eIdx ⟨(j 0).val, (j 0).isLt⟩)).toInt := by
  unfold ScatterDims.start
  rw [dif_pos (show (0 : Fin 1) ∈ (vecScatterDims N E wf).scatterDimsToOperandDims from List.mem_singleton.mpr rfl)]
  congr 2
  funext b
  refine Fin.ext ?_
  match b with
  | ⟨0, _⟩ => rfl
  | ⟨1, _⟩ => rfl

-- An update lands on entry i exactly when its index word, read signed, is i.
theorem vecScatter_resultIdx {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (vecScatterDims N E wf).resultIdx? j idx = some i
      ↔ (idx (eIdx ⟨(j 0).val, (j 0).isLt⟩)).toInt = ((i 0).val : Int) := by
  rw [resultIdx?_eq_some, Fin.forall_fin_one, vecScatter_start0]
  show _ + ((0 : Nat) : Int) = _ ↔ _
  rw [Nat.cast_zero, add_zero]

end Scatter

-- A nonnegative real factor moves across a finite sum of extended reals.
theorem sum_mul_coe {ι : Type*} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

theorem scatterAdd_ideal {s si u : Shape} {φ : FTy} {w : Nat} (d : ScatterDims s si u) (x : FVec Ideal s φ)
    (idx : IVec si w) (upd : FVec Ideal u φ) :
    Host.scatterAdd (F := Ideal) d x idx upd = Ideal.hostScatterAdd d x idx upd := rfl

end SegNorm

end
-- ==== Proof.Algebra.lean ====
import proofs.«409165_j17514876633598_2_alg».proof.Proof.Spec
import proofs.«409165_j17514876633598_2_alg».proof.Proof.LibSegNorm
import Mathlib.Algebra.BigOperators.Ring.Finset
import Mathlib.Algebra.BigOperators.Fin
import Mathlib.Data.Fintype.BigOperators
import Mathlib.Data.EReal.Basic

noncomputable section

namespace Cert.Algebra

open Idealize.ShloMosaic Cert.Spec

-- The larger of one and a count is a real number at least one.
theorem max_one_count {ι : Type*} [Fintype ι] (P : ι → Prop) [DecidablePred P] :
    ∃ c : ℝ, 1 ≤ c ∧ max (1 : EReal) (∑ e, if P e then (1 : EReal) else 0) = (c : EReal) :=
  ⟨max 1 ((Finset.univ.filter P).card : ℝ), le_max_left _ _, by
    rw [Finset.sum_boole, ← EReal.coe_coe_eq_natCast, ← EReal.coe_one]
    exact (EReal.coe_strictMono.monotone.map_max).symm⟩

variable {nE nN : ℕ} {Fi : Type} [Fintype Fi]

def keyInv (dst : Fin nE → Fin nN) (et : Fin nE → Fin 8) (j : ℕ) : EReal :=
  Ideal.div 1 (max 1 (∑ e, if 8 * (dst e).val + (et e).val = j then (1 : EReal) else 0))

theorem key_eq_iff (a c : Fin nN) (b d : Fin 8) :
    8 * a.val + b.val = 8 * c.val + d.val ↔ a = c ∧ b = d := by
  have hb := b.isLt
  have hd := d.isLt
  exact ⟨fun h => ⟨Fin.ext (by omega), Fin.ext (by omega)⟩, fun ⟨h1, h2⟩ => by rw [h1, h2]⟩

-- Summing per key 8·dst + relation, each edge scaled by the reciprocal of its key's count, is the neighbourhood mean:
-- the count is a real number at least one, so its reciprocal moves across the sum.
theorem keyed_mean (src dst : Fin nE → Fin nN) (et : Fin nE → Fin 8) (z : Fin nN → Fi → EReal)
    (n : Fin nN) (r : Fin 8) (f : Fi) :
    (∑ e, if 8 * (dst e).val + (et e).val = 8 * n.val + r.val
        then z (src e) f * keyInv dst et (8 * (dst e).val + (et e).val) else 0)
      = mean src dst et z n r f := by
  obtain ⟨c, hc1, hc⟩ := max_one_count fun e : Fin nE => dst e = n ∧ et e = r
  have hc0 : c ≠ 0 := (zero_lt_one.trans_le hc1).ne'
  have hk := fun e => key_eq_iff (dst e) n (et e) r
  have hinv : keyInv dst et (8 * n.val + r.val) = ((1 / c : ℝ) : EReal) := by
    unfold keyInv
    simp only [hk]
    rw [hc, Ideal.div_coe hc0, one_mul]
  unfold mean nbrSum cnt
  rw [hc, Ideal.div_coe hc0, SegNorm.sum_mul_coe _ _ _ (one_div_nonneg.mpr (zero_le_one.trans hc1))]
  refine Finset.sum_congr rfl fun e _ => ?_
  by_cases h : dst e = n ∧ et e = r
  · rw [if_pos ((hk e).mpr h), if_pos h, (hk e).mpr h, hinv]
  · rw [if_neg (h ∘ (hk e).mp), if_neg h, zero_mul]

-- Masking the edges of relation r with a 0/1 factor, summing per destination and dividing by the masked count is the same mean.
theorem masked_mean (src dst : Fin nE → Fin nN) (et : Fin nE → Fin 8) (z : Fin nN → Fi → EReal)
    (n : Fin nN) (r : Fin 8) (f : Fi) :
    Ideal.div (∑ e, if dst e = n then z (src e) f * (if et e = r then (1 : EReal) else 0) else 0)
        (max 1 (∑ e, if dst e = n then (if et e = r then (1 : EReal) else 0) else 0))
      = mean src dst et z n r f := by
  unfold mean nbrSum cnt
  simp only [ite_and, mul_ite, mul_one, mul_zero]

-- A sum over the 512 stacked positions 64·r + f is the double sum over relations and features.
theorem sum_stack (a : Fin 8 → Fin 64 → EReal) :
    (∑ k : Fin 512, a ⟨k.val / 64, by omega⟩ ⟨k.val % 64, Nat.mod_lt _ (by norm_num)⟩) = ∑ r, ∑ f, a r f := by
  rw [← Fintype.sum_prod_type']
  exact Fintype.sum_equiv (finProdFinEquiv (m := 8) (n := 64)).symm _ _ fun k => rfl

theorem add_eight (s : EReal) (q : Fin 8 → EReal) :
    s + q 0 + q 1 + q 2 + q 3 + q 4 + q 5 + q 6 + q 7 = s + ∑ r, q r := by
  rw [Fin.sum_univ_eight]
  simp only [add_assoc]

end Cert.Algebra

end
-- ==== Proof.KForm.lean ====
import proofs.«409165_j17514876633598_2_alg».proof.Proof.Graph
import proofs.«409165_j17514876633598_2_alg».proof.Proof.Algebra

noncomputable section

namespace Cert.KForm

open Idealize.ShloMosaic Idealize.ShloMosaic.ValueIdx Cert.Proof

variable {a1 : IVec (⟨2, ![2, 1600000]⟩ : Shape) 32} {a2 : IVec (⟨1, ![1600000]⟩ : Shape) 32}

def aggAt (G : Graph a1 a2) (z : (⟨2, ![100000, 64]⟩ : Shape).Idx → EReal) (n : Fin 100000) (k : Fin 512) : EReal :=
  ∑ e : Fin 1600000, if 8 * (G.dst e).val + (G.et e).val = 8 * n.val + k.val / 64
    then z (ix2 (G.src e) (⟨k.val % 64, Nat.mod_lt _ (by norm_num)⟩ : Fin 64))
      * Cert.Algebra.keyInv G.dst G.et (8 * (G.dst e).val + (G.et e).val)
    else 0

def agg2K (G : Graph a1 a2) (z : (⟨2, ![100000, 64]⟩ : Shape).Idx → EReal) :
    (⟨2, ![100000, 512]⟩ : Shape).Idx → EReal := fun i => aggAt G z (i 0) (i 1)

variable {Fo : ℕ}

def stackAt (w : (⟨3, ![8, 64, Fo]⟩ : Shape).Idx → EReal) (k : Fin 512) (o : Fin Fo) : EReal :=
  w (ix3 (⟨k.val / 64, by omega⟩ : Fin 8) (⟨k.val % 64, Nat.mod_lt _ (by norm_num)⟩ : Fin 64) o)

def stackW (w : (⟨3, ![8, 64, Fo]⟩ : Shape).Idx → EReal) : (⟨2, ![512, Fo]⟩ : Shape).Idx → EReal :=
  fun i => stackAt w (i 0) (i 1)

def rowOf (b : (⟨1, ![Fo]⟩ : Shape).Idx → EReal) : (⟨2, ![1, Fo]⟩ : Shape).Idx → EReal :=
  fun i => b (ix1 (i 1))

variable (x : (⟨2, ![100000, 64]⟩ : Shape).Idx → EReal) (agg : (⟨2, ![100000, 512]⟩ : Shape).Idx → EReal)
  (root : (⟨2, ![64, Fo]⟩ : Shape).Idx → EReal) (wf : (⟨2, ![512, Fo]⟩ : Shape).Idx → EReal)
  (brow : (⟨2, ![1, Fo]⟩ : Shape).Idx → EReal)

def affK (n : Fin 100000) (o : Fin Fo) : EReal :=
  (∑ k : Fin 64, x (ix2 n k) * root (ix2 k o)) + (∑ k : Fin 512, agg (ix2 n k) * wf (ix2 k o))
    + brow (ix2 (0 : Fin 1) o)

def layer1K : (⟨2, ![100000, Fo]⟩ : Shape).Idx → EReal :=
  fun i => max (affK x agg root wf brow (i 0) (i 1)) 0

def pooledK (o : Fin Fo) : EReal :=
  (∑ n : Fin 100000, affK x agg root wf brow n o) * ((1 / 100000 : ℝ) : EReal)

def outK : (⟨2, ![1, Fo]⟩ : Shape).Idx → EReal :=
  fun i => Cert.Spec.logSoftmax (Cert.Spec.rowMax (pooledK x agg root wf brow)) (pooledK x agg root wf brow) (i 1)

end Cert.KForm

end
-- ==== Proof.LibGather.lean ====
import Idealize.ShloMosaic.PureOps
import Idealize.ShloMosaic.Lib.ValueIdx

noncomputable section

namespace Cert.LibGather

open Idealize.ShloMosaic Idealize.ShloMosaic.ValueIdx

abbrev rowGather (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_row_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowGather N R C wf) x idx (ix2 r k)
      = x (ix2 ⟨min (idx (ix2 r (⟨0, Nat.one_pos⟩ : Fin 1))).toInt.toNat (N - 1), by omega⟩ k) := by
  unfold Host.gather
  refine congrArg x (funext fun a => Fin.ext ?_)
  match a with
  | ⟨0, _⟩ =>
    show (rowGather N R C wf).start (ix2 r k) idx 0 = _
    unfold GatherDims.start
    rw [dif_pos (show (0 : Fin 2) ∈ (rowGather N R C wf).startIndexMap from List.mem_singleton.mpr rfl)]
    congr 4
    funext b
    refine Fin.ext ?_
    match b with
    | ⟨0, _⟩ => rfl
    | ⟨1, _⟩ => rfl
  | ⟨1, _⟩ =>
    show 0 + 0 + k.val = k.val
    omega

end Cert.LibGather

end
-- ==== Proof.LibScatter.lean ====
import proofs.«409165_j17514876633598_2_alg».proof.Proof.LibSegNorm

noncomputable section

open scoped BigOperators

namespace Cert.LibScatter

open Idealize.ShloMosaic Idealize.ShloMosaic.ValueIdx

abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

private theorem start0 {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) :
    (rowScatter N R C wf).start (ix2 r k) idx 0 = (idx (ix2 r (⟨0, Nat.one_pos⟩ : Fin 1))).toInt := by
  unfold ScatterDims.start
  rw [dif_pos (show (0 : Fin 2) ∈ (rowScatter N R C wf).scatterDimsToOperandDims from List.mem_singleton.mpr rfl)]
  congr 2
  funext b
  refine Fin.ext ?_
  match b with
  | ⟨0, _⟩ => rfl
  | ⟨1, _⟩ => rfl

-- The update at (r, k) lands on (p, k') exactly when row r's index word, read signed, is p and the columns agree.
theorem rowScatter_resultIdx {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) (p : Fin N) (k' : Fin C) :
    (rowScatter N R C wf).resultIdx? (ix2 r k) idx = some (ix2 p k')
      ↔ (idx (ix2 r (⟨0, Nat.one_pos⟩ : Fin 1))).toInt = (p.val : ℤ) ∧ k = k' := by
  rw [SegNorm.resultIdx?_eq_some, Fin.forall_fin_two, start0]
  show _ + ((0 : ℕ) : ℤ) = (p.val : ℤ) ∧ (0 : ℤ) + (k.val : ℤ) = (k'.val : ℤ) ↔ _
  rw [Nat.cast_zero, add_zero, zero_add, Nat.cast_inj, Fin.val_inj]

-- The row segment sum at (p, k): the operand there plus the updates at column k of the rows whose index word is p.
theorem scatterAdd_row_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (p : Fin N) (k : Fin C) :
    Ideal.hostScatterAdd (rowScatter N R C wf) x idx upd (ix2 p k)
      = x (ix2 p k) + ∑ r ∈ Finset.univ.filter (fun r : Fin R => (idx (ix2 r (⟨0, Nat.one_pos⟩ : Fin 1))).toInt = (p.val : ℤ)),
          upd (ix2 r k) := by
  unfold Ideal.hostScatterAdd
  rw [Finset.sum_filter, Finset.sum_filter, sum_idx2]
  refine congrArg (x (ix2 p k) + ·) (Finset.sum_congr rfl fun r _ => ?_)
  have hl := fun b => (rowScatter_resultIdx wf idx r b p k).trans and_comm
  simp only [hl, ite_and, Finset.sum_ite_eq', Finset.mem_univ, if_true]

end Cert.LibScatter

end
-- ==== Proof.KI.HostVals.lean ====
import proofs.«409165_j17514876633598_2_alg».proof.Proof.KI.Fold
import proofs.«409165_j17514876633598_2_alg».proof.Proof.KI.Launch
import proofs.«409165_j17514876633598_2_alg».proof.Proof.Gen.KernelIdeal.Regions
import proofs.«409165_j17514876633598_2_alg».proof.Proof.KForm
import proofs.«409165_j17514876633598_2_alg».proof.Proof.LibSegNorm
import proofs.«409165_j17514876633598_2_alg».proof.Proof.LibGather
import proofs.«409165_j17514876633598_2_alg».proof.Proof.LibScatter
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Proof Cert.KForm

theorem key_word (d t : ℕ) : BitVec.ofNat 32 d * 8#32 + BitVec.ofNat 32 t = BitVec.ofNat 32 (8 * d + t) := by
  apply BitVec.eq_of_toNat_eq
  simp only [BitVec.toNat_add, BitVec.toNat_mul, BitVec.toNat_ofNat]
  omega

theorem toNat_small (a : ℕ) (ha : a < 2 ^ 31) : (BitVec.ofNat 32 a).toNat = a := by
  rw [BitVec.toNat_ofNat]; omega

theorem slt_zero_small (a : ℕ) (ha : a < 2 ^ 31) : IntOp.cmpi .slt (BitVec.ofNat 32 a) 0#32 = 0#1 := by
  apply eq_zero_of_ne_one
  intro h
  have := (StableHlo.Predicate.slt_iff_toNat (a := BitVec.ofNat 32 a) (b := 0#32)
    (by rw [toNat_small a ha]; exact ha) (by decide)).mp h
  simp at this

theorem sge_zero_small (a : ℕ) (ha : a < 2 ^ 31) : IntOp.cmpi .sge (BitVec.ofNat 32 a) 0#32 = 1#1 :=
  (StableHlo.Predicate.sge_iff_toNat (a := BitVec.ofNat 32 a) (b := 0#32)
    (by rw [toNat_small a ha]; exact ha) (by decide)).mpr (Nat.zero_le _)

theorem sle_small (a : ℕ) (hi : BitVec 32) (ha : a ≤ hi.toNat) (hhi : hi.toNat < 2 ^ 31) :
    IntOp.cmpi .sle (BitVec.ofNat 32 a) hi = 1#1 :=
  (StableHlo.Predicate.sle_iff_toNat (a := BitVec.ofNat 32 a) (b := hi)
    (by rw [toNat_small a (by omega)]; omega) hhi).mpr (by rw [toNat_small a (by omega)]; exact ha)

theorem andi_one_one : IntOp.andi 1#1 1#1 = 1#1 := by decide

theorem ofBits_one_f32 : Ideal.ofBits .f32 0x3F800000#32 = 1 := by
  simp [Ideal.ofBits, Ideal.ieee, -EReal.coe_mul]; norm_num

theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  unfold Host.reduce
  rw [hinit]
  generalize ((List.finRange s.numel).filter fun n => h.drop (s.rowMajor.symm n) = j) = l
  induction l with
  | nil => rfl
  | cons n l ih => rw [List.foldl_cons, hx, andi_one_one]; exact ih

abbrev cix (e : Fin 1600000) : S1600000x1.Idx := ix2 e (⟨0, Nat.one_pos⟩ : Fin 1)

theorem eIdx_eq (e : Fin 1600000) : SegNorm.eIdx e = cix e := Shape.idx_ext₂ rfl rfl

theorem eq_cix (i : S1600000x1.Idx) : i = cix (i 0) := Shape.idx_ext₂ rfl (Nat.lt_one_iff.mp (i 1).isLt)

theorem col_apply {α : Type} (k : S1600000.Idx → α) (h : S1600000.BroadcastsInDim S1600000x1 ![0]) (e : Fin 1600000) :
    broadcastInDim S1600000x1 ![0] h k (cix e) = k (ix1 e) :=
  broadcastInDim_apply _ h k (cix e) (ix1 e) (fun a => match a with | ⟨0, _⟩ => rfl)

theorem lanes_apply {α : Type} (k : S1600000x1.Idx → α) (h : S1600000x1.BroadcastsInDim S1600000x64 ![0, 1]) (e : Fin 1600000)
    (f : Fin 64) : broadcastInDim S1600000x64 ![0, 1] h k (ix2 e f) = k (cix e) :=
  broadcastInDim_apply _ h k (ix2 e f) (cix e) (fun a => match a with | ⟨0, _⟩ => rfl | ⟨1, _⟩ => rfl)

def wrapIdx (N : BitVec 32) (k : IVec S1600000 32) : IVec S1600000x1 32 :=
  broadcastInDim S1600000x1 ![0] bcast_S1600000_S1600000x1_0
    (select (cmpi .slt k (broadcastInDim S1600000 ![] bcast_S_S1600000 (constantI S_ 32 0#32)))
      (addi k (broadcastInDim S1600000 ![] bcast_S_S1600000 (constantI S_ 32 N))) k)

def inBounds (hi : BitVec 32) (v : IVec S1600000x1 32) : IVec S1600000 1 :=
  Host.reduce IntOp.andi
    (andi (cmpi .sge v (broadcastInDim S1600000x1 ![] bcast_S_S1600000x1 (constantI S_ 32 0#32)))
      (cmpi .sle v (broadcastInDim S1600000x1 ![0, 1] bcast_S1x1_S1600000x1_0_1
        (broadcastInDim S1x1 ![1] bcast_S1_S1x1_1 (constantI S1 32 hi)))))
    (constantI S_ 1 1#1) reducesTo_S1600000x1_S1600000_d1 h_S_

theorem wrapIdx_apply (N : BitVec 32) (k : IVec S1600000 32) (e : Fin 1600000) (a : ℕ) (ha : a < 2 ^ 31)
    (hk : k (ix1 e) = BitVec.ofNat 32 a) : wrapIdx N k (cix e) = BitVec.ofNat 32 a := by
  unfold wrapIdx
  rw [col_apply]
  show Scalar.select (IntOp.cmpi .slt (k (ix1 e)) 0#32) _ (k (ix1 e)) = _
  rw [hk, slt_zero_small a ha, select_zero]

theorem inBounds_apply (hi : BitVec 32) (hhi : hi.toNat < 2 ^ 31) (v : IVec S1600000x1 32)
    (hv : ∀ e : Fin 1600000, ∃ a : ℕ, a ≤ hi.toNat ∧ v (cix e) = BitVec.ofNat 32 a) (j : S1600000.Idx) :
    inBounds hi v j = 1#1 := by
  unfold inBounds
  refine reduce_andi_ones _ (constantI S_ 1 1#1) _ h_S_ (fun i => ?_) rfl j
  rw [eq_cix i]
  obtain ⟨a, ha, hva⟩ := hv (i 0)
  show IntOp.andi (IntOp.cmpi .sge (v (cix (i 0))) 0#32) (IntOp.cmpi .sle (v (cix (i 0))) hi) = 1#1
  rw [hva, sge_zero_small a (by omega), sle_small a hi ha hhi, andi_one_one]

def takeVec (x : FVec Ideal S800000 .f32) (k : IVec S1600000 32) : FVec Ideal S1600000 .f32 :=
  select (inBounds 799999#32 (wrapIdx 800000#32 k))
    (Host.gather gather_S800000_S1600000x1_S1600000_n_0_n_n_0_1_1 x (wrapIdx 800000#32 k))
    (broadcastInDim S1600000 ![] bcast_S_S1600000 (constant (F := Ideal) S_ .f32 0x7FC00000#32))

def takeRows (x : FVec Ideal S100000x64 .f32) (k : IVec S1600000 32) : FVec Ideal S1600000x64 .f32 :=
  select (broadcastInDim S1600000x64 ![0] bcast_S1600000_S1600000x64_0 (inBounds 99999#32 (wrapIdx 100000#32 k)))
    (Host.gather gather_S100000x64_S1600000x1_S1600000x64_1_0_n_n_0_1_164 x (wrapIdx 100000#32 k))
    (broadcastInDim S1600000x64 ![] bcast_S_S1600000x64 (constant (F := Ideal) S_ .f32 0x7FC00000#32))

theorem takeVec_apply (x : FVec Ideal S800000 .f32) (k : IVec S1600000 32) (kf : Fin 1600000 → Fin 800000)
    (hk : ∀ e, k (ix1 e) = BitVec.ofNat 32 (kf e).val) (e : Fin 1600000) :
    takeVec x k (ix1 e) = x (ix1 (kf e)) := by
  have hw : ∀ e', wrapIdx 800000#32 k (cix e') = BitVec.ofNat 32 (kf e').val := fun e' =>
    wrapIdx_apply _ k e' _ (by have := (kf e').isLt; omega) (hk e')
  unfold takeVec
  rw [select_apply, inBounds_apply 799999#32 (by decide) _
    (fun e' => ⟨(kf e').val, by have := (kf e').isLt; show (kf e').val ≤ 799999; omega, hw e'⟩), select_one]
  show Host.gather (SegNorm.vecGatherDims 800000 1600000 gather_S800000_S1600000x1_S1600000_n_0_n_n_0_1_1_wf) x _ (ix1 e) = _
  rw [SegNorm.vecGather_apply (by norm_num)]
  refine congrArg (fun q => x (ix1 q)) ?_
  refine SegNorm.clampRow_of_eq _ _ _ (kf e) ?_
  show ((wrapIdx 800000#32 k) (SegNorm.eIdx e)).toInt = _
  rw [eIdx_eq, hw, StableHlo.Predicate.toInt_ofNat_small _ (by have := (kf e).isLt; omega)]

theorem takeRows_apply (x : FVec Ideal S100000x64 .f32) (k : IVec S1600000 32) (kf : Fin 1600000 → Fin 100000)
    (hk : ∀ e, k (ix1 e) = BitVec.ofNat 32 (kf e).val) (e : Fin 1600000) (f : Fin 64) :
    takeRows x k (ix2 e f) = x (ix2 (kf e) f) := by
  have hw : ∀ e', wrapIdx 100000#32 k (cix e') = BitVec.ofNat 32 (kf e').val := fun e' =>
    wrapIdx_apply _ k e' _ (by have := (kf e').isLt; omega) (hk e')
  unfold takeRows
  rw [select_apply]
  have hm : broadcastInDim S1600000x64 ![0] bcast_S1600000_S1600000x64_0 (inBounds 99999#32 (wrapIdx 100000#32 k)) (ix2 e f) = 1#1 :=
    inBounds_apply 99999#32 (by decide) _
      (fun e' => ⟨(kf e').val, by have := (kf e').isLt; show (kf e').val ≤ 99999; omega, hw e'⟩) _
  rw [hm, select_one]
  show Host.gather (Cert.LibGather.rowGather 100000 1600000 64 gather_S100000x64_S1600000x1_S1600000x64_1_0_n_n_0_1_164_wf) x _ (ix2 e f) = _
  rw [Cert.LibGather.gather_row_apply (by norm_num)]
  refine congrArg x (Shape.idx_ext₂ ?_ rfl)
  show min (wrapIdx 100000#32 k (cix e)).toInt.toNat (100000 - 1) = (kf e).val
  rw [hw, StableHlo.Predicate.toInt_ofNat_small _ (by have := (kf e).isLt; omega), Int.toNat_natCast]
  have := (kf e).isLt
  omega

def srcCol (a1 : IVec S2x1600000 32) : IVec S1600000 32 :=
  shapeCast S1600000 (extractStridedSlice S1x1600000 ![0, 0] a1 slices_S2x1600000_S1x1600000_0_0) shapeCasts_S1x1600000_S1600000

def keyCol (a1 : IVec S2x1600000 32) (a2 : IVec S1600000 32) : IVec S1600000 32 :=
  addi (muli (shapeCast S1600000 (extractStridedSlice S1x1600000 ![1, 0] a1 slices_S2x1600000_S1x1600000_1_0) shapeCasts_S1x1600000_S1600000)
    (broadcastInDim S1600000 ![] bcast_S_S1600000 (constantI S_ 32 8#32))) a2

theorem rowOfEdges_apply (a1 : IVec S2x1600000 32) (o : ℕ) (ho : o < 2) (hs : S2x1600000.Slices ![o, 0] S1x1600000) (e : Fin 1600000) :
    shapeCast S1600000 (extractStridedSlice S1x1600000 ![o, 0] a1 hs) shapeCasts_S1x1600000_S1600000 (ix1 e)
      = a1 (ix2 (⟨o, ho⟩ : Fin 2) e) := by
  rw [shapeCast_apply _ _ (ix1 e) (ix2 (0 : Fin 1) e) (by
    rw [Shape.rowMajor_val_two, Shape.rowMajor_val_one]
    show 0 * 1600000 + e.val = e.val
    omega)]
  exact extractStridedSlice_apply _ a1 hs _ (ix2 (⟨o, ho⟩ : Fin 2) e) (fun a => match a with
    | ⟨0, _⟩ => by show o = o + 0; omega
    | ⟨1, _⟩ => by show e.val = 0 + e.val; omega)

variable {a1 : IVec S2x1600000 32} {a2 : IVec S1600000 32}

theorem srcCol_apply (G : Graph a1 a2) (e : Fin 1600000) : srcCol a1 (ix1 e) = BitVec.ofNat 32 (G.src e).val := by
  unfold srcCol
  exact (rowOfEdges_apply a1 0 (by norm_num) _ e).trans (G.hsrc e)

def keyOf (G : Graph a1 a2) (e : Fin 1600000) : Fin 800000 :=
  ⟨8 * (G.dst e).val + (G.et e).val, by have := (G.dst e).isLt; have := (G.et e).isLt; omega⟩

theorem keyCol_apply (G : Graph a1 a2) (e : Fin 1600000) : keyCol a1 a2 (ix1 e) = BitVec.ofNat 32 (keyOf G e).val := by
  unfold keyCol
  show IntOp.addi (IntOp.muli (shapeCast S1600000 (extractStridedSlice S1x1600000 ![1, 0] a1 slices_S2x1600000_S1x1600000_1_0)
    shapeCasts_S1x1600000_S1600000 (ix1 e)) 8#32) (a2 (ix1 e)) = _
  have h1 := (rowOfEdges_apply a1 1 (by norm_num) slices_S2x1600000_S1x1600000_1_0 e).trans (G.hdst e)
  rw [h1, G.het]
  exact key_word _ _

def cntVec (key : IVec S1600000 32) : FVec Ideal S800000 .f32 :=
  Host.scatterAdd scatter_S800000_S1600000x1_S1600000_n_0_0_1
    (broadcastInDim S800000 ![] bcast_S_S800000 (constant (F := Ideal) S_ .f32 0x00000000#32))
    (broadcastInDim S1600000x1 ![0] bcast_S1600000_S1600000x1_0 key)
    (broadcastInDim S1600000 ![] bcast_S_S1600000 (constant (F := Ideal) S_ .f32 0x3F800000#32))

def invVec (key : IVec S1600000 32) : FVec Ideal S800000 .f32 :=
  Host.divf (broadcastInDim S800000 ![] bcast_S_S800000 (constant (F := Ideal) S_ .f32 0x3F800000#32))
    (maximumf (broadcastInDim S800000 ![] bcast_S_S800000 (id (constant (F := Ideal) S_ .f32 0x3F800000#32))) (cntVec key))

theorem bcast_const_apply {t : Shape} (h : S_.BroadcastsInDim t ![]) (b : BitVec 32) (j : t.Idx) :
    broadcastInDim t ![] h (constant (F := Ideal) S_ .f32 b) j = Ideal.ofBits .f32 b :=
  (StableHlo.Predicate.bcast_scalar h h_S_ _ j).trans (constant_apply (s := S_) (φ := .f32) b _)

theorem hostDivf_apply {s : Shape} {φ : FTy} (a b : FVec Ideal s φ) (i : s.Idx) : Host.divf a b i = Ideal.div (a i) (b i) := rfl

theorem sum_idx1 {M : Type*} [AddCommMonoid M] {n : Nat} (f : (⟨1, ![n]⟩ : Shape).Idx → M) : ∑ i, f i = ∑ a : Fin n, f (ix1 a) :=
  (Fintype.sum_equiv ⟨fun a : Fin n => (ix1 a : (⟨1, ![n]⟩ : Shape).Idx), fun i => i 0, fun _ => rfl, fun i => (eq_ix1 i).symm⟩ _ _
    (fun _ => rfl)).symm

theorem cntVec_apply (key : IVec S1600000 32) (kf : Fin 1600000 → Fin 800000)
    (hk : ∀ e, key (ix1 e) = BitVec.ofNat 32 (kf e).val) (p : Fin 800000) :
    cntVec key (ix1 p) = ∑ e : Fin 1600000, if (kf e).val = p.val then (1 : EReal) else 0 := by
  have hd : scatter_S800000_S1600000x1_S1600000_n_0_0_1
      = SegNorm.vecScatterDims 800000 1600000 scatter_S800000_S1600000x1_S1600000_n_0_0_1_wf := rfl
  unfold cntVec
  rw [SegNorm.scatterAdd_ideal, hd]
  unfold Ideal.hostScatterAdd
  rw [bcast_const_apply, Ideal.ofBits_zero_f32, zero_add, Finset.sum_filter, sum_idx1]
  refine Finset.sum_congr rfl (fun e _ => ?_)
  rw [bcast_const_apply, ofBits_one_f32]
  refine if_congr ?_ rfl rfl
  rw [SegNorm.vecScatter_resultIdx]
  show (broadcastInDim S1600000x1 ![0] bcast_S1600000_S1600000x1_0 key (SegNorm.eIdx e)).toInt = ((p.val : ℕ) : ℤ) ↔ _
  rw [eIdx_eq, col_apply, hk, StableHlo.Predicate.toInt_ofNat_small _ (by have := (kf e).isLt; omega)]
  exact Int.ofNat_inj

theorem invVec_apply (key : IVec S1600000 32) (kf : Fin 1600000 → Fin 800000)
    (hk : ∀ e, key (ix1 e) = BitVec.ofNat 32 (kf e).val) (p : Fin 800000) :
    invVec key (ix1 p) = Ideal.div 1 (max 1 (∑ e : Fin 1600000, if (kf e).val = p.val then (1 : EReal) else 0)) := by
  unfold invVec
  rw [hostDivf_apply, maximumf_apply, id_eq, bcast_const_apply, ofBits_one_f32, cntVec_apply key kf hk p]

def aggOf (xs : FVec Ideal S1600000x64 .f32) (inve : FVec Ideal S1600000 .f32) (key : IVec S1600000 32) : FVec Ideal S100000x512 .f32 :=
  shapeCast S100000x512
    (Host.scatterAdd scatter_S800000x64_S1600000x1_S1600000x64_1_0_0_1
      (broadcastInDim S800000x64 ![] bcast_S_S800000x64 (constant (F := Ideal) S_ .f32 0x00000000#32))
      (broadcastInDim S1600000x1 ![0] bcast_S1600000_S1600000x1_0 key)
      (mulf xs (broadcastInDim S1600000x64 ![0, 1] bcast_S1600000x1_S1600000x64_0_1
        (broadcastInDim S1600000x1 ![0] bcast_S1600000_S1600000x1_0 inve))))
    shapeCasts_S800000x64_S100000x512

theorem aggOf_apply (xs : FVec Ideal S1600000x64 .f32) (inve : FVec Ideal S1600000 .f32) (key : IVec S1600000 32)
    (kf : Fin 1600000 → Fin 800000) (hk : ∀ e, key (ix1 e) = BitVec.ofNat 32 (kf e).val) (n : Fin 100000) (k : Fin 512) :
    aggOf xs inve key (ix2 n k) = ∑ e : Fin 1600000, if (kf e).val = 8 * n.val + k.val / 64
      then xs (ix2 e (⟨k.val % 64, Nat.mod_lt _ (by norm_num)⟩ : Fin 64)) * inve (ix1 e) else 0 := by
  unfold aggOf
  rw [shapeCast_apply _ _ (ix2 n k) (ix2 (⟨8 * n.val + k.val / 64, by have := n.isLt; have := k.isLt; omega⟩ : Fin 800000)
    (⟨k.val % 64, Nat.mod_lt _ (by norm_num)⟩ : Fin 64)) (by
      rw [Shape.rowMajor_val_two, Shape.rowMajor_val_two]
      show (8 * n.val + k.val / 64) * 64 + k.val % 64 = n.val * 512 + k.val
      omega)]
  have hd : scatter_S800000x64_S1600000x1_S1600000x64_1_0_0_1
      = Cert.LibScatter.rowScatter 800000 1600000 64 scatter_S800000x64_S1600000x1_S1600000x64_1_0_0_1_wf := rfl
  rw [SegNorm.scatterAdd_ideal, hd, Cert.LibScatter.scatterAdd_row_apply, bcast_const_apply, Ideal.ofBits_zero_f32, zero_add, Finset.sum_filter]
  refine Finset.sum_congr rfl (fun e _ => ?_)
  rw [show ix2 e (⟨0, Nat.one_pos⟩ : Fin 1) = cix e from rfl, col_apply, hk,
    StableHlo.Predicate.toInt_ofNat_small _ (by have := (kf e).isLt; omega), mulf_apply, lanes_apply, col_apply]
  exact if_congr Int.ofNat_inj rfl rfl

theorem layer_agg (G : Graph a1 a2) (z : FVec Ideal S100000x64 .f32) :
    aggOf (takeRows z (srcCol a1)) (takeVec (invVec (keyCol a1 a2)) (keyCol a1 a2)) (keyCol a1 a2) = agg2K G z := by
  funext i
  obtain ⟨n, k, rfl⟩ : ∃ (n : Fin 100000) (k : Fin 512), i = ix2 n k := ⟨i 0, i 1, eq_ix2 i⟩
  rw [aggOf_apply _ _ _ (keyOf G) (keyCol_apply G) n k]
  show _ = aggAt G z n k
  unfold aggAt
  refine Finset.sum_congr rfl (fun e _ => ?_)
  rw [takeRows_apply z _ G.src (srcCol_apply G) e, takeVec_apply _ _ (keyOf G) (keyCol_apply G) e,
    invVec_apply _ (keyOf G) (keyCol_apply G) (keyOf G e)]
  rfl

theorem ofBuf_toBuf {T : BufTy} (t : StableHlo.TRef sig T) (v : T.Contents (Elt Ideal)) : t.ofBuf (t.toBuf v) = v := by
  obtain ⟨r, rfl, _, _⟩ := t
  rfl

theorem ofBuf_of {r : Ref sig .tc} (h1 : r.ty = r.ty) (h2 : r.space ≠ .host) (h3 : r.isScoped = false) (w : r.ty.Contents (Elt Ideal)) :
    (StableHlo.TRef.of r h1 h2 h3).ofBuf w = w := rfl
theorem toBuf_of {r : Ref sig .tc} (h1 : r.ty = r.ty) (h2 : r.space ≠ .host) (h3 : r.isScoped = false) (w : r.ty.Contents (Elt Ideal)) :
    (StableHlo.TRef.of r h1 h2 h3).toBuf w = w := rfl

section Stretches
variable (V : Valuation τ sig (Elt Ideal)) {r : Ref sig .tc}

theorem st0_v1 : @Eq (IVec S1600000 32) (StableHlo.after hostOps0 V (no_index (Proc.devRef .tc main_v1))) (srcCol (V (Proc.devRef .tc main_arg1))) := by
  after_results <;> rfl
theorem st0_v6 : @Eq (IVec S1600000 32) (StableHlo.after hostOps0 V (no_index (Proc.devRef .tc main_v6)))
    (keyCol (V (Proc.devRef .tc main_arg1)) (V (Proc.devRef .tc main_arg2))) := by
  after_results <;> rfl
theorem st0_v10 : @Eq (FVec Ideal S800000 .f32) (StableHlo.after hostOps0 V (no_index (Proc.devRef .tc main_v10)))
    (cntVec (keyCol (V (Proc.devRef .tc main_arg1)) (V (Proc.devRef .tc main_arg2)))) := by
  after_results <;> rfl
theorem st0_cst1 : @Eq (FVec Ideal S_ .f32) (StableHlo.after hostOps0 V (no_index (Proc.devRef .tc main_cst_1)))
    (constant (F := Ideal) S_ .f32 0x3F800000#32) := by
  after_results
theorem st1_v11 : @Eq (FVec Ideal S800000 .f32) (StableHlo.after hostOps0_1 V (no_index (Proc.devRef .tc main_v11)))
    (maximumf (broadcastInDim S800000 ![] bcast_S_S800000 (id (V (Proc.devRef .tc main_cst_1) : FVec Ideal S_ .f32)))
        (V (Proc.devRef .tc main_v10))) := by
  after_results <;> rfl
theorem st2_v13 : @Eq (FVec Ideal S800000 .f32) (StableHlo.after hostOps0_2 V (no_index (Proc.devRef .tc main_v13)))
    (Host.divf (broadcastInDim S800000 ![] bcast_S_S800000 (constant (F := Ideal) S_ .f32 0x3F800000#32))
        (V (Proc.devRef .tc main_v11))) := by
  after_results <;> rfl
theorem st3_raw : StableHlo.after hostOps0_3 V (Proc.devRef .tc main_v14)
    = (.of main_v14 : StableHlo.TRef sig ⟨S1600000, .f32⟩).toBuf (Val := Elt Ideal)
        (takeVec ((.of main_v13 : StableHlo.TRef sig ⟨S800000, .f32⟩).ofBuf (V (Proc.devRef .tc main_v13)))
                 ((.of main_v6 : StableHlo.TRef sig ⟨S1600000, .i32⟩).ofBuf (V (Proc.devRef .tc main_v6)))) := by
  after_results_simp
  simp only [ofBuf_toBuf]
  exact rfl
theorem st3_v14 : @Eq (FVec Ideal S1600000 .f32) (StableHlo.after hostOps0_3 V (no_index (Proc.devRef .tc main_v14)))
    (takeVec (V (Proc.devRef .tc main_v13)) (V (Proc.devRef .tc main_v6))) := by
  rw [st3_raw, toBuf_of, ofBuf_of, ofBuf_of]
theorem st4_raw : StableHlo.after hostOps0_4 V (Proc.devRef .tc main_v15)
    = (.of main_v15 : StableHlo.TRef sig ⟨S1600000x64, .f32⟩).toBuf (Val := Elt Ideal)
        (takeRows ((.of main_arg0 : StableHlo.TRef sig ⟨S100000x64, .f32⟩).ofBuf (V (Proc.devRef .tc main_arg0)))
                  ((.of main_v1 : StableHlo.TRef sig ⟨S1600000, .i32⟩).ofBuf (V (Proc.devRef .tc main_v1)))) := by
  after_results_simp
  simp only [ofBuf_toBuf]
  exact rfl
theorem st4_v15 : @Eq (FVec Ideal S1600000x64 .f32) (StableHlo.after hostOps0_4 V (no_index (Proc.devRef .tc main_v15)))
    (takeRows (V (Proc.devRef .tc main_arg0)) (V (Proc.devRef .tc main_v1))) := by
  rw [st4_raw, toBuf_of, ofBuf_of, ofBuf_of]
theorem st5_v22 : @Eq (FVec Ideal S100000x512 .f32) (StableHlo.after hostOps0_5 V (no_index (Proc.devRef .tc main_v22)))
    (aggOf (V (Proc.devRef .tc main_v15)) (V (Proc.devRef .tc main_v14)) (V (Proc.devRef .tc main_v6))) := by
  after_results <;> rfl
theorem st7_raw : StableHlo.after hostOps1 V (Proc.devRef .tc main_v26)
    = (.of main_v26 : StableHlo.TRef sig ⟨S1600000x64, .f32⟩).toBuf (Val := Elt Ideal)
        (takeRows ((.of main_v25 : StableHlo.TRef sig ⟨S100000x64, .f32⟩).ofBuf (V (Proc.devRef .tc main_v25)))
                  ((.of main_v1 : StableHlo.TRef sig ⟨S1600000, .i32⟩).ofBuf (V (Proc.devRef .tc main_v1)))) := by
  after_results_simp
  simp only [ofBuf_toBuf]
  exact rfl
theorem st7_v26 : @Eq (FVec Ideal S1600000x64 .f32) (StableHlo.after hostOps1 V (no_index (Proc.devRef .tc main_v26)))
    (takeRows (V (Proc.devRef .tc main_v25)) (V (Proc.devRef .tc main_v1))) := by
  rw [st7_raw, toBuf_of, ofBuf_of, ofBuf_of]
theorem st8_v33 : @Eq (FVec Ideal S100000x512 .f32) (StableHlo.after hostOps1_1 V (no_index (Proc.devRef .tc main_v33)))
    (aggOf (V (Proc.devRef .tc main_v26)) (V (Proc.devRef .tc main_v14)) (V (Proc.devRef .tc main_v6))) := by
  after_results <;> rfl

theorem hv_keep {ops : List (HloOp τ sig (Elt Ideal))} {W : List (Ref sig .tc)}
    (hW : ops.Forall fun op => op.writes ⊆ (W.map (Proc.devRef (τ := τ) .tc)).toFinset) (h : r ∉ W) :
    StableHlo.after ops V (no_index (Proc.devRef .tc r)) = V (Proc.devRef .tc r) := StableHlo.after_of_writes_sub ops V hW h

end Stretches

variable (m : (ℓ : Loc nD τ sig) → Buf (Elt Ideal) ℓ) (c : Dev nD)

theorem hv_keep7 {r : Ref sig .tc} (h : ∀ w : Fin 6, Pipeline.arrRef spec0 w ≠ r) :
    W7 m c (no_index (Proc.devRef .tc r)) = W6 m c (Proc.devRef .tc r) := W7_of_ne m c r h

theorem hv_x : V6 m c main_arg0 = m ((c.tc : Thread nD τ).loc main_arg0) :=
  W6_keep m c main_arg0 (by decide) (by decide) (by decide) (by decide) (by decide) (by decide)

theorem hv_root1 : V6 m c main_arg4 = m ((c.tc : Thread nD τ).loc main_arg4) :=
  W6_keep m c main_arg4 (by decide) (by decide) (by decide) (by decide) (by decide) (by decide)

theorem hv_agg1 (G : Graph (m ((c.tc : Thread nD τ).loc main_arg1)) (m ((c.tc : Thread nD τ).loc main_arg2))) :
    V6 m c main_v22 = agg2K G (m ((c.tc : Thread nD τ).loc main_arg0)) := by
  simp (disch := decide) only [st5_v22, st4_v15, st3_v14, st2_v13, st1_v11, st0_v10, st0_cst1, st0_v6, st0_v1,
    hv_keep _ hostOps0_4_writes, hv_keep _ hostOps0_3_writes, hv_keep _ hostOps0_2_writes, hv_keep _ hostOps0_1_writes, hv_keep _ hostOps0_writes]
  exact layer_agg G _

theorem stack_apply {Fo : ℕ} (w : (⟨3, ![8, 64, Fo]⟩ : Shape).Idx → EReal)
    (h : (⟨3, ![8, 64, Fo]⟩ : Shape).ShapeCasts ⟨2, ![512, Fo]⟩) :
    shapeCast (⟨2, ![512, Fo]⟩ : Shape) w h = stackW w := by
  funext i
  obtain ⟨p, q, rfl⟩ : ∃ (p : Fin 512) (q : Fin Fo), i = ix2 p q := ⟨i 0, i 1, eq_ix2 i⟩
  refine (shapeCast_apply w h (ix2 p q)
    (ix3 (⟨p.val / 64, by omega⟩ : Fin 8) (⟨p.val % 64, Nat.mod_lt _ (by norm_num)⟩ : Fin 64) q) ?_).trans rfl
  rw [Shape.rowMajor_val_three, Shape.rowMajor_val_two]
  show ((p.val / 64) * 64 + p.val % 64) * Fo + q.val = p.val * Fo + q.val
  rw [Nat.div_add_mod' p.val 64]

theorem row_apply {Fo : ℕ} (b : (⟨1, ![Fo]⟩ : Shape).Idx → EReal)
    (h : (⟨1, ![Fo]⟩ : Shape).ShapeCasts ⟨2, ![1, Fo]⟩) :
    shapeCast (⟨2, ![1, Fo]⟩ : Shape) b h = rowOf b :=
  funext fun i => (congrArg _ (eq_ix2 i)).trans (shapeCast_a_1a_apply b h (i 0) (i 1))

theorem hv_w1 : V6 m c main_v23 = stackW (m ((c.tc : Thread nD τ).loc main_arg3)) := by
  show StableHlo.after hostOps0_5 (W5 m c) (Proc.devRef .tc main_v23) = _
  after_results
  exact stack_apply (m ((c.tc : Thread nD τ).loc main_arg3)) shapeCasts_S8x64x64_S512x64

theorem hv_b1 : V6 m c main_v24 = rowOf (m ((c.tc : Thread nD τ).loc main_arg5)) := by
  show StableHlo.after hostOps0_5 (W5 m c) (Proc.devRef .tc main_v24) = _
  after_results
  exact row_apply (m ((c.tc : Thread nD τ).loc main_arg5)) shapeCasts_S64_S1x64

theorem hv_h : V9 m c main_v25 = (dat0 (V6 m) c).arrAt 5 cfg0.N :=
  (hv_keep _ hostOps1_1_writes (by decide)).trans <| (hv_keep _ hostOps1_writes (by decide)).trans (W7_arr m c 5)

theorem hv_W7 {r : Ref sig .tc} (h7 : ∀ w : Fin 6, Pipeline.arrRef spec0 w ≠ r) (h1 : r ∉ hostOps0_W) (h2 : r ∉ hostOps0_1_W)
    (h3 : r ∉ hostOps0_2_W) (h4 : r ∉ hostOps0_3_W) (h5 : r ∉ hostOps0_4_W) (h6 : r ∉ hostOps0_5_W) :
    W7 m c (Proc.devRef .tc r) = m ((c.tc : Thread nD τ).loc r) :=
  (W7_of_ne m c r h7).trans (W6_keep m c r h1 h2 h3 h4 h5 h6)

theorem hv_root2 : V9 m c main_arg7 = m ((c.tc : Thread nD τ).loc main_arg7) :=
  (hv_keep _ hostOps1_1_writes (by decide)).trans <| (hv_keep _ hostOps1_writes (by decide)).trans <|
    hv_W7 m c (by decide) (by decide) (by decide) (by decide) (by decide) (by decide) (by decide)

theorem hv_agg2 (G : Graph (m ((c.tc : Thread nD τ).loc main_arg1)) (m ((c.tc : Thread nD τ).loc main_arg2))) :
    V9 m c main_v33 = agg2K G (V9 m c main_v25) := by
  simp (disch := decide) only [st8_v33, st7_v26, hv_keep _ hostOps1_1_writes, hv_keep _ hostOps1_writes, hv_keep7, hv_keep _ hostOps0_5_writes, st3_v14, st2_v13, st1_v11, st0_v10, st0_cst1, st0_v6, st0_v1,
    hv_keep _ hostOps0_4_writes, hv_keep _ hostOps0_3_writes, hv_keep _ hostOps0_2_writes, hv_keep _ hostOps0_1_writes, hv_keep _ hostOps0_writes]
  exact layer_agg G _

theorem hv_w2 : V9 m c main_v34 = stackW (m ((c.tc : Thread nD τ).loc main_arg6)) := by
  show StableHlo.after hostOps1_1 (W8 m c) (Proc.devRef .tc main_v34) = _
  after_results
  rw [hv_W7 m c (by decide) (by decide) (by decide) (by decide) (by decide) (by decide) (by decide)]
  exact stack_apply (m ((c.tc : Thread nD τ).loc main_arg6)) shapeCasts_S8x64x16_S512x16

theorem hv_b2 : V9 m c main_v35 = rowOf (m ((c.tc : Thread nD τ).loc main_arg8)) := by
  show StableHlo.after hostOps1_1 (W8 m c) (Proc.devRef .tc main_v35) = _
  after_results
  rw [hv_W7 m c (by decide) (by decide) (by decide) (by decide) (by decide) (by decide) (by decide)]
  exact row_apply (m ((c.tc : Thread nD τ).loc main_arg8)) shapeCasts_S16_S1x16

end Cert.KernelIdeal.Hand

end
-- ==== Proof.LibBlockOps.lean ====
import Idealize.ShloMosaic.PureOps.Ideal.Laws
import Idealize.ShloMosaic.Lib.ValueIdx
import Idealize.ShloMosaic.Lib.ValueLayout

noncomputable section

open scoped BigOperators

namespace BlockOps

open Idealize.ShloMosaic Idealize.ShloMosaic.ValueIdx

variable {m k n : Nat}

abbrev rowCol (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem rowCol_lhsIdx (w : DotDims.WF ⟨2, ![m, k]⟩ ⟨2, ![k, n]⟩ ⟨2, ![m, n]⟩ [1] [0] [0] [1] [] [])
    (a : Fin m) (b : Fin n) (c : Fin k) :
    (rowCol w).lhsIdx (ix2 a b) ((contrEquiv1 (rowCol w) k rfl rfl).symm c) = ix2 a c := by
  have c2 := contrEquiv1_symm_val (rowCol w) k rfl rfl c
  funext ax; apply Fin.ext
  match ax with
  | ⟨0, _⟩ => simp [DotDims.lhsIdx]; rfl
  | ⟨1, _⟩ => simp [DotDims.lhsIdx]; exact c2

theorem rowCol_rhsIdx (w : DotDims.WF ⟨2, ![m, k]⟩ ⟨2, ![k, n]⟩ ⟨2, ![m, n]⟩ [1] [0] [0] [1] [] [])
    (a : Fin m) (b : Fin n) (c : Fin k) :
    (rowCol w).rhsIdx (ix2 a b) ((contrEquiv1 (rowCol w) k rfl rfl).symm c) = ix2 c b := by
  have c2 := contrEquiv1_symm_val (rowCol w) k rfl rfl c
  funext ax; apply Fin.ext
  match ax with
  | ⟨0, _⟩ => simp [DotDims.rhsIdx]; exact c2
  | ⟨1, _⟩ => simp [DotDims.rhsIdx]; rfl

theorem matmul_zero_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (rowCol w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (rowCol w) k rfl rfl).symm]
  refine Finset.sum_congr rfl fun c _ => ?_
  rw [rowCol_lhsIdx, rowCol_rhsIdx]

theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end BlockOps

end
-- ==== Proof.KI.KernelVal0.lean ====
import proofs.«409165_j17514876633598_2_alg».proof.Proof.KI.Region0
import proofs.«409165_j17514876633598_2_alg».proof.Proof.KForm
import proofs.«409165_j17514876633598_2_alg».proof.Proof.LibBlockOps
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Proof Cert.KForm

variable (V : (c : Dev nD) → (b : Ref sig .tc) → Buf (Elt Ideal) ((c : Thread nD τ).loc b)) (c : Dev nD)

theorem kv0_hz : (![0, 0] : Fin 2 → Nat) = fun _ => 0 := funext fun a => by fin_cases a <;> rfl

theorem kv0_pay_apply (x0 : Vec Ideal S5000x64 .f32) (x1 : Vec Ideal S5000x512 .f32) (x2 : Vec Ideal S64x64 .f32)
    (x3 : Vec Ideal S512x64 .f32) (x4 : Vec Ideal S1x64 .f32) (p : Fin 5000) (q : Fin 64) :
    k0_pay1 x0 x1 x2 x3 x4 (ix2 p q)
      = max ((∑ k : Fin 64, x0 (ix2 p k) * x2 (ix2 k q)) + (∑ k : Fin 512, x1 (ix2 p k) * x3 (ix2 k q))
          + x4 (ix2 (0 : Fin 1) q)) 0 := by
  unfold k0_pay1
  simp only [shapeCast_self]
  exact congrArg₂ max (congrArg₂ (fun a b : EReal => a + b) (congrArg₂ (fun a b : EReal => a + b)
      (BlockOps.matmul_zero_apply dot_S5000x64_S64x64_S5000x64_1_0_0_1_n_n_wf none _ _ p q)
      (BlockOps.matmul_zero_apply dot_S5000x512_S512x64_S5000x64_1_0_0_1_n_n_wf none _ _ p q))
    (broadcastTo_1b_ab_apply x4 _ p q)) Ideal.ofBits_zero_f32

theorem kv0_idx : ∀ t : Fin cfg0.N, (win0_0.index t 0 = t.val ∧ win0_0.index t 1 = 0 ∧ win0_1.index t 0 = t.val ∧ win0_1.index t 1 = 0
      ∧ win0_5.index t 0 = t.val ∧ win0_5.index t 1 = 0)
    ∧ ∀ a : Fin 2, win0_2.index t a = 0 ∧ win0_3.index t a = 0 ∧ win0_4.index t a = 0 :=
  (by decide +kernel : ∀ t : Fin grid0.N, _)

-- row p of a node block at point t is row 5000·t + p of its array; a weight block is its whole array
theorem kv0_flushed_eq (t : Fin cfg0.N) :
    (dat0 V c).flushed 5 t = ((cfg0.win 5).blk t).view.read (Elt Ideal)
      (layer1K (V c main_arg0) (V c main_v22) (V c main_arg4) (V c main_v23) (V c main_v24)) := by
  have hN : cfg0.N = 20 := N_0
  obtain ⟨e, ez⟩ := kv0_idx t
  have z0 := ez 0
  have z1 := ez 1
  have b2 : @Eq (FVec Ideal S64x64 .f32) (iblk0 V c 2 t) (V c main_arg4) := funext fun y => congrArg (V c main_arg4) (Shape.idx_ext₂
    (by show win0_2.index t 0 * 64 + 1 * (y 0).val = (y 0).val; omega) (by show win0_2.index t 1 * 64 + 1 * (y 1).val = (y 1).val; omega))
  have b3 : @Eq (FVec Ideal S512x64 .f32) (iblk0 V c 3 t) (V c main_v23) := funext fun y => congrArg (V c main_v23) (Shape.idx_ext₂
    (by show win0_3.index t 0 * 512 + 1 * (y 0).val = (y 0).val; omega) (by show win0_3.index t 1 * 64 + 1 * (y 1).val = (y 1).val; omega))
  have b4 : @Eq (FVec Ideal S1x64 .f32) (iblk0 V c 4 t) (V c main_v24) := funext fun y => congrArg (V c main_v24) (Shape.idx_ext₂
    (by show win0_4.index t 0 * 1 + 1 * (y 0).val = (y 0).val; omega) (by show win0_4.index t 1 * 64 + 1 * (y 1).val = (y 1).val; omega))
  show (cfg0.win 5).cut (grid0.coords t) ((dat0 V c).after 5 t) = _
  rw [after0_5]
  unfold out0_5
  rw [View.canon_unit_zero kv0_hz]
  simp only [View.ld_unit_zero (S := S5000x64) kv0_hz, View.ld_unit_zero (S := S5000x512) kv0_hz,
    View.ld_unit_zero (S := S64x64) kv0_hz, View.ld_unit_zero (S := S512x64) kv0_hz, View.ld_unit_zero (S := S1x64) kv0_hz]
  rw [b2, b3, b4]
  funext j
  obtain ⟨p, q, rfl⟩ : ∃ (p : Fin 5000) (q : Fin 64), j = ix2 p q := ⟨j 0, j 1, eq_ix2 j⟩
  have h : 5000 * t.val + p.val < 100000 := by have := t.isLt; have := p.isLt; omega
  have he : ((cfg0.win 5).blk t).view.emb (ix2 p q) = ix2 (⟨5000 * t.val + p.val, h⟩ : Fin 100000) q := Shape.idx_ext₂
    (by show win0_5.index t 0 * 5000 + 1 * p.val = 5000 * t.val + p.val; omega) (by show win0_5.index t 1 * 64 + 1 * q.val = q.val; omega)
  have b0 : ∀ k : Fin 64, (iblk0 V c 0 t : FVec Ideal S5000x64 .f32) (ix2 p k) = V c main_arg0 (ix2 (⟨5000 * t.val + p.val, h⟩ : Fin 100000) k) :=
    fun k => congrArg (V c main_arg0) (Shape.idx_ext₂
      (by show win0_0.index t 0 * 5000 + 1 * p.val = 5000 * t.val + p.val; omega) (by show win0_0.index t 1 * 64 + 1 * k.val = k.val; omega))
  have b1 : ∀ k : Fin 512, (iblk0 V c 1 t : FVec Ideal S5000x512 .f32) (ix2 p k) = V c main_v22 (ix2 (⟨5000 * t.val + p.val, h⟩ : Fin 100000) k) :=
    fun k => congrArg (V c main_v22) (Shape.idx_ext₂
      (by show win0_1.index t 0 * 5000 + 1 * p.val = 5000 * t.val + p.val; omega) (by show win0_1.index t 1 * 512 + 1 * k.val = k.val; omega))
  show k0_pay1 (F := Ideal) _ _ _ _ _ (ix2 p q) = layer1K _ _ _ _ _ (((cfg0.win 5).blk t).view.emb (ix2 p q))
  rw [he, kv0_pay_apply]
  simp only [b0, b1]
  rfl

theorem kv0_cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : grid0.N = 20 := N_0
  obtain ⟨t, ht⟩ : ∃ t : Fin cfg0.N, t.val = (i 0).val / 5000 :=
    ⟨⟨(i 0).val / 5000, by show (i 0).val / 5000 < grid0.N; omega⟩, rfl⟩
  obtain ⟨e, -⟩ := kv0_idx t
  refine ⟨t, flush0_5 t, ?_⟩
  show i ∈ ((View.whole main_v25).slice (win0_5.rect t)).set
  rw [View.set_slice_whole, Rect.mem_set_unit]
  intro a
  match a with
  | ⟨0, _⟩ =>
    show win0_5.index t 0 * 5000 ≤ (i 0).val ∧ (i 0).val < win0_5.index t 0 * 5000 + 5000
    omega
  | ⟨1, _⟩ =>
    show win0_5.index t 1 * 64 ≤ (i 1).val ∧ (i 1).val < win0_5.index t 1 * 64 + 64
    omega

theorem kv0 : (dat0 V c).arrAt 5 cfg0.N
      = layer1K (V c main_arg0) (V c main_v22) (V c main_arg4) (V c main_v23) (V c main_v24) :=
  (dat0 V c).arrAt_eq_of_cover 5 _ (fun t _ => kv0_flushed_eq V c t) kv0_cover

end Cert.KernelIdeal.Hand

end
-- ==== Proof.KI.KernelVal1.lean ====
import proofs.«409165_j17514876633598_2_alg».proof.Proof.KI.Region1
import proofs.«409165_j17514876633598_2_alg».proof.Proof.KForm
import proofs.«409165_j17514876633598_2_alg».proof.Proof.LibBlockOps
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Proof Cert.KForm

theorem ofBits_neg_inf : Ideal.ofBits .f32 0xFF800000#32 = (⊥ : EReal) := by
  simp [Ideal.ofBits, Ideal.ieee]

section Reductions
variable {a b : ℕ} (hφ : FKind.Formats .f32) (hz : (0x00000000#32 : BitVec 32) = FKind.add.neutral .f32 hφ)

theorem sum_row (x : FVec Ideal ⟨2, ![1, b]⟩ .f32) (h : (⟨2, ![1, b]⟩ : Shape).Reduces [1] ⟨1, ![1]⟩) (u : Fin 1) :
    multiReduction .add [1] ⟨1, ![1]⟩ x 0x00000000#32 h hφ hz (ix1 u) = ∑ k : Fin b, x (ix2 u k) :=
  (Ideal.multiReduction_add_single x _ h hφ hz (ix1 u)).trans
    (Finset.sum_congr rfl fun k _ => congrArg x (Shape.idx_ext₂ rfl rfl))

theorem sum_col (x : FVec Ideal ⟨2, ![a, b]⟩ .f32) (h : (⟨2, ![a, b]⟩ : Shape).Reduces [0] ⟨1, ![b]⟩) (o : Fin b) :
    multiReduction .add [0] ⟨1, ![b]⟩ x 0x00000000#32 h hφ hz (ix1 o) = ∑ p : Fin a, x (ix2 p o) :=
  (Ideal.multiReduction_add_single x _ h hφ hz (ix1 o)).trans
    (Finset.sum_congr rfl fun p _ => congrArg x (Shape.idx_ext₂ rfl rfl))

theorem max_row (x : FVec Ideal ⟨2, ![1, b]⟩ .f32) (h : (⟨2, ![1, b]⟩ : Shape).Reduces [1] ⟨1, ![1]⟩)
    (hm : (0xFF800000#32 : BitVec 32) = FKind.maximumf.neutral .f32 hφ) (u : Fin 1) :
    multiReduction .maximumf [1] ⟨1, ![1]⟩ x 0xFF800000#32 h hφ hm (ix1 u)
      = (Finset.univ : Finset (Fin b)).fold max ⊥ (fun k => x (ix2 u k)) :=
  (Ideal.multiReduction_maximumf_single x _ h hφ hm (ix1 u)).trans
    (congrArg₂ (fun (z : EReal) (f : Fin b → EReal) => (Finset.univ : Finset (Fin b)).fold max z f)
      ofBits_neg_inf (funext fun k => congrArg x (Shape.idx_ext₂ rfl rfl)))

variable (h : S1x16.Reduces [1] S1) (hc : S1.ShapeCasts S1x1) (hb : S1x1.Broadcasts S1x16) (k : Fin 16)

theorem keep_max (x : FVec Ideal S1x16 .f32) (hm : (0xFF800000#32 : BitVec 32) = FKind.maximumf.neutral .f32 hφ) :
    broadcastTo S1x16 (shapeCast S1x1 (multiReduction .maximumf [1] S1 x 0xFF800000#32 h hφ hm) hc) hb (ix2 (0 : Fin 1) k)
      = Cert.Spec.rowMax fun k' : Fin 16 => x (ix2 (0 : Fin 1) k') :=
  (BlockOps.broadcastTo_a1_ab_apply _ hb (0 : Fin 1) k).trans
    ((shapeCast_a_1a_apply _ hc (0 : Fin 1) (0 : Fin 1)).trans (max_row hφ x h hm (0 : Fin 1)))

theorem keep_logsum (y : FVec Ideal S1x16 .f32) :
    broadcastTo S1x16 (log (shapeCast S1x1 (multiReduction .add [1] S1 y 0x00000000#32 h hφ hz) hc)) hb (ix2 (0 : Fin 1) k)
      = Ideal.log (∑ k' : Fin 16, y (ix2 (0 : Fin 1) k')) :=
  (BlockOps.broadcastTo_a1_ab_apply _ hb (0 : Fin 1) k).trans
    (congrArg Ideal.log ((shapeCast_a_1a_apply _ hc (0 : Fin 1) (0 : Fin 1)).trans (sum_row hφ hz y h (0 : Fin 1))))

end Reductions

theorem inv_named : Named.named (F := Ideal) κ "inv_100000" (φ := .f32) 0x3727C5AC#32 = ((1 / 100000 : ℝ) : EReal) :=
  IdealRules.named_const.ideal_named_scalar _ _ _ _ rfl

def scaledRow (v : FVec Ideal S1x16 .f32) : Fin 16 → EReal := fun o => v (ix2 (0 : Fin 1) o) * ((1 / 100000 : ℝ) : EReal)

theorem pay3_apply (v31 : FVec Ideal S1x16 .f32) (o : Fin 16) :
    k1_pay3 (F := Ideal) v31 (ix2 (0 : Fin 1) o)
      = Cert.Spec.logSoftmax (Cert.Spec.rowMax (scaledRow v31)) (scaledRow v31) o := by
  have hx : (fun k : Fin 16 => (mulf v31 (broadcast S1x16 (Named.named (F := Ideal) κ "inv_100000" (φ := .f32) 0x3727C5AC#32)) : FVec Ideal S1x16 .f32) (ix2 (0 : Fin 1) k))
      = scaledRow v31 := funext fun k => congrArg (v31 (ix2 (0 : Fin 1) k) * ·) inv_named
  have hm := fun k : Fin 16 =>
    (keep_max (.inl rfl) reduces_S1x16_S1 shapeCasts_S1_S1x1 broadcasts_S1x1_S1x16 k _ rfl).trans (congrArg Cert.Spec.rowMax hx)
  unfold k1_pay3
  refine (congrArg₂ (fun a b : EReal => a - b) (congrArg₂ (fun a b : EReal => a - b) (congrFun hx o) (hm o))
    (keep_logsum (.inl rfl) rfl reduces_S1x16_S1 shapeCasts_S1_S1x1 broadcasts_S1x1_S1x16 o _)).trans ?_
  unfold Cert.Spec.logSoftmax
  refine congrArg (fun s : EReal => scaledRow v31 o - Cert.Spec.rowMax (scaledRow v31) - Ideal.log s)
    (Finset.sum_congr rfl fun k _ => ?_)
  exact congrArg Ideal.exp (congrArg₂ (fun a b : EReal => a - b) (congrFun hx k) (hm k))

theorem pay1_apply (i : S1x16.Idx) : k1_pay1 (F := Ideal) i = 0 := by
  unfold k1_pay1
  simp only [shapeCast_self]
  exact Ideal.ofBits_zero_f32

theorem pay2_apply (v3 : FVec Ideal S5000x64 .f32) (v6 : FVec Ideal S5000x512 .f32) (v9 : FVec Ideal S64x16 .f32)
    (v11 : FVec Ideal S512x16 .f32) (v17 v21 : FVec Ideal S1x16 .f32) (o : Fin 16) :
    k1_pay2 (F := Ideal) v3 v6 v9 v11 v17 v21 (ix2 (0 : Fin 1) o)
      = v21 (ix2 (0 : Fin 1) o) + ∑ p : Fin 5000, ((∑ k : Fin 64, v3 (ix2 p k) * v9 (ix2 k o))
          + (∑ k : Fin 512, v6 (ix2 p k) * v11 (ix2 k o)) + v17 (ix2 (0 : Fin 1) o)) := by
  unfold k1_pay2
  simp only [shapeCast_self]
  refine congrArg (fun z : EReal => v21 (ix2 (0 : Fin 1) o) + z) ?_
  refine (shapeCast_a_1a_apply _ shapeCasts_S16_S1x16 (0 : Fin 1) o).trans ?_
  refine (sum_col (.inl rfl) rfl _ reduces_S5000x16_S16 o).trans ?_
  refine Finset.sum_congr rfl fun p _ => ?_
  refine congrArg₂ (fun a b : EReal => a + b) (congrArg₂ (fun a b : EReal => a + b) ?_ ?_)
    (broadcastTo_1b_ab_apply v17 broadcasts_S1x16_S5000x16 p o)
  · exact BlockOps.matmul_zero_apply dot_S5000x64_S64x16_S5000x16_1_0_0_1_n_n_wf none _ _ p o
  · exact BlockOps.matmul_zero_apply dot_S5000x512_S512x16_S5000x16_1_0_0_1_n_n_wf none _ _ p o

variable (V : (c : Dev nD) → (b : Ref sig .tc) → Buf (Elt Ideal) ((c : Thread nD τ).loc b)) (c : Dev nD)

theorem kv1_idx : ∀ t : Fin cfg1.N, (win1_0.index t 0 = t.val ∧ win1_0.index t 1 = 0 ∧ win1_1.index t 0 = t.val ∧ win1_1.index t 1 = 0)
    ∧ ∀ a : Fin 2, win1_2.index t a = 0 ∧ win1_3.index t a = 0 ∧ win1_4.index t a = 0 ∧ win1_5.index t a = 0 :=
  (by decide +kernel : ∀ t : Fin grid1.N, _)

-- row p of a node block at point t is row 5000·t + p of its array; a weight block is its whole array
theorem kv1_blks (t : Fin cfg1.N) :
    (∀ (p : Fin 5000) (k : Fin 64) (h : 5000 * t.val + p.val < 100000), (iblk1 V c 0 t : FVec Ideal S5000x64 .f32) (ix2 p k)
        = (V c main_v25 : FVec Ideal S100000x64 .f32) (ix2 (⟨5000 * t.val + p.val, h⟩ : Fin 100000) k))
    ∧ (∀ (p : Fin 5000) (k : Fin 512) (h : 5000 * t.val + p.val < 100000), (iblk1 V c 1 t : FVec Ideal S5000x512 .f32) (ix2 p k)
        = (V c main_v33 : FVec Ideal S100000x512 .f32) (ix2 (⟨5000 * t.val + p.val, h⟩ : Fin 100000) k))
    ∧ @Eq (FVec Ideal S64x16 .f32) (iblk1 V c 2 t) (V c main_arg7)
    ∧ @Eq (FVec Ideal S512x16 .f32) (iblk1 V c 3 t) (V c main_v34)
    ∧ @Eq (FVec Ideal S1x16 .f32) (iblk1 V c 4 t) (V c main_v35) := by
  obtain ⟨e, ez⟩ := kv1_idx t
  have z0 := ez 0
  have z1 := ez 1
  refine ⟨fun p k h => congrArg (V c main_v25) (Shape.idx_ext₂ ?_ ?_), fun p k h => congrArg (V c main_v33) (Shape.idx_ext₂ ?_ ?_),
    funext fun y => congrArg (V c main_arg7) (Shape.idx_ext₂ ?_ ?_), funext fun y => congrArg (V c main_v34) (Shape.idx_ext₂ ?_ ?_),
    funext fun y => congrArg (V c main_v35) (Shape.idx_ext₂ ?_ ?_)⟩
  · show win1_0.index t 0 * 5000 + 1 * p.val = 5000 * t.val + p.val; omega
  · show win1_0.index t 1 * 64 + 1 * k.val = k.val; omega
  · show win1_1.index t 0 * 5000 + 1 * p.val = 5000 * t.val + p.val; omega
  · show win1_1.index t 1 * 512 + 1 * k.val = k.val; omega
  · show win1_2.index t 0 * 64 + 1 * (y 0).val = (y 0).val; omega
  · show win1_2.index t 1 * 16 + 1 * (y 1).val = (y 1).val; omega
  · show win1_3.index t 0 * 512 + 1 * (y 0).val = (y 0).val; omega
  · show win1_3.index t 1 * 16 + 1 * (y 1).val = (y 1).val; omega
  · show win1_4.index t 0 * 1 + 1 * (y 0).val = (y 0).val; omega
  · show win1_4.index t 1 * 16 + 1 * (y 1).val = (y 1).val; omega

def affAt (n : ℕ) (o : Fin 16) : EReal :=
  if h : n < 100000 then
    affK (V c main_v25) (V c main_v33) (V c main_arg7) (V c main_v34) (V c main_v35) (⟨n, h⟩ : Fin 100000) o
  else 0

theorem step1 (t : Fin cfg1.N) (prev : FVec Ideal S1x16 .f32) (o : Fin 16) :
    k1_pay2 (F := Ideal) (iblk1 V c 0 t) (iblk1 V c 1 t) (iblk1 V c 2 t) (iblk1 V c 3 t) (iblk1 V c 4 t) prev
        (ix2 (0 : Fin 1) o)
      = prev (ix2 (0 : Fin 1) o) + ∑ p : Fin 5000, affAt V c (5000 * t.val + p.val) o := by
  have hN : cfg1.N = 20 := N_1
  obtain ⟨b0, b1, b2, b3, b4⟩ := kv1_blks V c t
  rw [b2, b3, b4, pay2_apply]
  refine congrArg (fun z : EReal => prev (ix2 (0 : Fin 1) o) + z) (Finset.sum_congr rfl fun p _ => ?_)
  have h : 5000 * t.val + p.val < 100000 := by have := t.isLt; have := p.isLt; omega
  unfold affAt
  rw [dif_pos h]
  unfold affK
  simp only [b0 p _ h, b1 p _ h]

theorem acc1_eq : ∀ (n : ℕ) (hn : n < cfg1.N) (o : Fin 16),
    acc1 V c n hn (ix2 (0 : Fin 1) o) = ∑ t' : Fin (n + 1), ∑ p : Fin 5000, affAt V c (5000 * t'.val + p.val) o
  | 0, hn, o => by
    rw [acc1_zero]
    refine (step1 V c ⟨0, hn⟩ (k1_pay1 (F := Ideal)) o).trans ?_
    rw [pay1_apply, zero_add, Fin.sum_univ_one]
    rfl
  | n + 1, hn, o => by
    rw [acc1_succ]
    refine (step1 V c ⟨n + 1, hn⟩ (acc1 V c n (Nat.lt_of_succ_lt hn)) o).trans ?_
    rw [acc1_eq n (Nat.lt_of_succ_lt hn) o]
    exact (Fin.sum_univ_castSucc (fun t' : Fin (n + 1 + 1) => ∑ p : Fin 5000, affAt V c (5000 * t'.val + p.val) o)).symm

theorem sum_blocks (f : ℕ → EReal) :
    ∑ t : Fin 20, ∑ p : Fin 5000, f (5000 * t.val + p.val) = ∑ n : Fin 100000, f n.val := by
  rw [← Fintype.sum_prod_type (f := fun x : Fin 20 × Fin 5000 => f (5000 * x.1.val + x.2.val))]
  refine Fintype.sum_equiv (finProdFinEquiv (m := 20) (n := 5000)) _ (fun n : Fin (20 * 5000) => f n.val) fun x => ?_
  show f _ = f _
  congr 1
  rw [finProdFinEquiv_apply_val]; omega

theorem out_last (h19 : 19 < cfg1.N) :
    out1_5 V c ⟨19, h19⟩ = outK (V c main_v25) (V c main_v33) (V c main_arg7) (V c main_v34) (V c main_v35) := by
  have hs : scaledRow (acc1 V c 19 h19) = pooledK (V c main_v25) (V c main_v33) (V c main_arg7) (V c main_v34) (V c main_v35) := by
    funext o
    unfold scaledRow pooledK
    rw [acc1_eq V c 19 h19 o]
    refine congrArg (· * _) ((sum_blocks (fun n => affAt V c n o)).trans (Finset.sum_congr rfl fun n _ => ?_))
    unfold affAt; rw [dif_pos n.isLt]
  funext i
  obtain ⟨u, o, rfl⟩ : ∃ (u : Fin 1) (o : Fin 16), i = ix2 u o := ⟨i 0, i 1, eq_ix2 i⟩
  obtain rfl : u = 0 := Subsingleton.elim _ _
  unfold out1_5 outK
  refine (pay3_apply (acc1 V c 19 h19) o).trans ?_
  rw [hs]

theorem off1_5 (t : Fin cfg1.N) : (fun a => win1_5.index t a * main_v36.ty.shape.size a) = fun _ => 0 :=
  funext fun a => by rw [((kv1_idx t).2 a).2.2.2, Nat.zero_mul]

theorem kv1 : (dat1 V c).arrAt 5 cfg1.N
      = outK (V c main_v25) (V c main_v33) (V c main_arg7) (V c main_v34) (V c main_v35) := by
  have hN : cfg1.N = 20 := N_1
  have h19 : 19 < cfg1.N := by rw [hN]; decide
  refine (dat1 V c).arrAt_eq_of_cover 5 _ (fun t hf => ?_) (fun i => ⟨⟨19, h19⟩, (flush1_5 _).mpr rfl, ?_⟩)
  · obtain rfl : t = ⟨19, h19⟩ := Fin.ext (show t.val = 19 by have := (flush1_5 t).mp hf; have := t.isLt; omega)
    show (cfg1.win 5).cut (grid1.coords ⟨19, h19⟩) ((dat1 V c).after 5 ⟨19, h19⟩) = _
    rw [after1_5, out_last V c h19]
    exact (Memref.read_access_unit_zero (Elt Ideal) main_v36 (off1_5 ⟨19, h19⟩)
      (fun a => by rw [congrFun (off1_5 ⟨19, h19⟩) a]; simp) _).symm
  · show i ∈ ((View.whole main_v36).slice (win1_5.rect ⟨19, h19⟩)).set
    rw [View.set_slice_whole]
    exact View.mem_set_unit_zero (off1_5 ⟨19, h19⟩) _ i

end Cert.KernelIdeal.Hand

end
-- ==== Proof.SpecArr.lean ====
import proofs.«409165_j17514876633598_2_alg».proof.Proof.Spec
import proofs.«409165_j17514876633598_2_alg».proof.Proof.Graph

noncomputable section

namespace Cert.SpecArr

open Idealize.ShloMosaic Idealize.ShloMosaic.ValueIdx Cert.Proof

def mat2 {a b : ℕ} (x : (⟨2, ![a, b]⟩ : Shape).Idx → EReal) : Fin a → Fin b → EReal := fun n k => x (ix2 n k)

def ten3 {r a b : ℕ} (w : (⟨3, ![r, a, b]⟩ : Shape).Idx → EReal) : Fin r → Fin a → Fin b → EReal :=
  fun q f o => w (ix3 q f o)

def vec1 {a : ℕ} (b : (⟨1, ![a]⟩ : Shape).Idx → EReal) : Fin a → EReal := fun o => b (ix1 o)

def invN : EReal := ((1 / 100000 : ℝ) : EReal)

variable {a1 : IVec (⟨2, ![2, 1600000]⟩ : Shape) 32} {a2 : IVec (⟨1, ![1600000]⟩ : Shape) 32}

def specH1 (G : Graph a1 a2) (a0 : (⟨2, ![100000, 64]⟩ : Shape).Idx → EReal) (a3 : (⟨3, ![8, 64, 64]⟩ : Shape).Idx → EReal)
    (a4 : (⟨2, ![64, 64]⟩ : Shape).Idx → EReal) (a5 : (⟨1, ![64]⟩ : Shape).Idx → EReal) :
    (⟨2, ![100000, 64]⟩ : Shape).Idx → EReal :=
  fun i => Cert.Spec.relu (Cert.Spec.conv G.src G.dst G.et (ten3 a3) (mat2 a4) (vec1 a5) (mat2 a0)) (i 0) (i 1)

def specOut (G : Graph a1 a2) (a0 : (⟨2, ![100000, 64]⟩ : Shape).Idx → EReal) (a3 : (⟨3, ![8, 64, 64]⟩ : Shape).Idx → EReal)
    (a4 : (⟨2, ![64, 64]⟩ : Shape).Idx → EReal) (a5 : (⟨1, ![64]⟩ : Shape).Idx → EReal)
    (a6 : (⟨3, ![8, 64, 16]⟩ : Shape).Idx → EReal) (a7 : (⟨2, ![64, 16]⟩ : Shape).Idx → EReal)
    (a8 : (⟨1, ![16]⟩ : Shape).Idx → EReal) : (⟨2, ![1, 16]⟩ : Shape).Idx → EReal :=
  fun i => Cert.Spec.net G.src G.dst G.et (ten3 a3) (mat2 a4) (vec1 a5) (ten3 a6) (mat2 a7) (vec1 a8) invN (mat2 a0) (i 1)

theorem specOut_eq (G : Graph a1 a2) (a0 : (⟨2, ![100000, 64]⟩ : Shape).Idx → EReal) (a3 : (⟨3, ![8, 64, 64]⟩ : Shape).Idx → EReal)
    (a4 : (⟨2, ![64, 64]⟩ : Shape).Idx → EReal) (a5 : (⟨1, ![64]⟩ : Shape).Idx → EReal)
    (a6 : (⟨3, ![8, 64, 16]⟩ : Shape).Idx → EReal) (a7 : (⟨2, ![64, 16]⟩ : Shape).Idx → EReal)
    (a8 : (⟨1, ![16]⟩ : Shape).Idx → EReal) (i : (⟨2, ![1, 16]⟩ : Shape).Idx) :
    specOut G a0 a3 a4 a5 a6 a7 a8 i
      = (let g := Cert.Spec.pool invN (Cert.Spec.conv G.src G.dst G.et (ten3 a6) (mat2 a7) (vec1 a8) (mat2 (specH1 G a0 a3 a4 a5)))
         Cert.Spec.logSoftmax (Cert.Spec.rowMax g) g (i 1)) := rfl

end Cert.SpecArr

end
-- ==== Proof.KI.KernelSpec.lean ====
import proofs.«409165_j17514876633598_2_alg».proof.Proof.KI.Launch
import proofs.«409165_j17514876633598_2_alg».proof.Proof.KI.HostVals
import proofs.«409165_j17514876633598_2_alg».proof.Proof.KI.KernelVal0
import proofs.«409165_j17514876633598_2_alg».proof.Proof.KI.KernelVal1
import proofs.«409165_j17514876633598_2_alg».proof.Proof.SpecArr
import proofs.«409165_j17514876633598_2_alg».proof.Proof.Algebra

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Proof Cert.KForm

open Cert.SpecArr

-- the contraction over the 512 stacked positions is the double sum over relations and features, and a keyed, scaled sum is the neighbourhood mean
theorem affK_eq_conv {a1 : IVec (⟨2, ![2, 1600000]⟩ : Shape) 32} {a2 : IVec (⟨1, ![1600000]⟩ : Shape) 32} (G : Graph a1 a2)
    {Fo : ℕ} (z : (⟨2, ![100000, 64]⟩ : Shape).Idx → EReal) (w : (⟨3, ![8, 64, Fo]⟩ : Shape).Idx → EReal)
    (root : (⟨2, ![64, Fo]⟩ : Shape).Idx → EReal) (b : (⟨1, ![Fo]⟩ : Shape).Idx → EReal)
    (n : Fin 100000) (o : Fin Fo) :
    affK z (agg2K G z) root (stackW w) (rowOf b) n o
      = Cert.Spec.conv G.src G.dst G.et (ten3 w) (mat2 root) (vec1 b) (mat2 z) n o := by
  have hs : (∑ k : Fin 512, agg2K G z (ix2 n k) * stackW w (ix2 k o))
      = ∑ r, ∑ f, Cert.Spec.mean G.src G.dst G.et (mat2 z) n r f * ten3 w r f o := by
    rw [← Cert.Algebra.sum_stack (fun r f => Cert.Spec.mean G.src G.dst G.et (mat2 z) n r f * ten3 w r f o)]
    refine Finset.sum_congr rfl (fun k _ => ?_)
    rw [← Cert.Algebra.keyed_mean]
    rfl
  unfold affK Cert.Spec.conv
  rw [hs]
  rfl

variable (m : (ℓ : Loc nD τ sig) → Buf (Elt Ideal) ℓ) (c : Dev nD)

theorem kernel_out (G : Graph (m ((c.tc : Thread nD τ).loc main_arg1)) (m ((c.tc : Thread nD τ).loc main_arg2))) :
    kres m c = specOut G (m ((c.tc : Thread nD τ).loc main_arg0)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) := by
  have h1 : V9 m c main_v25
      = specH1 G (m ((c.tc : Thread nD τ).loc main_arg0)) (m ((c.tc : Thread nD τ).loc main_arg3))
          (m ((c.tc : Thread nD τ).loc main_arg4)) (m ((c.tc : Thread nD τ).loc main_arg5)) := by
    rw [hv_h m c, kv0 (V6 m) c, hv_x m c, hv_root1 m c, hv_agg1 m c G, hv_w1 m c, hv_b1 m c]
    exact funext fun i => congrArg (fun t => max t 0) (affK_eq_conv G _ _ _ _ (i 0) (i 1))
  rw [kres_eq m c, kv1 (V9 m) c, hv_agg2 m c G, h1, hv_root2 m c, hv_w2 m c, hv_b2 m c]
  funext i
  rw [specOut_eq]
  exact congrArg (fun g => Cert.Spec.logSoftmax (Cert.Spec.rowMax g) g (i 1))
    (funext fun o => congrArg (fun s => s * invN) (Finset.sum_congr rfl fun n _ => affK_eq_conv G _ _ _ _ n o))

end Cert.KernelIdeal.Hand

end
-- ==== Proof.RefRead.lean ====
import proofs.«409165_j17514876633598_2_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S100000x64, .f32⟩ : BufTy).Contents (Elt F)) (x1 : (⟨S2x1600000, .i32⟩ : BufTy).Contents (Elt F)) (x2 : (⟨S1600000, .i32⟩ : BufTy).Contents (Elt F))
  (x3 : (⟨S8x64x64, .f32⟩ : BufTy).Contents (Elt F)) (x4 : (⟨S64x64, .f32⟩ : BufTy).Contents (Elt F)) (x5 : (⟨S64, .f32⟩ : BufTy).Contents (Elt F))
  (x6 : (⟨S8x64x16, .f32⟩ : BufTy).Contents (Elt F)) (x7 : (⟨S64x16, .f32⟩ : BufTy).Contents (Elt F)) (x8 : (⟨S16, .f32⟩ : BufTy).Contents (Elt F))

-- The source row and the destination row of the edge array, as vectors.
def val_main_v1 : (⟨S1600000, .i32⟩ : BufTy).Contents (Elt F) :=
  shapeCast _ (extractStridedSlice S1x1600000 ![0, 0] (x1) slices_S2x1600000_S1x1600000_0_0) shapeCasts_S1x1600000_S1600000

def val_main_v3 : (⟨S1600000, .i32⟩ : BufTy).Contents (Elt F) :=
  shapeCast _ (extractStridedSlice S1x1600000 ![1, 0] (x1) slices_S2x1600000_S1x1600000_1_0) shapeCasts_S1x1600000_S1600000

-- The sources, a negative one shifted by the number of nodes, as a column of row numbers.
def val_main_v8 : (⟨S1600000, .i32⟩ : BufTy).Contents (Elt F) :=
  select (cmpi .slt (val_main_v1 (F := F) x1) (broadcastInDim S1600000 ![] bcast_S_S1600000 (constantI S_ 32 0#32)))
    (addi (val_main_v1 (F := F) x1) (broadcastInDim S1600000 ![] bcast_S_S1600000 (constantI S_ 32 100000#32)))
    (val_main_v1 (F := F) x1)

def val_main_v9 : (⟨S1600000x1, .i32⟩ : BufTy).Contents (Elt F) :=
  broadcastInDim S1600000x1 ![0] bcast_S1600000_S1600000x1_0 (val_main_v8 (F := F) x1)

def val_main_v10 : (⟨S1600000x64, .f32⟩ : BufTy).Contents (Elt F) :=
  Host.gather gather_S100000x64_S1600000x1_S1600000x64_1_0_n_n_0_1_164 (x0) (val_main_v9 (F := F) x1)

def val_main_v14 : (⟨S100000x64, .f32⟩ : BufTy).Contents (Elt F) :=
  addf (Host.dotGeneral dot_S100000x64_S64x64_S100000x64_1_0_0_1_n_n none (x0) (x4))
    (broadcastInDim S100000x64 ![0, 1] bcast_S1x64_S100000x64_0_1 (broadcastInDim S1x64 ![1] bcast_S64_S1x64_1 (x5)))

-- The destinations as a column of row numbers.
def val_main_v22 : (⟨S1600000x1, .i32⟩ : BufTy).Contents (Elt F) :=
  broadcastInDim S1600000x1 ![0] bcast_S1600000_S1600000x1_0 (val_main_v3 (F := F) x1)

-- The indicator, one or zero, of the edges whose relation word is c.
def relMask (c : BitVec 32) : (⟨S1600000, .f32⟩ : BufTy).Contents (Elt F) :=
  uitofp .f32 (cmpi .eq (x2) (broadcastInDim S1600000 ![] bcast_S_S1600000 (constantI S_ 32 c)))

-- The rows xs, one per edge, masked by relation c, summed per destination and divided by the masked count taken at least one.
def nbrMean (xs : (⟨S1600000x64, .f32⟩ : BufTy).Contents (Elt F)) (c : BitVec 32) : (⟨S100000x64, .f32⟩ : BufTy).Contents (Elt F) :=
  Host.divf
    (Host.scatterAdd scatter_S100000x64_S1600000x1_S1600000x64_1_0_0_1
      (broadcastInDim S100000x64 ![] bcast_S_S100000x64 (constant S_ .f32 0x00000000#32)) (val_main_v22 (F := F) x1)
      (mulf xs (broadcastInDim S1600000x64 ![0, 1] bcast_S1600000x1_S1600000x64_0_1
        (broadcastInDim S1600000x1 ![0] bcast_S1600000_S1600000x1_0 (relMask (F := F) x2 c)))))
    (broadcastInDim S100000x64 ![0, 1] bcast_S100000x1_S100000x64_0_1
      (broadcastInDim S100000x1 ![0] bcast_S100000_S100000x1_0
        (maximumf (broadcastInDim S100000 ![] bcast_S_S100000 (id (constant S_ .f32 0x3F800000#32)))
          (Host.scatterAdd scatter_S100000_S1600000x1_S1600000_n_0_0_1
            (broadcastInDim S100000 ![] bcast_S_S100000 (constant S_ .f32 0x00000000#32)) (val_main_v22 (F := F) x1)
            (relMask (F := F) x2 c)))))

-- The neighbourhood means of relation c times one slice of the weights.
def relTerm {C : Nat} (d : DotDims S100000x64 ⟨2, ![64, C]⟩ ⟨2, ![100000, C]⟩) (w : (⟨⟨3, ![8, 64, C]⟩, .f32⟩ : BufTy).Contents (Elt F))
    (off : Fin 3 → Nat) (hs : (⟨3, ![8, 64, C]⟩ : Shape).Slices off ⟨3, ![1, 64, C]⟩)
    (hc : (⟨3, ![1, 64, C]⟩ : Shape).ShapeCasts ⟨2, ![64, C]⟩) (xs : (⟨S1600000x64, .f32⟩ : BufTy).Contents (Elt F)) (c : BitVec 32) :
    (⟨⟨2, ![100000, C]⟩, .f32⟩ : BufTy).Contents (Elt F) :=
  Host.dotGeneral d none (nbrMean (F := F) x1 x2 xs c) (shapeCast _ (extractStridedSlice ⟨3, ![1, 64, C]⟩ off w hs) hc)

def val_main_v34 : (⟨S100000x64, .f32⟩ : BufTy).Contents (Elt F) :=
  addf (val_main_v14 (F := F) x0 x4 x5) (relTerm (F := F) x1 x2 dot_S100000x64_S64x64_S100000x64_1_0_0_1_n_n x3 ![0, 0, 0]
    slices_S8x64x64_S1x64x64_0_0_0 shapeCasts_S1x64x64_S64x64 (val_main_v10 (F := F) x0 x1) 0#32)

def val_main_v54 : (⟨S100000x64, .f32⟩ : BufTy).Contents (Elt F) :=
  addf (val_main_v34 (F := F) x0 x1 x2 x3 x4 x5) (relTerm (F := F) x1 x2 dot_S100000x64_S64x64_S100000x64_1_0_0_1_n_n x3 ![1, 0, 0]
    slices_S8x64x64_S1x64x64_1_0_0 shapeCasts_S1x64x64_S64x64 (val_main_v10 (F := F) x0 x1) 1#32)

def val_main_v74 : (⟨S100000x64, .f32⟩ : BufTy).Contents (Elt F) :=
  addf (val_main_v54 (F := F) x0 x1 x2 x3 x4 x5) (relTerm (F := F) x1 x2 dot_S100000x64_S64x64_S100000x64_1_0_0_1_n_n x3 ![2, 0, 0]
    slices_S8x64x64_S1x64x64_2_0_0 shapeCasts_S1x64x64_S64x64 (val_main_v10 (F := F) x0 x1) 2#32)

def val_main_v94 : (⟨S100000x64, .f32⟩ : BufTy).Contents (Elt F) :=
  addf (val_main_v74 (F := F) x0 x1 x2 x3 x4 x5) (relTerm (F := F) x1 x2 dot_S100000x64_S64x64_S100000x64_1_0_0_1_n_n x3 ![3, 0, 0]
    slices_S8x64x64_S1x64x64_3_0_0 shapeCasts_S1x64x64_S64x64 (val_main_v10 (F := F) x0 x1) 3#32)

def val_main_v114 : (⟨S100000x64, .f32⟩ : BufTy).Contents (Elt F) :=
  addf (val_main_v94 (F := F) x0 x1 x2 x3 x4 x5) (relTerm (F := F) x1 x2 dot_S100000x64_S64x64_S100000x64_1_0_0_1_n_n x3 ![4, 0, 0]
    slices_S8x64x64_S1x64x64_4_0_0 shapeCasts_S1x64x64_S64x64 (val_main_v10 (F := F) x0 x1) 4#32)

def val_main_v134 : (⟨S100000x64, .f32⟩ : BufTy).Contents (Elt F) :=
  addf (val_main_v114 (F := F) x0 x1 x2 x3 x4 x5) (relTerm (F := F) x1 x2 dot_S100000x64_S64x64_S100000x64_1_0_0_1_n_n x3 ![5, 0, 0]
    slices_S8x64x64_S1x64x64_5_0_0 shapeCasts_S1x64x64_S64x64 (val_main_v10 (F := F) x0 x1) 5#32)

def val_main_v154 : (⟨S100000x64, .f32⟩ : BufTy).Contents (Elt F) :=
  addf (val_main_v134 (F := F) x0 x1 x2 x3 x4 x5) (relTerm (F := F) x1 x2 dot_S100000x64_S64x64_S100000x64_1_0_0_1_n_n x3 ![6, 0, 0]
    slices_S8x64x64_S1x64x64_6_0_0 shapeCasts_S1x64x64_S64x64 (val_main_v10 (F := F) x0 x1) 6#32)

def val_main_v174 : (⟨S100000x64, .f32⟩ : BufTy).Contents (Elt F) :=
  addf (val_main_v154 (F := F) x0 x1 x2 x3 x4 x5) (relTerm (F := F) x1 x2 dot_S100000x64_S64x64_S100000x64_1_0_0_1_n_n x3 ![7, 0, 0]
    slices_S8x64x64_S1x64x64_7_0_0 shapeCasts_S1x64x64_S64x64 (val_main_v10 (F := F) x0 x1) 7#32)

def val_main_v175 : (⟨S100000x64, .f32⟩ : BufTy).Contents (Elt F) :=
  maximumf (val_main_v174 (F := F) x0 x1 x2 x3 x4 x5)
    (broadcastInDim S100000x64 ![] bcast_S_S100000x64 (constant S_ .f32 0x00000000#32))

def val_main_v182 : (⟨S1600000x64, .f32⟩ : BufTy).Contents (Elt F) :=
  Host.gather gather_S100000x64_S1600000x1_S1600000x64_1_0_n_n_0_1_164 (val_main_v175 (F := F) x0 x1 x2 x3 x4 x5) (val_main_v9 (F := F) x1)

def val_main_v186 : (⟨S100000x16, .f32⟩ : BufTy).Contents (Elt F) :=
  addf (Host.dotGeneral dot_S100000x64_S64x16_S100000x16_1_0_0_1_n_n none (val_main_v175 (F := F) x0 x1 x2 x3 x4 x5) (x7))
    (broadcastInDim S100000x16 ![0, 1] bcast_S1x16_S100000x16_0_1 (broadcastInDim S1x16 ![1] bcast_S16_S1x16_1 (x8)))

def val_main_v206 : (⟨S100000x16, .f32⟩ : BufTy).Contents (Elt F) :=
  addf (val_main_v186 (F := F) x0 x1 x2 x3 x4 x5 x7 x8) (relTerm (F := F) x1 x2 dot_S100000x64_S64x16_S100000x16_1_0_0_1_n_n x6 ![0, 0, 0]
    slices_S8x64x16_S1x64x16_0_0_0 shapeCasts_S1x64x16_S64x16 (val_main_v182 (F := F) x0 x1 x2 x3 x4 x5) 0#32)

def val_main_v226 : (⟨S100000x16, .f32⟩ : BufTy).Contents (Elt F) :=
  addf (val_main_v206 (F := F) x0 x1 x2 x3 x4 x5 x6 x7 x8) (relTerm (F := F) x1 x2 dot_S100000x64_S64x16_S100000x16_1_0_0_1_n_n x6 ![1, 0, 0]
    slices_S8x64x16_S1x64x16_1_0_0 shapeCasts_S1x64x16_S64x16 (val_main_v182 (F := F) x0 x1 x2 x3 x4 x5) 1#32)

def val_main_v246 : (⟨S100000x16, .f32⟩ : BufTy).Contents (Elt F) :=
  addf (val_main_v226 (F := F) x0 x1 x2 x3 x4 x5 x6 x7 x8) (relTerm (F := F) x1 x2 dot_S100000x64_S64x16_S100000x16_1_0_0_1_n_n x6 ![2, 0, 0]
    slices_S8x64x16_S1x64x16_2_0_0 shapeCasts_S1x64x16_S64x16 (val_main_v182 (F := F) x0 x1 x2 x3 x4 x5) 2#32)

def val_main_v266 : (⟨S100000x16, .f32⟩ : BufTy).Contents (Elt F) :=
  addf (val_main_v246 (F := F) x0 x1 x2 x3 x4 x5 x6 x7 x8) (relTerm (F := F) x1 x2 dot_S100000x64_S64x16_S100000x16_1_0_0_1_n_n x6 ![3, 0, 0]
    slices_S8x64x16_S1x64x16_3_0_0 shapeCasts_S1x64x16_S64x16 (val_main_v182 (F := F) x0 x1 x2 x3 x4 x5) 3#32)

def val_main_v286 : (⟨S100000x16, .f32⟩ : BufTy).Contents (Elt F) :=
  addf (val_main_v266 (F := F) x0 x1 x2 x3 x4 x5 x6 x7 x8) (relTerm (F := F) x1 x2 dot_S100000x64_S64x16_S100000x16_1_0_0_1_n_n x6 ![4, 0, 0]
    slices_S8x64x16_S1x64x16_4_0_0 shapeCasts_S1x64x16_S64x16 (val_main_v182 (F := F) x0 x1 x2 x3 x4 x5) 4#32)

def val_main_v306 : (⟨S100000x16, .f32⟩ : BufTy).Contents (Elt F) :=
  addf (val_main_v286 (F := F) x0 x1 x2 x3 x4 x5 x6 x7 x8) (relTerm (F := F) x1 x2 dot_S100000x64_S64x16_S100000x16_1_0_0_1_n_n x6 ![5, 0, 0]
    slices_S8x64x16_S1x64x16_5_0_0 shapeCasts_S1x64x16_S64x16 (val_main_v182 (F := F) x0 x1 x2 x3 x4 x5) 5#32)

def val_main_v326 : (⟨S100000x16, .f32⟩ : BufTy).Contents (Elt F) :=
  addf (val_main_v306 (F := F) x0 x1 x2 x3 x4 x5 x6 x7 x8) (relTerm (F := F) x1 x2 dot_S100000x64_S64x16_S100000x16_1_0_0_1_n_n x6 ![6, 0, 0]
    slices_S8x64x16_S1x64x16_6_0_0 shapeCasts_S1x64x16_S64x16 (val_main_v182 (F := F) x0 x1 x2 x3 x4 x5) 6#32)

def val_main_v346 : (⟨S100000x16, .f32⟩ : BufTy).Contents (Elt F) :=
  addf (val_main_v326 (F := F) x0 x1 x2 x3 x4 x5 x6 x7 x8) (relTerm (F := F) x1 x2 dot_S100000x64_S64x16_S100000x16_1_0_0_1_n_n x6 ![7, 0, 0]
    slices_S8x64x16_S1x64x16_7_0_0 shapeCasts_S1x64x16_S64x16 (val_main_v182 (F := F) x0 x1 x2 x3 x4 x5) 7#32)

-- The mean over the nodes.
def val_main_v350 : (⟨S1x16, .f32⟩ : BufTy).Contents (Elt F) :=
  Host.divf (broadcastInDim S1x16 ![1] bcast_S16_S1x16_1
      (Host.reduceAdd (val_main_v346 (F := F) x0 x1 x2 x3 x4 x5 x6 x7 x8) (constant S_ .f32 0x00000000#32) reducesTo_S100000x16_S16_d0 h_S_))
    (broadcastInDim S1x16 ![] bcast_S_S1x16 (constant S_ .f32 0x47C35000#32))

-- A row minus its maximum; the further maximum with minus infinity changes nothing.
def shifted (y : (⟨S1x16, .f32⟩ : BufTy).Contents (Elt F)) : (⟨S1x16, .f32⟩ : BufTy).Contents (Elt F) :=
  subf y (broadcastInDim S1x16 ![0, 1] bcast_S1x1_S1x16_0_1 (broadcastInDim S1x1 ![0] bcast_S1_S1x1_0
    (maximumf (broadcastInDim S1 ![] bcast_S_S1 (constant S_ .f32 0xFF800000#32))
      (Host.reduce FloatOps.maximumf y (constant S_ .f32 0xFF800000#32) reducesTo_S1x16_S1_d1 h_S_))))

def val_main_v351 : (⟨S1x16, .f32⟩ : BufTy).Contents (Elt F) :=
  subf (shifted (val_main_v350 (F := F) x0 x1 x2 x3 x4 x5 x6 x7 x8))
    (broadcastInDim S1x16 ![0, 1] bcast_S1x1_S1x16_0_1 (Host.log (broadcastInDim S1x1 ![0] bcast_S1_S1x1_0
      (Host.reduceAdd (Host.exp (shifted (val_main_v350 (F := F) x0 x1 x2 x3 x4 x5 x6 x7 x8))) (constant S_ .f32 0x00000000#32)
        reducesTo_S1x16_S1_d1 h_S_))))

end Cert.ReferenceIdeal.ReadP

end
-- ==== Proof.RefOps.lean ====
import proofs.«409165_j17514876633598_2_alg».proof.ReferenceIdeal
import proofs.«409165_j17514876633598_2_alg».proof.Proof.Gen.ReferenceIdeal
import Idealize.ShloMosaic.Lib.StableHlo.Run
import Idealize.ShloMosaic.Lib.Pipeline.Frame
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- A reference not among the references a line's operations write, one each, keeps its contents.
theorem keep_of {os : List (HloOp τ sig (Elt F))} {wl : List (Ref sig .tc)}
    (h : os.map (·.writes) = wl.map fun y => ({Proc.devRef .tc y} : Finset (DevRef τ sig)))
    (W : Valuation τ sig (Elt F)) {r : Ref sig .tc} (hr : r ∉ wl) :
    after os W (Proc.devRef .tc r) = W (Proc.devRef .tc r) :=
  after_of_writes_sub _ W (List.forall_iff_forall_mem.mpr fun op hop => by
    obtain ⟨y, hy, e⟩ := List.mem_map.mp (h ▸ List.mem_map_of_mem hop)
    exact e ▸ Finset.singleton_subset_iff.mpr (List.mem_toFinset.mpr (List.mem_map_of_mem hy))) hr

abbrev ops_part1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    binary main_arg0 main_arg4 main_v11 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg5 main_v12 (broadcastInDim S1x64 ![1] bcast_S64_S1x64_1 : (⟨S64, .f32⟩ : BufTy).Contents (Elt F) → (⟨S1x64, .f32⟩ : BufTy).Contents (Elt F)),
    unary main_v12 main_v13 (broadcastInDim S100000x64 ![0, 1] bcast_S1x64_S100000x64_0_1 : (⟨S1x64, .f32⟩ : BufTy).Contents (Elt F) → (⟨S100000x64, .f32⟩ : BufTy).Contents (Elt F)),
    binary main_v11 main_v13 main_v14 (addf : (⟨S100000x64, .f32⟩ : BufTy).Contents (Elt F) → (⟨S100000x64, .f32⟩ : BufTy).Contents (Elt F) → (⟨S100000x64, .f32⟩ : BufTy).Contents (Elt F)) ]

noncomputable def wl_part1 : List (Ref sig .tc) :=
  [main_v0, main_v1, main_v2, main_v3, main_c, main_v4, main_v5, main_c_0, main_v6, main_v7, main_v8, main_v9, main_v10, main_v11, main_v12, main_v13, main_v14]

theorem keep_part1 (W : Valuation τ sig (Elt F)) {r : Ref sig .tc} (hr : r ∉ wl_part1) :
    after (ops_part1 : List (HloOp τ sig (Elt F))) W (Proc.devRef .tc r) = W (Proc.devRef .tc r) :=
  keep_of rfl W hr

abbrev ops_part2 : List (HloOp τ sig (Elt F)) :=
  [ nullary main_c_1 (constantI S_ 32 0#32),
    unary main_c_1 main_v15 (broadcastInDim S1600000 ![] bcast_S_S1600000 : (⟨S_, .i32⟩ : BufTy).Contents (Elt F) → (⟨S1600000, .i32⟩ : BufTy).Contents (Elt F)),
    binary main_arg2 main_v15 main_v16 (cmpi .eq : (⟨S1600000, .i32⟩ : BufTy).Contents (Elt F) → (⟨S1600000, .i32⟩ : BufTy).Contents (Elt F) → (⟨S1600000, .i1⟩ : BufTy).Contents (Elt F)),
    unary main_v16 main_v17 (uitofp .f32 : (⟨S1600000, .i1⟩ : BufTy).Contents (Elt F) → (⟨S1600000, .f32⟩ : BufTy).Contents (Elt F)),
    unary main_v17 main_v18 (broadcastInDim S1600000x1 ![0] bcast_S1600000_S1600000x1_0 : (⟨S1600000, .f32⟩ : BufTy).Contents (Elt F) → (⟨S1600000x1, .f32⟩ : BufTy).Contents (Elt F)),
    unary main_v18 main_v19 (broadcastInDim S1600000x64 ![0, 1] bcast_S1600000x1_S1600000x64_0_1 : (⟨S1600000x1, .f32⟩ : BufTy).Contents (Elt F) → (⟨S1600000x64, .f32⟩ : BufTy).Contents (Elt F)),
    binary main_v10 main_v19 main_v20 (mulf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v21 (broadcastInDim S100000x64 ![] bcast_S_S100000x64 : (⟨S_, .f32⟩ : BufTy).Contents (Elt F) → (⟨S100000x64, .f32⟩ : BufTy).Contents (Elt F)),
    unary main_v3 main_v22 (broadcastInDim S1600000x1 ![0] bcast_S1600000_S1600000x1_0 : (⟨S1600000, .i32⟩ : BufTy).Contents (Elt F) → (⟨S1600000x1, .i32⟩ : BufTy).Contents (Elt F)),
    ternary main_v21 main_v22 main_v20 main_v23 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_2 (constant S_ .f32 0x00000000#32),
    unary main_cst_2 main_v24 (broadcastInDim S100000 ![] bcast_S_S100000 : (⟨S_, .f32⟩ : BufTy).Contents (Elt F) → (⟨S100000, .f32⟩ : BufTy).Contents (Elt F)),
    unary main_v3 main_v25 (broadcastInDim S1600000x1 ![0] bcast_S1600000_S1600000x1_0 : (⟨S1600000, .i32⟩ : BufTy).Contents (Elt F) → (⟨S1600000x1, .i32⟩ : BufTy).Contents (Elt F)),
    ternary main_v24 main_v25 main_v17 main_v26 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.binary (TRef.of (T := ⟨S100000, .f32⟩) main_call0_v1) (TRef.of (T := ⟨S100000, .f32⟩) main_v26) (TRef.of (T := ⟨S100000, .f32⟩) main_v27) maximumf,
    unary main_v27 main_v28 (broadcastInDim S100000x1 ![0] bcast_S100000_S100000x1_0 : (⟨S100000, .f32⟩ : BufTy).Contents (Elt F) → (⟨S100000x1, .f32⟩ : BufTy).Contents (Elt F)),
    unary main_v28 main_v29 (broadcastInDim S100000x64 ![0, 1] bcast_S100000x1_S100000x64_0_1 : (⟨S100000x1, .f32⟩ : BufTy).Contents (Elt F) → (⟨S100000x64, .f32⟩ : BufTy).Contents (Elt F)),
    binary main_v23 main_v29 main_v30 (Host.divf : (⟨S100000x64, .f32⟩ : BufTy).Contents (Elt F) → (⟨S100000x64, .f32⟩ : BufTy).Contents (Elt F) → (⟨S100000x64, .f32⟩ : BufTy).Contents (Elt F)),
    unary main_arg3 main_v31 ((extractStridedSlice S1x64x64 ![0, 0, 0] · slices_S8x64x64_S1x64x64_0_0_0) : (⟨S8x64x64, .f32⟩ : BufTy).Contents (Elt F) → (⟨S1x64x64, .f32⟩ : BufTy).Contents (Elt F)),
    reshape main_v31 main_v32 rfl shapeCasts_S1x64x64_S64x64,
    binary main_v30 main_v32 main_v33 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v14 main_v33 main_v34 (addf : (⟨S100000x64, .f32⟩ : BufTy).Contents (Elt F) → (⟨S100000x64, .f32⟩ : BufTy).Contents (Elt F) → (⟨S100000x64, .f32⟩ : BufTy).Contents (Elt F)) ]

noncomputable def wl_part2 : List (Ref sig .tc) :=
  [main_c_1, main_v15, main_v16, main_v17, main_v18, main_v19, main_v20, main_cst, main_v21, main_v22, main_v23, main_cst_2, main_v24, main_v25, main_v26, main_cst_3, main_call0_v0, main_call0_v1, main_v27, main_v28, main_v29, main_v30, main_v31, main_v32, main_v33, main_v34]

theorem keep_part2 (W : Valuation τ sig (Elt F)) {r : Ref sig .tc} (hr : r ∉ wl_part2) :
    after (ops_part2 : List (HloOp τ sig (Elt F))) W (Proc.devRef .tc r) = W (Proc.devRef .tc r) :=
  keep_of rfl W hr

abbrev ops_part3 : List (HloOp τ sig (Elt F)) :=
  [ nullary main_c_4 (constantI S_ 32 1#32),
    unary main_c_4 main_v35 (broadcastInDim S1600000 ![] bcast_S_S1600000 : (⟨S_, .i32⟩ : BufTy).Contents (Elt F) → (⟨S1600000, .i32⟩ : BufTy).Contents (Elt F)),
    binary main_arg2 main_v35 main_v36 (cmpi .eq : (⟨S1600000, .i32⟩ : BufTy).Contents (Elt F) → (⟨S1600000, .i32⟩ : BufTy).Contents (Elt F) → (⟨S1600000, .i1⟩ : BufTy).Contents (Elt F)),
    unary main_v36 main_v37 (uitofp .f32 : (⟨S1600000, .i1⟩ : BufTy).Contents (Elt F) → (⟨S1600000, .f32⟩ : BufTy).Contents (Elt F)),
    unary main_v37 main_v38 (broadcastInDim S1600000x1 ![0] bcast_S1600000_S1600000x1_0 : (⟨S1600000, .f32⟩ : BufTy).Contents (Elt F) → (⟨S1600000x1, .f32⟩ : BufTy).Contents (Elt F)),
    unary main_v38 main_v39 (broadcastInDim S1600000x64 ![0, 1] bcast_S1600000x1_S1600000x64_0_1 : (⟨S1600000x1, .f32⟩ : BufTy).Contents (Elt F) → (⟨S1600000x64, .f32⟩ : BufTy).Contents (Elt F)),
    binary main_v10 main_v39 main_v40 (mulf : (⟨S1600000x64, .f32⟩ : BufTy).Contents (Elt F) → (⟨S1600000x64, .f32⟩ : BufTy).Contents (Elt F) → (⟨S1600000x64, .f32⟩ : BufTy).Contents (Elt F)),
    nullary main_cst_5 (constant S_ .f32 0x00000000#32),
    unary main_cst_5 main_v41 (broadcastInDim S100000x64 ![] bcast_S_S100000x64 : (⟨S_, .f32⟩ : BufTy).Contents (Elt F) → (⟨S100000x64, .f32⟩ : BufTy).Contents (Elt F)),
    unary main_v3 main_v42 (broadcastInDim S1600000x1 ![0] bcast_S1600000_S1600000x1_0 : (⟨S1600000, .i32⟩ : BufTy).Contents (Elt F) → (⟨S1600000x1, .i32⟩ : BufTy).Contents (Elt F)),
    ternary main_v41 main_v42 main_v40 main_v43 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_6 (constant S_ .f32 0x00000000#32),
    unary main_cst_6 main_v44 (broadcastInDim S100000 ![] bcast_S_S100000 : (⟨S_, .f32⟩ : BufTy).Contents (Elt F) → (⟨S100000, .f32⟩ : BufTy).Contents (Elt F)),
    unary main_v3 main_v45 (broadcastInDim S1600000x1 ![0] bcast_S1600000_S1600000x1_0 : (⟨S1600000, .i32⟩ : BufTy).Contents (Elt F) → (⟨S1600000x1, .i32⟩ : BufTy).Contents (Elt F)),
    ternary main_v44 main_v45 main_v37 main_v46 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_7 (constant S_ .f32 0x3F800000#32),
    TRef.unary (TRef.of (T := ⟨S_, .f32⟩) main_cst_7) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_v46) (TRef.of (T := ⟨S100000, .f32⟩) main_v47) maximumf,
    unary main_v47 main_v48 (broadcastInDim S100000x1 ![0] bcast_S100000_S100000x1_0 : (⟨S100000, .f32⟩ : BufTy).Contents (Elt F) → (⟨S100000x1, .f32⟩ : BufTy).Contents (Elt F)),
    unary main_v48 main_v49 (broadcastInDim S100000x64 ![0, 1] bcast_S100000x1_S100000x64_0_1 : (⟨S100000x1, .f32⟩ : BufTy).Contents (Elt F) → (⟨S100000x64, .f32⟩ : BufTy).Contents (Elt F)),
    binary main_v43 main_v49 main_v50 (Host.divf : (⟨S100000x64, .f32⟩ : BufTy).Contents (Elt F) → (⟨S100000x64, .f32⟩ : BufTy).Contents (Elt F) → (⟨S100000x64, .f32⟩ : BufTy).Contents (Elt F)),
    unary main_arg3 main_v51 ((extractStridedSlice S1x64x64 ![1, 0, 0] · slices_S8x64x64_S1x64x64_1_0_0) : (⟨S8x64x64, .f32⟩ : BufTy).Contents (Elt F) → (⟨S1x64x64, .f32⟩ : BufTy).Contents (Elt F)),
    reshape main_v51 main_v52 rfl shapeCasts_S1x64x64_S64x64,
    binary main_v50 main_v52 main_v53 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v34 main_v53 main_v54 (addf : (⟨S100000x64, .f32⟩ : BufTy).Contents (Elt F) → (⟨S100000x64, .f32⟩ : BufTy).Contents (Elt F) → (⟨S100000x64, .f32⟩ : BufTy).Contents (Elt F)) ]

noncomputable def wl_part3 : List (Ref sig .tc) :=
  [main_c_4, main_v35, main_v36, main_v37, main_v38, main_v39, main_v40, main_cst_5, main_v41, main_v42, main_v43, main_cst_6, main_v44, main_v45, main_v46, main_cst_7, main_call1_v0, main_call1_v1, main_v47, main_v48, main_v49, main_v50, main_v51, main_v52, main_v53, main_v54]

theorem keep_part3 (W : Valuation τ sig (Elt F)) {r : Ref sig .tc} (hr : r ∉ wl_part3) :
    after (ops_part3 : List (HloOp τ sig (Elt F))) W (Proc.devRef .tc r) = W (Proc.devRef .tc r) :=
  keep_of rfl W hr

abbrev ops_part4 : List (HloOp τ sig (Elt F)) :=
  [ nullary main_c_8 (constantI S_ 32 2#32),
    unary main_c_8 main_v55 (broadcastInDim S1600000 ![] bcast_S_S1600000 : (⟨S_, .i32⟩ : BufTy).Contents (Elt F) → (⟨S1600000, .i32⟩ : BufTy).Contents (Elt F)),
    binary main_arg2 main_v55 main_v56 (cmpi .eq : (⟨S1600000, .i32⟩ : BufTy).Contents (Elt F) → (⟨S1600000, .i32⟩ : BufTy).Contents (Elt F) → (⟨S1600000, .i1⟩ : BufTy).Contents (Elt F)),
    unary main_v56 main_v57 (uitofp .f32 : (⟨S1600000, .i1⟩ : BufTy).Contents (Elt F) → (⟨S1600000, .f32⟩ : BufTy).Contents (Elt F)),
    unary main_v57 main_v58 (broadcastInDim S1600000x1 ![0] bcast_S1600000_S1600000x1_0 : (⟨S1600000, .f32⟩ : BufTy).Contents (Elt F) → (⟨S1600000x1, .f32⟩ : BufTy).Contents (Elt F)),
    unary main_v58 main_v59 (broadcastInDim S1600000x64 ![0, 1] bcast_S1600000x1_S1600000x64_0_1 : (⟨S1600000x1, .f32⟩ : BufTy).Contents (Elt F) → (⟨S1600000x64, .f32⟩ : BufTy).Contents (Elt F)),
    binary main_v10 main_v59 main_v60 (mulf : (⟨S1600000x64, .f32⟩ : BufTy).Contents (Elt F) → (⟨S1600000x64, .f32⟩ : BufTy).Contents (Elt F) → (⟨S1600000x64, .f32⟩ : BufTy).Contents (Elt F)),
    nullary main_cst_9 (constant S_ .f32 0x00000000#32),
    unary main_cst_9 main_v61 (broadcastInDim S100000x64 ![] bcast_S_S100000x64 : (⟨S_, .f32⟩ : BufTy).Contents (Elt F) → (⟨S100000x64, .f32⟩ : BufTy).Contents (Elt F)),
    unary main_v3 main_v62 (broadcastInDim S1600000x1 ![0] bcast_S1600000_S1600000x1_0 : (⟨S1600000, .i32⟩ : BufTy).Contents (Elt F) → (⟨S1600000x1, .i32⟩ : BufTy).Contents (Elt F)),
    ternary main_v61 main_v62 main_v60 main_v63 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_10 (constant S_ .f32 0x00000000#32),
    unary main_cst_10 main_v64 (broadcastInDim S100000 ![] bcast_S_S100000 : (⟨S_, .f32⟩ : BufTy).Contents (Elt F) → (⟨S100000, .f32⟩ : BufTy).Contents (Elt F)),
    unary main_v3 main_v65 (broadcastInDim S1600000x1 ![0] bcast_S1600000_S1600000x1_0 : (⟨S1600000, .i32⟩ : BufTy).Contents (Elt F) → (⟨S1600000x1, .i32⟩ : BufTy).Contents (Elt F)),
    ternary main_v64 main_v65 main_v57 main_v66 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_11 (constant S_ .f32 0x3F800000#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_v66) (TRef.of (T := ⟨S100000, .f32⟩) main_v67) maximumf,
    unary main_v67 main_v68 (broadcastInDim S100000x1 ![0] bcast_S100000_S100000x1_0 : (⟨S100000, .f32⟩ : BufTy).Contents (Elt F) → (⟨S100000x1, .f32⟩ : BufTy).Contents (Elt F)),
    unary main_v68 main_v69 (broadcastInDim S100000x64 ![0, 1] bcast_S100000x1_S100000x64_0_1 : (⟨S100000x1, .f32⟩ : BufTy).Contents (Elt F) → (⟨S100000x64, .f32⟩ : BufTy).Contents (Elt F)),
    binary main_v63 main_v69 main_v70 (Host.divf : (⟨S100000x64, .f32⟩ : BufTy).Contents (Elt F) → (⟨S100000x64, .f32⟩ : BufTy).Contents (Elt F) → (⟨S100000x64, .f32⟩ : BufTy).Contents (Elt F)),
    unary main_arg3 main_v71 ((extractStridedSlice S1x64x64 ![2, 0, 0] · slices_S8x64x64_S1x64x64_2_0_0) : (⟨S8x64x64, .f32⟩ : BufTy).Contents (Elt F) → (⟨S1x64x64, .f32⟩ : BufTy).Contents (Elt F)),
    reshape main_v71 main_v72 rfl shapeCasts_S1x64x64_S64x64,
    binary main_v70 main_v72 main_v73 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v54 main_v73 main_v74 (addf : (⟨S100000x64, .f32⟩ : BufTy).Contents (Elt F) → (⟨S100000x64, .f32⟩ : BufTy).Contents (Elt F) → (⟨S100000x64, .f32⟩ : BufTy).Contents (Elt F)) ]

noncomputable def wl_part4 : List (Ref sig .tc) :=
  [main_c_8, main_v55, main_v56, main_v57, main_v58, main_v59, main_v60, main_cst_9, main_v61, main_v62, main_v63, main_cst_10, main_v64, main_v65, main_v66, main_cst_11, main_call2_v0, main_call2_v1, main_v67, main_v68, main_v69, main_v70, main_v71, main_v72, main_v73, main_v74]

theorem keep_part4 (W : Valuation τ sig (Elt F)) {r : Ref sig .tc} (hr : r ∉ wl_part4) :
    after (ops_part4 : List (HloOp τ sig (Elt F))) W (Proc.devRef .tc r) = W (Proc.devRef .tc r) :=
  keep_of rfl W hr

abbrev ops_part5 : List (HloOp τ sig (Elt F)) :=
  [ nullary main_c_12 (constantI S_ 32 3#32),
    unary main_c_12 main_v75 (broadcastInDim S1600000 ![] bcast_S_S1600000 : (⟨S_, .i32⟩ : BufTy).Contents (Elt F) → (⟨S1600000, .i32⟩ : BufTy).Contents (Elt F)),
    binary main_arg2 main_v75 main_v76 (cmpi .eq : (⟨S1600000, .i32⟩ : BufTy).Contents (Elt F) → (⟨S1600000, .i32⟩ : BufTy).Contents (Elt F) → (⟨S1600000, .i1⟩ : BufTy).Contents (Elt F)),
    unary main_v76 main_v77 (uitofp .f32 : (⟨S1600000, .i1⟩ : BufTy).Contents (Elt F) → (⟨S1600000, .f32⟩ : BufTy).Contents (Elt F)),
    unary main_v77 main_v78 (broadcastInDim S1600000x1 ![0] bcast_S1600000_S1600000x1_0 : (⟨S1600000, .f32⟩ : BufTy).Contents (Elt F) → (⟨S1600000x1, .f32⟩ : BufTy).Contents (Elt F)),
    unary main_v78 main_v79 (broadcastInDim S1600000x64 ![0, 1] bcast_S1600000x1_S1600000x64_0_1 : (⟨S1600000x1, .f32⟩ : BufTy).Contents (Elt F) → (⟨S1600000x64, .f32⟩ : BufTy).Contents (Elt F)),
    binary main_v10 main_v79 main_v80 (mulf : (⟨S1600000x64, .f32⟩ : BufTy).Contents (Elt F) → (⟨S1600000x64, .f32⟩ : BufTy).Contents (Elt F) → (⟨S1600000x64, .f32⟩ : BufTy).Contents (Elt F)),
    nullary main_cst_13 (constant S_ .f32 0x00000000#32),
    unary main_cst_13 main_v81 (broadcastInDim S100000x64 ![] bcast_S_S100000x64 : (⟨S_, .f32⟩ : BufTy).Contents (Elt F) → (⟨S100000x64, .f32⟩ : BufTy).Contents (Elt F)),
    unary main_v3 main_v82 (broadcastInDim S1600000x1 ![0] bcast_S1600000_S1600000x1_0 : (⟨S1600000, .i32⟩ : BufTy).Contents (Elt F) → (⟨S1600000x1, .i32⟩ : BufTy).Contents (Elt F)),
    ternary main_v81 main_v82 main_v80 main_v83 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_14 (constant S_ .f32 0x00000000#32),
    unary main_cst_14 main_v84 (broadcastInDim S100000 ![] bcast_S_S100000 : (⟨S_, .f32⟩ : BufTy).Contents (Elt F) → (⟨S100000, .f32⟩ : BufTy).Contents (Elt F)),
    unary main_v3 main_v85 (broadcastInDim S1600000x1 ![0] bcast_S1600000_S1600000x1_0 : (⟨S1600000, .i32⟩ : BufTy).Contents (Elt F) → (⟨S1600000x1, .i32⟩ : BufTy).Contents (Elt F)),
    ternary main_v84 main_v85 main_v77 main_v86 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_15 (constant S_ .f32 0x3F800000#32),
    TRef.unary (TRef.of (T := ⟨S_, .f32⟩) main_cst_15) (TRef.of (T := ⟨S_, .f32⟩) main_call3_v0) id,
    TRef.unary (TRef.of (T := ⟨S_, .f32⟩) main_call3_v0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_v86) (TRef.of (T := ⟨S100000, .f32⟩) main_v87) maximumf,
    unary main_v87 main_v88 (broadcastInDim S100000x1 ![0] bcast_S100000_S100000x1_0 : (⟨S100000, .f32⟩ : BufTy).Contents (Elt F) → (⟨S100000x1, .f32⟩ : BufTy).Contents (Elt F)),
    unary main_v88 main_v89 (broadcastInDim S100000x64 ![0, 1] bcast_S100000x1_S100000x64_0_1 : (⟨S100000x1, .f32⟩ : BufTy).Contents (Elt F) → (⟨S100000x64, .f32⟩ : BufTy).Contents (Elt F)),
    binary main_v83 main_v89 main_v90 (Host.divf : (⟨S100000x64, .f32⟩ : BufTy).Contents (Elt F) → (⟨S100000x64, .f32⟩ : BufTy).Contents (Elt F) → (⟨S100000x64, .f32⟩ : BufTy).Contents (Elt F)),
    unary main_arg3 main_v91 ((extractStridedSlice S1x64x64 ![3, 0, 0] · slices_S8x64x64_S1x64x64_3_0_0) : (⟨S8x64x64, .f32⟩ : BufTy).Contents (Elt F) → (⟨S1x64x64, .f32⟩ : BufTy).Contents (Elt F)),
    reshape main_v91 main_v92 rfl shapeCasts_S1x64x64_S64x64,
    binary main_v90 main_v92 main_v93 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v74 main_v93 main_v94 (addf : (⟨S100000x64, .f32⟩ : BufTy).Contents (Elt F) → (⟨S100000x64, .f32⟩ : BufTy).Contents (Elt F) → (⟨S100000x64, .f32⟩ : BufTy).Contents (Elt F)) ]

noncomputable def wl_part5 : List (Ref sig .tc) :=
  [main_c_12, main_v75, main_v76, main_v77, main_v78, main_v79, main_v80, main_cst_13, main_v81, main_v82, main_v83, main_cst_14, main_v84, main_v85, main_v86, main_cst_15, main_call3_v0, main_call3_v1, main_v87, main_v88, main_v89, main_v90, main_v91, main_v92, main_v93, main_v94]

theorem keep_part5 (W : Valuation τ sig (Elt F)) {r : Ref sig .tc} (hr : r ∉ wl_part5) :
    after (ops_part5 : List (HloOp τ sig (Elt F))) W (Proc.devRef .tc r) = W (Proc.devRef .tc r) :=
  keep_of rfl W hr

abbrev ops_part6 : List (HloOp τ sig (Elt F)) :=
  [ nullary main_c_16 (constantI S_ 32 4#32),
    unary main_c_16 main_v95 (broadcastInDim S1600000 ![] bcast_S_S1600000 : (⟨S_, .i32⟩ : BufTy).Contents (Elt F) → (⟨S1600000, .i32⟩ : BufTy).Contents (Elt F)),
    binary main_arg2 main_v95 main_v96 (cmpi .eq : (⟨S1600000, .i32⟩ : BufTy).Contents (Elt F) → (⟨S1600000, .i32⟩ : BufTy).Contents (Elt F) → (⟨S1600000, .i1⟩ : BufTy).Contents (Elt F)),
    unary main_v96 main_v97 (uitofp .f32 : (⟨S1600000, .i1⟩ : BufTy).Contents (Elt F) → (⟨S1600000, .f32⟩ : BufTy).Contents (Elt F)),
    unary main_v97 main_v98 (broadcastInDim S1600000x1 ![0] bcast_S1600000_S1600000x1_0 : (⟨S1600000, .f32⟩ : BufTy).Contents (Elt F) → (⟨S1600000x1, .f32⟩ : BufTy).Contents (Elt F)),
    unary main_v98 main_v99 (broadcastInDim S1600000x64 ![0, 1] bcast_S1600000x1_S1600000x64_0_1 : (⟨S1600000x1, .f32⟩ : BufTy).Contents (Elt F) → (⟨S1600000x64, .f32⟩ : BufTy).Contents (Elt F)),
    binary main_v10 main_v99 main_v100 (mulf : (⟨S1600000x64, .f32⟩ : BufTy).Contents (Elt F) → (⟨S1600000x64, .f32⟩ : BufTy).Contents (Elt F) → (⟨S1600000x64, .f32⟩ : BufTy).Contents (Elt F)),
    nullary main_cst_17 (constant S_ .f32 0x00000000#32),
    unary main_cst_17 main_v101 (broadcastInDim S100000x64 ![] bcast_S_S100000x64 : (⟨S_, .f32⟩ : BufTy).Contents (Elt F) → (⟨S100000x64, .f32⟩ : BufTy).Contents (Elt F)),
    unary main_v3 main_v102 (broadcastInDim S1600000x1 ![0] bcast_S1600000_S1600000x1_0 : (⟨S1600000, .i32⟩ : BufTy).Contents (Elt F) → (⟨S1600000x1, .i32⟩ : BufTy).Contents (Elt F)),
    ternary main_v101 main_v102 main_v100 main_v103 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_18 (constant S_ .f32 0x00000000#32),
    unary main_cst_18 main_v104 (broadcastInDim S100000 ![] bcast_S_S100000 : (⟨S_, .f32⟩ : BufTy).Contents (Elt F) → (⟨S100000, .f32⟩ : BufTy).Contents (Elt F)),
    unary main_v3 main_v105 (broadcastInDim S1600000x1 ![0] bcast_S1600000_S1600000x1_0 : (⟨S1600000, .i32⟩ : BufTy).Contents (Elt F) → (⟨S1600000x1, .i32⟩ : BufTy).Contents (Elt F)),
    ternary main_v104 main_v105 main_v97 main_v106 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_19 (constant S_ .f32 0x3F800000#32),
    TRef.unary (TRef.of (T := ⟨S_, .f32⟩) main_cst_19) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_v106) (TRef.of (T := ⟨S100000, .f32⟩) main_v107) maximumf,
    unary main_v107 main_v108 (broadcastInDim S100000x1 ![0] bcast_S100000_S100000x1_0 : (⟨S100000, .f32⟩ : BufTy).Contents (Elt F) → (⟨S100000x1, .f32⟩ : BufTy).Contents (Elt F)),
    unary main_v108 main_v109 (broadcastInDim S100000x64 ![0, 1] bcast_S100000x1_S100000x64_0_1 : (⟨S100000x1, .f32⟩ : BufTy).Contents (Elt F) → (⟨S100000x64, .f32⟩ : BufTy).Contents (Elt F)),
    binary main_v103 main_v109 main_v110 (Host.divf : (⟨S100000x64, .f32⟩ : BufTy).Contents (Elt F) → (⟨S100000x64, .f32⟩ : BufTy).Contents (Elt F) → (⟨S100000x64, .f32⟩ : BufTy).Contents (Elt F)),
    unary main_arg3 main_v111 ((extractStridedSlice S1x64x64 ![4, 0, 0] · slices_S8x64x64_S1x64x64_4_0_0) : (⟨S8x64x64, .f32⟩ : BufTy).Contents (Elt F) → (⟨S1x64x64, .f32⟩ : BufTy).Contents (Elt F)),
    reshape main_v111 main_v112 rfl shapeCasts_S1x64x64_S64x64,
    binary main_v110 main_v112 main_v113 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v94 main_v113 main_v114 (addf : (⟨S100000x64, .f32⟩ : BufTy).Contents (Elt F) → (⟨S100000x64, .f32⟩ : BufTy).Contents (Elt F) → (⟨S100000x64, .f32⟩ : BufTy).Contents (Elt F)) ]

noncomputable def wl_part6 : List (Ref sig .tc) :=
  [main_c_16, main_v95, main_v96, main_v97, main_v98, main_v99, main_v100, main_cst_17, main_v101, main_v102, main_v103, main_cst_18, main_v104, main_v105, main_v106, main_cst_19, main_call4_v0, main_call4_v1, main_v107, main_v108, main_v109, main_v110, main_v111, main_v112, main_v113, main_v114]

theorem keep_part6 (W : Valuation τ sig (Elt F)) {r : Ref sig .tc} (hr : r ∉ wl_part6) :
    after (ops_part6 : List (HloOp τ sig (Elt F))) W (Proc.devRef .tc r) = W (Proc.devRef .tc r) :=
  keep_of rfl W hr

abbrev ops_part7 : List (HloOp τ sig (Elt F)) :=
  [ nullary main_c_20 (constantI S_ 32 5#32),
    unary main_c_20 main_v115 (broadcastInDim S1600000 ![] bcast_S_S1600000 : (⟨S_, .i32⟩ : BufTy).Contents (Elt F) → (⟨S1600000, .i32⟩ : BufTy).Contents (Elt F)),
    binary main_arg2 main_v115 main_v116 (cmpi .eq : (⟨S1600000, .i32⟩ : BufTy).Contents (Elt F) → (⟨S1600000, .i32⟩ : BufTy).Contents (Elt F) → (⟨S1600000, .i1⟩ : BufTy).Contents (Elt F)),
    unary main_v116 main_v117 (uitofp .f32 : (⟨S1600000, .i1⟩ : BufTy).Contents (Elt F) → (⟨S1600000, .f32⟩ : BufTy).Contents (Elt F)),
    unary main_v117 main_v118 (broadcastInDim S1600000x1 ![0] bcast_S1600000_S1600000x1_0 : (⟨S1600000, .f32⟩ : BufTy).Contents (Elt F) → (⟨S1600000x1, .f32⟩ : BufTy).Contents (Elt F)),
    unary main_v118 main_v119 (broadcastInDim S1600000x64 ![0, 1] bcast_S1600000x1_S1600000x64_0_1 : (⟨S1600000x1, .f32⟩ : BufTy).Contents (Elt F) → (⟨S1600000x64, .f32⟩ : BufTy).Contents (Elt F)),
    binary main_v10 main_v119 main_v120 (mulf : (⟨S1600000x64, .f32⟩ : BufTy).Contents (Elt F) → (⟨S1600000x64, .f32⟩ : BufTy).Contents (Elt F) → (⟨S1600000x64, .f32⟩ : BufTy).Contents (Elt F)),
    nullary main_cst_21 (constant S_ .f32 0x00000000#32),
    unary main_cst_21 main_v121 (broadcastInDim S100000x64 ![] bcast_S_S100000x64 : (⟨S_, .f32⟩ : BufTy).Contents (Elt F) → (⟨S100000x64, .f32⟩ : BufTy).Contents (Elt F)),
    unary main_v3 main_v122 (broadcastInDim S1600000x1 ![0] bcast_S1600000_S1600000x1_0 : (⟨S1600000, .i32⟩ : BufTy).Contents (Elt F) → (⟨S1600000x1, .i32⟩ : BufTy).Contents (Elt F)),
    ternary main_v121 main_v122 main_v120 main_v123 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_22 (constant S_ .f32 0x00000000#32),
    unary main_cst_22 main_v124 (broadcastInDim S100000 ![] bcast_S_S100000 : (⟨S_, .f32⟩ : BufTy).Contents (Elt F) → (⟨S100000, .f32⟩ : BufTy).Contents (Elt F)),
    unary main_v3 main_v125 (broadcastInDim S1600000x1 ![0] bcast_S1600000_S1600000x1_0 : (⟨S1600000, .i32⟩ : BufTy).Contents (Elt F) → (⟨S1600000x1, .i32⟩ : BufTy).Contents (Elt F)),
    ternary main_v124 main_v125 main_v117 main_v126 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_23 (constant S_ .f32 0x3F800000#32),
    TRef.unary (TRef.of (T := ⟨S_, .f32⟩) main_cst_23) (TRef.of (T := ⟨S_, .f32⟩) main_call5_v0) id,
    TRef.unary (TRef.of (T := ⟨S_, .f32⟩) main_call5_v0) (TRef.of (T := ⟨S100000, .f32⟩) main_call5_v1) (broadcastInDim S100000 ![] bcast_S_S100000),
    TRef.binary (TRef.of (T := ⟨S100000, .f32⟩) main_call5_v1) (TRef.of (T := ⟨S100000, .f32⟩) main_v126) (TRef.of (T := ⟨S100000, .f32⟩) main_v127) maximumf,
    unary main_v127 main_v128 (broadcastInDim S100000x1 ![0] bcast_S100000_S100000x1_0 : (⟨S100000, .f32⟩ : BufTy).Contents (Elt F) → (⟨S100000x1, .f32⟩ : BufTy).Contents (Elt F)),
    unary main_v128 main_v129 (broadcastInDim S100000x64 ![0, 1] bcast_S100000x1_S100000x64_0_1 : (⟨S100000x1, .f32⟩ : BufTy).Contents (Elt F) → (⟨S100000x64, .f32⟩ : BufTy).Contents (Elt F)),
    binary main_v123 main_v129 main_v130 (Host.divf : (⟨S100000x64, .f32⟩ : BufTy).Contents (Elt F) → (⟨S100000x64, .f32⟩ : BufTy).Contents (Elt F) → (⟨S100000x64, .f32⟩ : BufTy).Contents (Elt F)),
    unary main_arg3 main_v131 ((extractStridedSlice S1x64x64 ![5, 0, 0] · slices_S8x64x64_S1x64x64_5_0_0) : (⟨S8x64x64, .f32⟩ : BufTy).Contents (Elt F) → (⟨S1x64x64, .f32⟩ : BufTy).Contents (Elt F)),
    reshape main_v131 main_v132 rfl shapeCasts_S1x64x64_S64x64,
    binary main_v130 main_v132 main_v133 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v114 main_v133 main_v134 (addf : (⟨S100000x64, .f32⟩ : BufTy).Contents (Elt F) → (⟨S100000x64, .f32⟩ : BufTy).Contents (Elt F) → (⟨S100000x64, .f32⟩ : BufTy).Contents (Elt F)) ]

noncomputable def wl_part7 : List (Ref sig .tc) :=
  [main_c_20, main_v115, main_v116, main_v117, main_v118, main_v119, main_v120, main_cst_21, main_v121, main_v122, main_v123, main_cst_22, main_v124, main_v125, main_v126, main_cst_23, main_call5_v0, main_call5_v1, main_v127, main_v128, main_v129, main_v130, main_v131, main_v132, main_v133, main_v134]

theorem keep_part7 (W : Valuation τ sig (Elt F)) {r : Ref sig .tc} (hr : r ∉ wl_part7) :
    after (ops_part7 : List (HloOp τ sig (Elt F))) W (Proc.devRef .tc r) = W (Proc.devRef .tc r) :=
  keep_of rfl W hr

abbrev ops_part8 : List (HloOp τ sig (Elt F)) :=
  [ nullary main_c_24 (constantI S_ 32 6#32),
    unary main_c_24 main_v135 (broadcastInDim S1600000 ![] bcast_S_S1600000 : (⟨S_, .i32⟩ : BufTy).Contents (Elt F) → (⟨S1600000, .i32⟩ : BufTy).Contents (Elt F)),
    binary main_arg2 main_v135 main_v136 (cmpi .eq : (⟨S1600000, .i32⟩ : BufTy).Contents (Elt F) → (⟨S1600000, .i32⟩ : BufTy).Contents (Elt F) → (⟨S1600000, .i1⟩ : BufTy).Contents (Elt F)),
    unary main_v136 main_v137 (uitofp .f32 : (⟨S1600000, .i1⟩ : BufTy).Contents (Elt F) → (⟨S1600000, .f32⟩ : BufTy).Contents (Elt F)),
    unary main_v137 main_v138 (broadcastInDim S1600000x1 ![0] bcast_S1600000_S1600000x1_0 : (⟨S1600000, .f32⟩ : BufTy).Contents (Elt F) → (⟨S1600000x1, .f32⟩ : BufTy).Contents (Elt F)),
    unary main_v138 main_v139 (broadcastInDim S1600000x64 ![0, 1] bcast_S1600000x1_S1600000x64_0_1 : (⟨S1600000x1, .f32⟩ : BufTy).Contents (Elt F) → (⟨S1600000x64, .f32⟩ : BufTy).Contents (Elt F)),
    binary main_v10 main_v139 main_v140 (mulf : (⟨S1600000x64, .f32⟩ : BufTy).Contents (Elt F) → (⟨S1600000x64, .f32⟩ : BufTy).Contents (Elt F) → (⟨S1600000x64, .f32⟩ : BufTy).Contents (Elt F)),
    nullary main_cst_25 (constant S_ .f32 0x00000000#32),
    unary main_cst_25 main_v141 (broadcastInDim S100000x64 ![] bcast_S_S100000x64 : (⟨S_, .f32⟩ : BufTy).Contents (Elt F) → (⟨S100000x64, .f32⟩ : BufTy).Contents (Elt F)),
    unary main_v3 main_v142 (broadcastInDim S1600000x1 ![0] bcast_S1600000_S1600000x1_0 : (⟨S1600000, .i32⟩ : BufTy).Contents (Elt F) → (⟨S1600000x1, .i32⟩ : BufTy).Contents (Elt F)),
    ternary main_v141 main_v142 main_v140 main_v143 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_26 (constant S_ .f32 0x00000000#32),
    unary main_cst_26 main_v144 (broadcastInDim S100000 ![] bcast_S_S100000 : (⟨S_, .f32⟩ : BufTy).Contents (Elt F) → (⟨S100000, .f32⟩ : BufTy).Contents (Elt F)),
    unary main_v3 main_v145 (broadcastInDim S1600000x1 ![0] bcast_S1600000_S1600000x1_0 : (⟨S1600000, .i32⟩ : BufTy).Contents (Elt F) → (⟨S1600000x1, .i32⟩ : BufTy).Contents (Elt F)),
    ternary main_v144 main_v145 main_v137 main_v146 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_27 (constant S_ .f32 0x3F800000#32),
    TRef.unary (TRef.of (T := ⟨S_, .f32⟩) main_cst_27) (TRef.of (T := ⟨S_, .f32⟩) main_call6_v0) id,
    TRef.unary (TRef.of (T := ⟨S_, .f32⟩) main_call6_v0) (TRef.of (T := ⟨S100000, .f32⟩) main_call6_v1) (broadcastInDim S100000 ![] bcast_S_S100000),
    TRef.binary (TRef.of (T := ⟨S100000, .f32⟩) main_call6_v1) (TRef.of (T := ⟨S100000, .f32⟩) main_v146) (TRef.of (T := ⟨S100000, .f32⟩) main_v147) maximumf,
    unary main_v147 main_v148 (broadcastInDim S100000x1 ![0] bcast_S100000_S100000x1_0 : (⟨S100000, .f32⟩ : BufTy).Contents (Elt F) → (⟨S100000x1, .f32⟩ : BufTy).Contents (Elt F)),
    unary main_v148 main_v149 (broadcastInDim S100000x64 ![0, 1] bcast_S100000x1_S100000x64_0_1 : (⟨S100000x1, .f32⟩ : BufTy).Contents (Elt F) → (⟨S100000x64, .f32⟩ : BufTy).Contents (Elt F)),
    binary main_v143 main_v149 main_v150 (Host.divf : (⟨S100000x64, .f32⟩ : BufTy).Contents (Elt F) → (⟨S100000x64, .f32⟩ : BufTy).Contents (Elt F) → (⟨S100000x64, .f32⟩ : BufTy).Contents (Elt F)),
    unary main_arg3 main_v151 ((extractStridedSlice S1x64x64 ![6, 0, 0] · slices_S8x64x64_S1x64x64_6_0_0) : (⟨S8x64x64, .f32⟩ : BufTy).Contents (Elt F) → (⟨S1x64x64, .f32⟩ : BufTy).Contents (Elt F)),
    reshape main_v151 main_v152 rfl shapeCasts_S1x64x64_S64x64,
    binary main_v150 main_v152 main_v153 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v134 main_v153 main_v154 (addf : (⟨S100000x64, .f32⟩ : BufTy).Contents (Elt F) → (⟨S100000x64, .f32⟩ : BufTy).Contents (Elt F) → (⟨S100000x64, .f32⟩ : BufTy).Contents (Elt F)) ]

noncomputable def wl_part8 : List (Ref sig .tc) :=
  [main_c_24, main_v135, main_v136, main_v137, main_v138, main_v139, main_v140, main_cst_25, main_v141, main_v142, main_v143, main_cst_26, main_v144, main_v145, main_v146, main_cst_27, main_call6_v0, main_call6_v1, main_v147, main_v148, main_v149, main_v150, main_v151, main_v152, main_v153, main_v154]

theorem keep_part8 (W : Valuation τ sig (Elt F)) {r : Ref sig .tc} (hr : r ∉ wl_part8) :
    after (ops_part8 : List (HloOp τ sig (Elt F))) W (Proc.devRef .tc r) = W (Proc.devRef .tc r) :=
  keep_of rfl W hr

abbrev ops_part9 : List (HloOp τ sig (Elt F)) :=
  [ nullary main_c_28 (constantI S_ 32 7#32),
    unary main_c_28 main_v155 (broadcastInDim S1600000 ![] bcast_S_S1600000 : (⟨S_, .i32⟩ : BufTy).Contents (Elt F) → (⟨S1600000, .i32⟩ : BufTy).Contents (Elt F)),
    binary main_arg2 main_v155 main_v156 (cmpi .eq : (⟨S1600000, .i32⟩ : BufTy).Contents (Elt F) → (⟨S1600000, .i32⟩ : BufTy).Contents (Elt F) → (⟨S1600000, .i1⟩ : BufTy).Contents (Elt F)),
    unary main_v156 main_v157 (uitofp .f32 : (⟨S1600000, .i1⟩ : BufTy).Contents (Elt F) → (⟨S1600000, .f32⟩ : BufTy).Contents (Elt F)),
    unary main_v157 main_v158 (broadcastInDim S1600000x1 ![0] bcast_S1600000_S1600000x1_0 : (⟨S1600000, .f32⟩ : BufTy).Contents (Elt F) → (⟨S1600000x1, .f32⟩ : BufTy).Contents (Elt F)),
    unary main_v158 main_v159 (broadcastInDim S1600000x64 ![0, 1] bcast_S1600000x1_S1600000x64_0_1 : (⟨S1600000x1, .f32⟩ : BufTy).Contents (Elt F) → (⟨S1600000x64, .f32⟩ : BufTy).Contents (Elt F)),
    binary main_v10 main_v159 main_v160 (mulf : (⟨S1600000x64, .f32⟩ : BufTy).Contents (Elt F) → (⟨S1600000x64, .f32⟩ : BufTy).Contents (Elt F) → (⟨S1600000x64, .f32⟩ : BufTy).Contents (Elt F)),
    nullary main_cst_29 (constant S_ .f32 0x00000000#32),
    unary main_cst_29 main_v161 (broadcastInDim S100000x64 ![] bcast_S_S100000x64 : (⟨S_, .f32⟩ : BufTy).Contents (Elt F) → (⟨S100000x64, .f32⟩ : BufTy).Contents (Elt F)),
    unary main_v3 main_v162 (broadcastInDim S1600000x1 ![0] bcast_S1600000_S1600000x1_0 : (⟨S1600000, .i32⟩ : BufTy).Contents (Elt F) → (⟨S1600000x1, .i32⟩ : BufTy).Contents (Elt F)),
    ternary main_v161 main_v162 main_v160 main_v163 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_30 (constant S_ .f32 0x00000000#32),
    unary main_cst_30 main_v164 (broadcastInDim S100000 ![] bcast_S_S100000 : (⟨S_, .f32⟩ : BufTy).Contents (Elt F) → (⟨S100000, .f32⟩ : BufTy).Contents (Elt F)),
    unary main_v3 main_v165 (broadcastInDim S1600000x1 ![0] bcast_S1600000_S1600000x1_0 : (⟨S1600000, .i32⟩ : BufTy).Contents (Elt F) → (⟨S1600000x1, .i32⟩ : BufTy).Contents (Elt F)),
    ternary main_v164 main_v165 main_v157 main_v166 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_31 (constant S_ .f32 0x3F800000#32),
    TRef.unary (TRef.of (T := ⟨S_, .f32⟩) main_cst_31) (TRef.of (T := ⟨S_, .f32⟩) main_call7_v0) id,
    TRef.unary (TRef.of (T := ⟨S_, .f32⟩) main_call7_v0) (TRef.of (T := ⟨S100000, .f32⟩) main_call7_v1) (broadcastInDim S100000 ![] bcast_S_S100000),
    TRef.binary (TRef.of (T := ⟨S100000, .f32⟩) main_call7_v1) (TRef.of (T := ⟨S100000, .f32⟩) main_v166) (TRef.of (T := ⟨S100000, .f32⟩) main_v167) maximumf,
    unary main_v167 main_v168 (broadcastInDim S100000x1 ![0] bcast_S100000_S100000x1_0 : (⟨S100000, .f32⟩ : BufTy).Contents (Elt F) → (⟨S100000x1, .f32⟩ : BufTy).Contents (Elt F)),
    unary main_v168 main_v169 (broadcastInDim S100000x64 ![0, 1] bcast_S100000x1_S100000x64_0_1 : (⟨S100000x1, .f32⟩ : BufTy).Contents (Elt F) → (⟨S100000x64, .f32⟩ : BufTy).Contents (Elt F)),
    binary main_v163 main_v169 main_v170 (Host.divf : (⟨S100000x64, .f32⟩ : BufTy).Contents (Elt F) → (⟨S100000x64, .f32⟩ : BufTy).Contents (Elt F) → (⟨S100000x64, .f32⟩ : BufTy).Contents (Elt F)),
    unary main_arg3 main_v171 ((extractStridedSlice S1x64x64 ![7, 0, 0] · slices_S8x64x64_S1x64x64_7_0_0) : (⟨S8x64x64, .f32⟩ : BufTy).Contents (Elt F) → (⟨S1x64x64, .f32⟩ : BufTy).Contents (Elt F)),
    reshape main_v171 main_v172 rfl shapeCasts_S1x64x64_S64x64,
    binary main_v170 main_v172 main_v173 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v154 main_v173 main_v174 (addf : (⟨S100000x64, .f32⟩ : BufTy).Contents (Elt F) → (⟨S100000x64, .f32⟩ : BufTy).Contents (Elt F) → (⟨S100000x64, .f32⟩ : BufTy).Contents (Elt F)) ]

noncomputable def wl_part9 : List (Ref sig .tc) :=
  [main_c_28, main_v155, main_v156, main_v157, main_v158, main_v159, main_v160, main_cst_29, main_v161, main_v162, main_v163, main_cst_30, main_v164, main_v165, main_v166, main_cst_31, main_call7_v0, main_call7_v1, main_v167, main_v168, main_v169, main_v170, main_v171, main_v172, main_v173, main_v174]

theorem keep_part9 (W : Valuation τ sig (Elt F)) {r : Ref sig .tc} (hr : r ∉ wl_part9) :
    after (ops_part9 : List (HloOp τ sig (Elt F))) W (Proc.devRef .tc r) = W (Proc.devRef .tc r) :=
  keep_of rfl W hr

abbrev ops_part10 : List (HloOp τ sig (Elt F)) :=
  [ TRef.nullary (TRef.of (T := ⟨S_, .f32⟩) main_call8_cst) (constant S_ .f32 0x00000000#32),
    TRef.unary (TRef.of (T := ⟨S_, .f32⟩) main_call8_cst) (TRef.of (T := ⟨S100000x64, .f32⟩) main_call8_v0) (broadcastInDim S100000x64 ![] bcast_S_S100000x64),
    TRef.binary (TRef.of (T := ⟨S100000x64, .f32⟩) main_v174) (TRef.of (T := ⟨S100000x64, .f32⟩) main_call8_v0) (TRef.of (T := ⟨S100000x64, .f32⟩) main_v175) maximumf,
    nullary main_c_32 (constantI S_ 32 0#32),
    unary main_c_32 main_v176 (broadcastInDim S1600000 ![] bcast_S_S1600000 : (⟨S_, .i32⟩ : BufTy).Contents (Elt F) → (⟨S1600000, .i32⟩ : BufTy).Contents (Elt F)),
    binary main_v1 main_v176 main_v177 (cmpi .slt : (⟨S1600000, .i32⟩ : BufTy).Contents (Elt F) → (⟨S1600000, .i32⟩ : BufTy).Contents (Elt F) → (⟨S1600000, .i1⟩ : BufTy).Contents (Elt F)),
    nullary main_c_33 (constantI S_ 32 100000#32),
    unary main_c_33 main_v178 (broadcastInDim S1600000 ![] bcast_S_S1600000 : (⟨S_, .i32⟩ : BufTy).Contents (Elt F) → (⟨S1600000, .i32⟩ : BufTy).Contents (Elt F)),
    binary main_v1 main_v178 main_v179 (addi : (⟨S1600000, .i32⟩ : BufTy).Contents (Elt F) → (⟨S1600000, .i32⟩ : BufTy).Contents (Elt F) → (⟨S1600000, .i32⟩ : BufTy).Contents (Elt F)),
    ternary main_v177 main_v179 main_v1 main_v180 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v180 main_v181 (broadcastInDim S1600000x1 ![0] bcast_S1600000_S1600000x1_0 : (⟨S1600000, .i32⟩ : BufTy).Contents (Elt F) → (⟨S1600000x1, .i32⟩ : BufTy).Contents (Elt F)),
    binary main_v175 main_v181 main_v182 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    binary main_v175 main_arg7 main_v183 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    unary main_arg8 main_v184 (broadcastInDim S1x16 ![1] bcast_S16_S1x16_1 : (⟨S16, .f32⟩ : BufTy).Contents (Elt F) → (⟨S1x16, .f32⟩ : BufTy).Contents (Elt F)),
    unary main_v184 main_v185 (broadcastInDim S100000x16 ![0, 1] bcast_S1x16_S100000x16_0_1 : (⟨S1x16, .f32⟩ : BufTy).Contents (Elt F) → (⟨S100000x16, .f32⟩ : BufTy).Contents (Elt F)),
    binary main_v183 main_v185 main_v186 (addf : (⟨S100000x16, .f32⟩ : BufTy).Contents (Elt F) → (⟨S100000x16, .f32⟩ : BufTy).Contents (Elt F) → (⟨S100000x16, .f32⟩ : BufTy).Contents (Elt F)) ]

noncomputable def wl_part10 : List (Ref sig .tc) :=
  [main_call8_cst, main_call8_v0, main_v175, main_c_32, main_v176, main_v177, main_c_33, main_v178, main_v179, main_v180, main_v181, main_v182, main_v183, main_v184, main_v185, main_v186]

theorem keep_part10 (W : Valuation τ sig (Elt F)) {r : Ref sig .tc} (hr : r ∉ wl_part10) :
    after (ops_part10 : List (HloOp τ sig (Elt F))) W (Proc.devRef .tc r) = W (Proc.devRef .tc r) :=
  keep_of rfl W hr

abbrev ops_part11 : List (HloOp τ sig (Elt F)) :=
  [ nullary main_c_34 (constantI S_ 32 0#32),
    unary main_c_34 main_v187 (broadcastInDim S1600000 ![] bcast_S_S1600000 : (⟨S_, .i32⟩ : BufTy).Contents (Elt F) → (⟨S1600000, .i32⟩ : BufTy).Contents (Elt F)),
    binary main_arg2 main_v187 main_v188 (cmpi .eq : (⟨S1600000, .i32⟩ : BufTy).Contents (Elt F) → (⟨S1600000, .i32⟩ : BufTy).Contents (Elt F) → (⟨S1600000, .i1⟩ : BufTy).Contents (Elt F)),
    unary main_v188 main_v189 (uitofp .f32 : (⟨S1600000, .i1⟩ : BufTy).Contents (Elt F) → (⟨S1600000, .f32⟩ : BufTy).Contents (Elt F)),
    unary main_v189 main_v190 (broadcastInDim S1600000x1 ![0] bcast_S1600000_S1600000x1_0 : (⟨S1600000, .f32⟩ : BufTy).Contents (Elt F) → (⟨S1600000x1, .f32⟩ : BufTy).Contents (Elt F)),
    unary main_v190 main_v191 (broadcastInDim S1600000x64 ![0, 1] bcast_S1600000x1_S1600000x64_0_1 : (⟨S1600000x1, .f32⟩ : BufTy).Contents (Elt F) → (⟨S1600000x64, .f32⟩ : BufTy).Contents (Elt F)),
    binary main_v182 main_v191 main_v192 (mulf : (⟨S1600000x64, .f32⟩ : BufTy).Contents (Elt F) → (⟨S1600000x64, .f32⟩ : BufTy).Contents (Elt F) → (⟨S1600000x64, .f32⟩ : BufTy).Contents (Elt F)),
    nullary main_cst_35 (constant S_ .f32 0x00000000#32),
    unary main_cst_35 main_v193 (broadcastInDim S100000x64 ![] bcast_S_S100000x64 : (⟨S_, .f32⟩ : BufTy).Contents (Elt F) → (⟨S100000x64, .f32⟩ : BufTy).Contents (Elt F)),
    unary main_v3 main_v194 (broadcastInDim S1600000x1 ![0] bcast_S1600000_S1600000x1_0 : (⟨S1600000, .i32⟩ : BufTy).Contents (Elt F) → (⟨S1600000x1, .i32⟩ : BufTy).Contents (Elt F)),
    ternary main_v193 main_v194 main_v192 main_v195 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_36 (constant S_ .f32 0x00000000#32),
    unary main_cst_36 main_v196 (broadcastInDim S100000 ![] bcast_S_S100000 : (⟨S_, .f32⟩ : BufTy).Contents (Elt F) → (⟨S100000, .f32⟩ : BufTy).Contents (Elt F)),
    unary main_v3 main_v197 (broadcastInDim S1600000x1 ![0] bcast_S1600000_S1600000x1_0 : (⟨S1600000, .i32⟩ : BufTy).Contents (Elt F) → (⟨S1600000x1, .i32⟩ : BufTy).Contents (Elt F)),
    ternary main_v196 main_v197 main_v189 main_v198 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_37 (constant S_ .f32 0x3F800000#32),
    TRef.unary (TRef.of (T := ⟨S_, .f32⟩) main_cst_37) (TRef.of (T := ⟨S_, .f32⟩) main_call9_v0) id,
    TRef.unary (TRef.of (T := ⟨S_, .f32⟩) main_call9_v0) (TRef.of (T := ⟨S100000, .f32⟩) main_call9_v1) (broadcastInDim S100000 ![] bcast_S_S100000),
    TRef.binary (TRef.of (T := ⟨S100000, .f32⟩) main_call9_v1) (TRef.of (T := ⟨S100000, .f32⟩) main_v198) (TRef.of (T := ⟨S100000, .f32⟩) main_v199) maximumf,
    unary main_v199 main_v200 (broadcastInDim S100000x1 ![0] bcast_S100000_S100000x1_0 : (⟨S100000, .f32⟩ : BufTy).Contents (Elt F) → (⟨S100000x1, .f32⟩ : BufTy).Contents (Elt F)),
    unary main_v200 main_v201 (broadcastInDim S100000x64 ![0, 1] bcast_S100000x1_S100000x64_0_1 : (⟨S100000x1, .f32⟩ : BufTy).Contents (Elt F) → (⟨S100000x64, .f32⟩ : BufTy).Contents (Elt F)),
    binary main_v195 main_v201 main_v202 (Host.divf : (⟨S100000x64, .f32⟩ : BufTy).Contents (Elt F) → (⟨S100000x64, .f32⟩ : BufTy).Contents (Elt F) → (⟨S100000x64, .f32⟩ : BufTy).Contents (Elt F)),
    unary main_arg6 main_v203 ((extractStridedSlice S1x64x16 ![0, 0, 0] · slices_S8x64x16_S1x64x16_0_0_0) : (⟨S8x64x16, .f32⟩ : BufTy).Contents (Elt F) → (⟨S1x64x16, .f32⟩ : BufTy).Contents (Elt F)),
    reshape main_v203 main_v204 rfl shapeCasts_S1x64x16_S64x16,
    binary main_v202 main_v204 main_v205 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v186 main_v205 main_v206 (addf : (⟨S100000x16, .f32⟩ : BufTy).Contents (Elt F) → (⟨S100000x16, .f32⟩ : BufTy).Contents (Elt F) → (⟨S100000x16, .f32⟩ : BufTy).Contents (Elt F)) ]

noncomputable def wl_part11 : List (Ref sig .tc) :=
  [main_c_34, main_v187, main_v188, main_v189, main_v190, main_v191, main_v192, main_cst_35, main_v193, main_v194, main_v195, main_cst_36, main_v196, main_v197, main_v198, main_cst_37, main_call9_v0, main_call9_v1, main_v199, main_v200, main_v201, main_v202, main_v203, main_v204, main_v205, main_v206]

theorem keep_part11 (W : Valuation τ sig (Elt F)) {r : Ref sig .tc} (hr : r ∉ wl_part11) :
    after (ops_part11 : List (HloOp τ sig (Elt F))) W (Proc.devRef .tc r) = W (Proc.devRef .tc r) :=
  keep_of rfl W hr

abbrev ops_part12 : List (HloOp τ sig (Elt F)) :=
  [ nullary main_c_38 (constantI S_ 32 1#32),
    unary main_c_38 main_v207 (broadcastInDim S1600000 ![] bcast_S_S1600000 : (⟨S_, .i32⟩ : BufTy).Contents (Elt F) → (⟨S1600000, .i32⟩ : BufTy).Contents (Elt F)),
    binary main_arg2 main_v207 main_v208 (cmpi .eq : (⟨S1600000, .i32⟩ : BufTy).Contents (Elt F) → (⟨S1600000, .i32⟩ : BufTy).Contents (Elt F) → (⟨S1600000, .i1⟩ : BufTy).Contents (Elt F)),
    unary main_v208 main_v209 (uitofp .f32 : (⟨S1600000, .i1⟩ : BufTy).Contents (Elt F) → (⟨S1600000, .f32⟩ : BufTy).Contents (Elt F)),
    unary main_v209 main_v210 (broadcastInDim S1600000x1 ![0] bcast_S1600000_S1600000x1_0 : (⟨S1600000, .f32⟩ : BufTy).Contents (Elt F) → (⟨S1600000x1, .f32⟩ : BufTy).Contents (Elt F)),
    unary main_v210 main_v211 (broadcastInDim S1600000x64 ![0, 1] bcast_S1600000x1_S1600000x64_0_1 : (⟨S1600000x1, .f32⟩ : BufTy).Contents (Elt F) → (⟨S1600000x64, .f32⟩ : BufTy).Contents (Elt F)),
    binary main_v182 main_v211 main_v212 (mulf : (⟨S1600000x64, .f32⟩ : BufTy).Contents (Elt F) → (⟨S1600000x64, .f32⟩ : BufTy).Contents (Elt F) → (⟨S1600000x64, .f32⟩ : BufTy).Contents (Elt F)),
    nullary main_cst_39 (constant S_ .f32 0x00000000#32),
    unary main_cst_39 main_v213 (broadcastInDim S100000x64 ![] bcast_S_S100000x64 : (⟨S_, .f32⟩ : BufTy).Contents (Elt F) → (⟨S100000x64, .f32⟩ : BufTy).Contents (Elt F)),
    unary main_v3 main_v214 (broadcastInDim S1600000x1 ![0] bcast_S1600000_S1600000x1_0 : (⟨S1600000, .i32⟩ : BufTy).Contents (Elt F) → (⟨S1600000x1, .i32⟩ : BufTy).Contents (Elt F)),
    ternary main_v213 main_v214 main_v212 main_v215 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_40 (constant S_ .f32 0x00000000#32),
    unary main_cst_40 main_v216 (broadcastInDim S100000 ![] bcast_S_S100000 : (⟨S_, .f32⟩ : BufTy).Contents (Elt F) → (⟨S100000, .f32⟩ : BufTy).Contents (Elt F)),
    unary main_v3 main_v217 (broadcastInDim S1600000x1 ![0] bcast_S1600000_S1600000x1_0 : (⟨S1600000, .i32⟩ : BufTy).Contents (Elt F) → (⟨S1600000x1, .i32⟩ : BufTy).Contents (Elt F)),
    ternary main_v216 main_v217 main_v209 main_v218 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_41 (constant S_ .f32 0x3F800000#32),
    TRef.unary (TRef.of (T := ⟨S_, .f32⟩) main_cst_41) (TRef.of (T := ⟨S_, .f32⟩) main_call10_v0) id,
    TRef.unary (TRef.of (T := ⟨S_, .f32⟩) main_call10_v0) (TRef.of (T := ⟨S100000, .f32⟩) main_call10_v1) (broadcastInDim S100000 ![] bcast_S_S100000),
    TRef.binary (TRef.of (T := ⟨S100000, .f32⟩) main_call10_v1) (TRef.of (T := ⟨S100000, .f32⟩) main_v218) (TRef.of (T := ⟨S100000, .f32⟩) main_v219) maximumf,
    unary main_v219 main_v220 (broadcastInDim S100000x1 ![0] bcast_S100000_S100000x1_0 : (⟨S100000, .f32⟩ : BufTy).Contents (Elt F) → (⟨S100000x1, .f32⟩ : BufTy).Contents (Elt F)),
    unary main_v220 main_v221 (broadcastInDim S100000x64 ![0, 1] bcast_S100000x1_S100000x64_0_1 : (⟨S100000x1, .f32⟩ : BufTy).Contents (Elt F) → (⟨S100000x64, .f32⟩ : BufTy).Contents (Elt F)),
    binary main_v215 main_v221 main_v222 (Host.divf : (⟨S100000x64, .f32⟩ : BufTy).Contents (Elt F) → (⟨S100000x64, .f32⟩ : BufTy).Contents (Elt F) → (⟨S100000x64, .f32⟩ : BufTy).Contents (Elt F)),
    unary main_arg6 main_v223 ((extractStridedSlice S1x64x16 ![1, 0, 0] · slices_S8x64x16_S1x64x16_1_0_0) : (⟨S8x64x16, .f32⟩ : BufTy).Contents (Elt F) → (⟨S1x64x16, .f32⟩ : BufTy).Contents (Elt F)),
    reshape main_v223 main_v224 rfl shapeCasts_S1x64x16_S64x16,
    binary main_v222 main_v224 main_v225 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v206 main_v225 main_v226 (addf : (⟨S100000x16, .f32⟩ : BufTy).Contents (Elt F) → (⟨S100000x16, .f32⟩ : BufTy).Contents (Elt F) → (⟨S100000x16, .f32⟩ : BufTy).Contents (Elt F)) ]

noncomputable def wl_part12 : List (Ref sig .tc) :=
  [main_c_38, main_v207, main_v208, main_v209, main_v210, main_v211, main_v212, main_cst_39, main_v213, main_v214, main_v215, main_cst_40, main_v216, main_v217, main_v218, main_cst_41, main_call10_v0, main_call10_v1, main_v219, main_v220, main_v221, main_v222, main_v223, main_v224, main_v225, main_v226]

theorem keep_part12 (W : Valuation τ sig (Elt F)) {r : Ref sig .tc} (hr : r ∉ wl_part12) :
    after (ops_part12 : List (HloOp τ sig (Elt F))) W (Proc.devRef .tc r) = W (Proc.devRef .tc r) :=
  keep_of rfl W hr

abbrev ops_part13 : List (HloOp τ sig (Elt F)) :=
  [ nullary main_c_42 (constantI S_ 32 2#32),
    unary main_c_42 main_v227 (broadcastInDim S1600000 ![] bcast_S_S1600000 : (⟨S_, .i32⟩ : BufTy).Contents (Elt F) → (⟨S1600000, .i32⟩ : BufTy).Contents (Elt F)),
    binary main_arg2 main_v227 main_v228 (cmpi .eq : (⟨S1600000, .i32⟩ : BufTy).Contents (Elt F) → (⟨S1600000, .i32⟩ : BufTy).Contents (Elt F) → (⟨S1600000, .i1⟩ : BufTy).Contents (Elt F)),
    unary main_v228 main_v229 (uitofp .f32 : (⟨S1600000, .i1⟩ : BufTy).Contents (Elt F) → (⟨S1600000, .f32⟩ : BufTy).Contents (Elt F)),
    unary main_v229 main_v230 (broadcastInDim S1600000x1 ![0] bcast_S1600000_S1600000x1_0 : (⟨S1600000, .f32⟩ : BufTy).Contents (Elt F) → (⟨S1600000x1, .f32⟩ : BufTy).Contents (Elt F)),
    unary main_v230 main_v231 (broadcastInDim S1600000x64 ![0, 1] bcast_S1600000x1_S1600000x64_0_1 : (⟨S1600000x1, .f32⟩ : BufTy).Contents (Elt F) → (⟨S1600000x64, .f32⟩ : BufTy).Contents (Elt F)),
    binary main_v182 main_v231 main_v232 (mulf : (⟨S1600000x64, .f32⟩ : BufTy).Contents (Elt F) → (⟨S1600000x64, .f32⟩ : BufTy).Contents (Elt F) → (⟨S1600000x64, .f32⟩ : BufTy).Contents (Elt F)),
    nullary main_cst_43 (constant S_ .f32 0x00000000#32),
    unary main_cst_43 main_v233 (broadcastInDim S100000x64 ![] bcast_S_S100000x64 : (⟨S_, .f32⟩ : BufTy).Contents (Elt F) → (⟨S100000x64, .f32⟩ : BufTy).Contents (Elt F)),
    unary main_v3 main_v234 (broadcastInDim S1600000x1 ![0] bcast_S1600000_S1600000x1_0 : (⟨S1600000, .i32⟩ : BufTy).Contents (Elt F) → (⟨S1600000x1, .i32⟩ : BufTy).Contents (Elt F)),
    ternary main_v233 main_v234 main_v232 main_v235 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_44 (constant S_ .f32 0x00000000#32),
    unary main_cst_44 main_v236 (broadcastInDim S100000 ![] bcast_S_S100000 : (⟨S_, .f32⟩ : BufTy).Contents (Elt F) → (⟨S100000, .f32⟩ : BufTy).Contents (Elt F)),
    unary main_v3 main_v237 (broadcastInDim S1600000x1 ![0] bcast_S1600000_S1600000x1_0 : (⟨S1600000, .i32⟩ : BufTy).Contents (Elt F) → (⟨S1600000x1, .i32⟩ : BufTy).Contents (Elt F)),
    ternary main_v236 main_v237 main_v229 main_v238 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_45 (constant S_ .f32 0x3F800000#32),
    TRef.unary (TRef.of (T := ⟨S_, .f32⟩) main_cst_45) (TRef.of (T := ⟨S_, .f32⟩) main_call11_v0) id,
    TRef.unary (TRef.of (T := ⟨S_, .f32⟩) main_call11_v0) (TRef.of (T := ⟨S100000, .f32⟩) main_call11_v1) (broadcastInDim S100000 ![] bcast_S_S100000),
    TRef.binary (TRef.of (T := ⟨S100000, .f32⟩) main_call11_v1) (TRef.of (T := ⟨S100000, .f32⟩) main_v238) (TRef.of (T := ⟨S100000, .f32⟩) main_v239) maximumf,
    unary main_v239 main_v240 (broadcastInDim S100000x1 ![0] bcast_S100000_S100000x1_0 : (⟨S100000, .f32⟩ : BufTy).Contents (Elt F) → (⟨S100000x1, .f32⟩ : BufTy).Contents (Elt F)),
    unary main_v240 main_v241 (broadcastInDim S100000x64 ![0, 1] bcast_S100000x1_S100000x64_0_1 : (⟨S100000x1, .f32⟩ : BufTy).Contents (Elt F) → (⟨S100000x64, .f32⟩ : BufTy).Contents (Elt F)),
    binary main_v235 main_v241 main_v242 (Host.divf : (⟨S100000x64, .f32⟩ : BufTy).Contents (Elt F) → (⟨S100000x64, .f32⟩ : BufTy).Contents (Elt F) → (⟨S100000x64, .f32⟩ : BufTy).Contents (Elt F)),
    unary main_arg6 main_v243 ((extractStridedSlice S1x64x16 ![2, 0, 0] · slices_S8x64x16_S1x64x16_2_0_0) : (⟨S8x64x16, .f32⟩ : BufTy).Contents (Elt F) → (⟨S1x64x16, .f32⟩ : BufTy).Contents (Elt F)),
    reshape main_v243 main_v244 rfl shapeCasts_S1x64x16_S64x16,
    binary main_v242 main_v244 main_v245 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v226 main_v245 main_v246 (addf : (⟨S100000x16, .f32⟩ : BufTy).Contents (Elt F) → (⟨S100000x16, .f32⟩ : BufTy).Contents (Elt F) → (⟨S100000x16, .f32⟩ : BufTy).Contents (Elt F)) ]

noncomputable def wl_part13 : List (Ref sig .tc) :=
  [main_c_42, main_v227, main_v228, main_v229, main_v230, main_v231, main_v232, main_cst_43, main_v233, main_v234, main_v235, main_cst_44, main_v236, main_v237, main_v238, main_cst_45, main_call11_v0, main_call11_v1, main_v239, main_v240, main_v241, main_v242, main_v243, main_v244, main_v245, main_v246]

theorem keep_part13 (W : Valuation τ sig (Elt F)) {r : Ref sig .tc} (hr : r ∉ wl_part13) :
    after (ops_part13 : List (HloOp τ sig (Elt F))) W (Proc.devRef .tc r) = W (Proc.devRef .tc r) :=
  keep_of rfl W hr

abbrev ops_part14 : List (HloOp τ sig (Elt F)) :=
  [ nullary main_c_46 (constantI S_ 32 3#32),
    unary main_c_46 main_v247 (broadcastInDim S1600000 ![] bcast_S_S1600000 : (⟨S_, .i32⟩ : BufTy).Contents (Elt F) → (⟨S1600000, .i32⟩ : BufTy).Contents (Elt F)),
    binary main_arg2 main_v247 main_v248 (cmpi .eq : (⟨S1600000, .i32⟩ : BufTy).Contents (Elt F) → (⟨S1600000, .i32⟩ : BufTy).Contents (Elt F) → (⟨S1600000, .i1⟩ : BufTy).Contents (Elt F)),
    unary main_v248 main_v249 (uitofp .f32 : (⟨S1600000, .i1⟩ : BufTy).Contents (Elt F) → (⟨S1600000, .f32⟩ : BufTy).Contents (Elt F)),
    unary main_v249 main_v250 (broadcastInDim S1600000x1 ![0] bcast_S1600000_S1600000x1_0 : (⟨S1600000, .f32⟩ : BufTy).Contents (Elt F) → (⟨S1600000x1, .f32⟩ : BufTy).Contents (Elt F)),
    unary main_v250 main_v251 (broadcastInDim S1600000x64 ![0, 1] bcast_S1600000x1_S1600000x64_0_1 : (⟨S1600000x1, .f32⟩ : BufTy).Contents (Elt F) → (⟨S1600000x64, .f32⟩ : BufTy).Contents (Elt F)),
    binary main_v182 main_v251 main_v252 (mulf : (⟨S1600000x64, .f32⟩ : BufTy).Contents (Elt F) → (⟨S1600000x64, .f32⟩ : BufTy).Contents (Elt F) → (⟨S1600000x64, .f32⟩ : BufTy).Contents (Elt F)),
    nullary main_cst_47 (constant S_ .f32 0x00000000#32),
    unary main_cst_47 main_v253 (broadcastInDim S100000x64 ![] bcast_S_S100000x64 : (⟨S_, .f32⟩ : BufTy).Contents (Elt F) → (⟨S100000x64, .f32⟩ : BufTy).Contents (Elt F)),
    unary main_v3 main_v254 (broadcastInDim S1600000x1 ![0] bcast_S1600000_S1600000x1_0 : (⟨S1600000, .i32⟩ : BufTy).Contents (Elt F) → (⟨S1600000x1, .i32⟩ : BufTy).Contents (Elt F)),
    ternary main_v253 main_v254 main_v252 main_v255 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_48 (constant S_ .f32 0x00000000#32),
    unary main_cst_48 main_v256 (broadcastInDim S100000 ![] bcast_S_S100000 : (⟨S_, .f32⟩ : BufTy).Contents (Elt F) → (⟨S100000, .f32⟩ : BufTy).Contents (Elt F)),
    unary main_v3 main_v257 (broadcastInDim S1600000x1 ![0] bcast_S1600000_S1600000x1_0 : (⟨S1600000, .i32⟩ : BufTy).Contents (Elt F) → (⟨S1600000x1, .i32⟩ : BufTy).Contents (Elt F)),
    ternary main_v256 main_v257 main_v249 main_v258 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_49 (constant S_ .f32 0x3F800000#32),
    TRef.unary (TRef.of (T := ⟨S_, .f32⟩) main_cst_49) (TRef.of (T := ⟨S_, .f32⟩) main_call12_v0) id,
    TRef.unary (TRef.of (T := ⟨S_, .f32⟩) main_call12_v0) (TRef.of (T := ⟨S100000, .f32⟩) main_call12_v1) (broadcastInDim S100000 ![] bcast_S_S100000),
    TRef.binary (TRef.of (T := ⟨S100000, .f32⟩) main_call12_v1) (TRef.of (T := ⟨S100000, .f32⟩) main_v258) (TRef.of (T := ⟨S100000, .f32⟩) main_v259) maximumf,
    unary main_v259 main_v260 (broadcastInDim S100000x1 ![0] bcast_S100000_S100000x1_0 : (⟨S100000, .f32⟩ : BufTy).Contents (Elt F) → (⟨S100000x1, .f32⟩ : BufTy).Contents (Elt F)),
    unary main_v260 main_v261 (broadcastInDim S100000x64 ![0, 1] bcast_S100000x1_S100000x64_0_1 : (⟨S100000x1, .f32⟩ : BufTy).Contents (Elt F) → (⟨S100000x64, .f32⟩ : BufTy).Contents (Elt F)),
    binary main_v255 main_v261 main_v262 (Host.divf : (⟨S100000x64, .f32⟩ : BufTy).Contents (Elt F) → (⟨S100000x64, .f32⟩ : BufTy).Contents (Elt F) → (⟨S100000x64, .f32⟩ : BufTy).Contents (Elt F)),
    unary main_arg6 main_v263 ((extractStridedSlice S1x64x16 ![3, 0, 0] · slices_S8x64x16_S1x64x16_3_0_0) : (⟨S8x64x16, .f32⟩ : BufTy).Contents (Elt F) → (⟨S1x64x16, .f32⟩ : BufTy).Contents (Elt F)),
    reshape main_v263 main_v264 rfl shapeCasts_S1x64x16_S64x16,
    binary main_v262 main_v264 main_v265 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v246 main_v265 main_v266 (addf : (⟨S100000x16, .f32⟩ : BufTy).Contents (Elt F) → (⟨S100000x16, .f32⟩ : BufTy).Contents (Elt F) → (⟨S100000x16, .f32⟩ : BufTy).Contents (Elt F)) ]

noncomputable def wl_part14 : List (Ref sig .tc) :=
  [main_c_46, main_v247, main_v248, main_v249, main_v250, main_v251, main_v252, main_cst_47, main_v253, main_v254, main_v255, main_cst_48, main_v256, main_v257, main_v258, main_cst_49, main_call12_v0, main_call12_v1, main_v259, main_v260, main_v261, main_v262, main_v263, main_v264, main_v265, main_v266]

theorem keep_part14 (W : Valuation τ sig (Elt F)) {r : Ref sig .tc} (hr : r ∉ wl_part14) :
    after (ops_part14 : List (HloOp τ sig (Elt F))) W (Proc.devRef .tc r) = W (Proc.devRef .tc r) :=
  keep_of rfl W hr

abbrev ops_part15 : List (HloOp τ sig (Elt F)) :=
  [ nullary main_c_50 (constantI S_ 32 4#32),
    unary main_c_50 main_v267 (broadcastInDim S1600000 ![] bcast_S_S1600000 : (⟨S_, .i32⟩ : BufTy).Contents (Elt F) → (⟨S1600000, .i32⟩ : BufTy).Contents (Elt F)),
    binary main_arg2 main_v267 main_v268 (cmpi .eq : (⟨S1600000, .i32⟩ : BufTy).Contents (Elt F) → (⟨S1600000, .i32⟩ : BufTy).Contents (Elt F) → (⟨S1600000, .i1⟩ : BufTy).Contents (Elt F)),
    unary main_v268 main_v269 (uitofp .f32 : (⟨S1600000, .i1⟩ : BufTy).Contents (Elt F) → (⟨S1600000, .f32⟩ : BufTy).Contents (Elt F)),
    unary main_v269 main_v270 (broadcastInDim S1600000x1 ![0] bcast_S1600000_S1600000x1_0 : (⟨S1600000, .f32⟩ : BufTy).Contents (Elt F) → (⟨S1600000x1, .f32⟩ : BufTy).Contents (Elt F)),
    unary main_v270 main_v271 (broadcastInDim S1600000x64 ![0, 1] bcast_S1600000x1_S1600000x64_0_1 : (⟨S1600000x1, .f32⟩ : BufTy).Contents (Elt F) → (⟨S1600000x64, .f32⟩ : BufTy).Contents (Elt F)),
    binary main_v182 main_v271 main_v272 (mulf : (⟨S1600000x64, .f32⟩ : BufTy).Contents (Elt F) → (⟨S1600000x64, .f32⟩ : BufTy).Contents (Elt F) → (⟨S1600000x64, .f32⟩ : BufTy).Contents (Elt F)),
    nullary main_cst_51 (constant S_ .f32 0x00000000#32),
    unary main_cst_51 main_v273 (broadcastInDim S100000x64 ![] bcast_S_S100000x64 : (⟨S_, .f32⟩ : BufTy).Contents (Elt F) → (⟨S100000x64, .f32⟩ : BufTy).Contents (Elt F)),
    unary main_v3 main_v274 (broadcastInDim S1600000x1 ![0] bcast_S1600000_S1600000x1_0 : (⟨S1600000, .i32⟩ : BufTy).Contents (Elt F) → (⟨S1600000x1, .i32⟩ : BufTy).Contents (Elt F)),
    ternary main_v273 main_v274 main_v272 main_v275 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_52 (constant S_ .f32 0x00000000#32),
    unary main_cst_52 main_v276 (broadcastInDim S100000 ![] bcast_S_S100000 : (⟨S_, .f32⟩ : BufTy).Contents (Elt F) → (⟨S100000, .f32⟩ : BufTy).Contents (Elt F)),
    unary main_v3 main_v277 (broadcastInDim S1600000x1 ![0] bcast_S1600000_S1600000x1_0 : (⟨S1600000, .i32⟩ : BufTy).Contents (Elt F) → (⟨S1600000x1, .i32⟩ : BufTy).Contents (Elt F)),
    ternary main_v276 main_v277 main_v269 main_v278 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_53 (constant S_ .f32 0x3F800000#32),
    TRef.unary (TRef.of (T := ⟨S_, .f32⟩) main_cst_53) (TRef.of (T := ⟨S_, .f32⟩) main_call13_v0) id,
    TRef.unary (TRef.of (T := ⟨S_, .f32⟩) main_call13_v0) (TRef.of (T := ⟨S100000, .f32⟩) main_call13_v1) (broadcastInDim S100000 ![] bcast_S_S100000),
    TRef.binary (TRef.of (T := ⟨S100000, .f32⟩) main_call13_v1) (TRef.of (T := ⟨S100000, .f32⟩) main_v278) (TRef.of (T := ⟨S100000, .f32⟩) main_v279) maximumf,
    unary main_v279 main_v280 (broadcastInDim S100000x1 ![0] bcast_S100000_S100000x1_0 : (⟨S100000, .f32⟩ : BufTy).Contents (Elt F) → (⟨S100000x1, .f32⟩ : BufTy).Contents (Elt F)),
    unary main_v280 main_v281 (broadcastInDim S100000x64 ![0, 1] bcast_S100000x1_S100000x64_0_1 : (⟨S100000x1, .f32⟩ : BufTy).Contents (Elt F) → (⟨S100000x64, .f32⟩ : BufTy).Contents (Elt F)),
    binary main_v275 main_v281 main_v282 (Host.divf : (⟨S100000x64, .f32⟩ : BufTy).Contents (Elt F) → (⟨S100000x64, .f32⟩ : BufTy).Contents (Elt F) → (⟨S100000x64, .f32⟩ : BufTy).Contents (Elt F)),
    unary main_arg6 main_v283 ((extractStridedSlice S1x64x16 ![4, 0, 0] · slices_S8x64x16_S1x64x16_4_0_0) : (⟨S8x64x16, .f32⟩ : BufTy).Contents (Elt F) → (⟨S1x64x16, .f32⟩ : BufTy).Contents (Elt F)),
    reshape main_v283 main_v284 rfl shapeCasts_S1x64x16_S64x16,
    binary main_v282 main_v284 main_v285 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v266 main_v285 main_v286 (addf : (⟨S100000x16, .f32⟩ : BufTy).Contents (Elt F) → (⟨S100000x16, .f32⟩ : BufTy).Contents (Elt F) → (⟨S100000x16, .f32⟩ : BufTy).Contents (Elt F)) ]

noncomputable def wl_part15 : List (Ref sig .tc) :=
  [main_c_50, main_v267, main_v268, main_v269, main_v270, main_v271, main_v272, main_cst_51, main_v273, main_v274, main_v275, main_cst_52, main_v276, main_v277, main_v278, main_cst_53, main_call13_v0, main_call13_v1, main_v279, main_v280, main_v281, main_v282, main_v283, main_v284, main_v285, main_v286]

theorem keep_part15 (W : Valuation τ sig (Elt F)) {r : Ref sig .tc} (hr : r ∉ wl_part15) :
    after (ops_part15 : List (HloOp τ sig (Elt F))) W (Proc.devRef .tc r) = W (Proc.devRef .tc r) :=
  keep_of rfl W hr

abbrev ops_part16 : List (HloOp τ sig (Elt F)) :=
  [ nullary main_c_54 (constantI S_ 32 5#32),
    unary main_c_54 main_v287 (broadcastInDim S1600000 ![] bcast_S_S1600000 : (⟨S_, .i32⟩ : BufTy).Contents (Elt F) → (⟨S1600000, .i32⟩ : BufTy).Contents (Elt F)),
    binary main_arg2 main_v287 main_v288 (cmpi .eq : (⟨S1600000, .i32⟩ : BufTy).Contents (Elt F) → (⟨S1600000, .i32⟩ : BufTy).Contents (Elt F) → (⟨S1600000, .i1⟩ : BufTy).Contents (Elt F)),
    unary main_v288 main_v289 (uitofp .f32 : (⟨S1600000, .i1⟩ : BufTy).Contents (Elt F) → (⟨S1600000, .f32⟩ : BufTy).Contents (Elt F)),
    unary main_v289 main_v290 (broadcastInDim S1600000x1 ![0] bcast_S1600000_S1600000x1_0 : (⟨S1600000, .f32⟩ : BufTy).Contents (Elt F) → (⟨S1600000x1, .f32⟩ : BufTy).Contents (Elt F)),
    unary main_v290 main_v291 (broadcastInDim S1600000x64 ![0, 1] bcast_S1600000x1_S1600000x64_0_1 : (⟨S1600000x1, .f32⟩ : BufTy).Contents (Elt F) → (⟨S1600000x64, .f32⟩ : BufTy).Contents (Elt F)),
    binary main_v182 main_v291 main_v292 (mulf : (⟨S1600000x64, .f32⟩ : BufTy).Contents (Elt F) → (⟨S1600000x64, .f32⟩ : BufTy).Contents (Elt F) → (⟨S1600000x64, .f32⟩ : BufTy).Contents (Elt F)),
    nullary main_cst_55 (constant S_ .f32 0x00000000#32),
    unary main_cst_55 main_v293 (broadcastInDim S100000x64 ![] bcast_S_S100000x64 : (⟨S_, .f32⟩ : BufTy).Contents (Elt F) → (⟨S100000x64, .f32⟩ : BufTy).Contents (Elt F)),
    unary main_v3 main_v294 (broadcastInDim S1600000x1 ![0] bcast_S1600000_S1600000x1_0 : (⟨S1600000, .i32⟩ : BufTy).Contents (Elt F) → (⟨S1600000x1, .i32⟩ : BufTy).Contents (Elt F)),
    ternary main_v293 main_v294 main_v292 main_v295 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_56 (constant S_ .f32 0x00000000#32),
    unary main_cst_56 main_v296 (broadcastInDim S100000 ![] bcast_S_S100000 : (⟨S_, .f32⟩ : BufTy).Contents (Elt F) → (⟨S100000, .f32⟩ : BufTy).Contents (Elt F)),
    unary main_v3 main_v297 (broadcastInDim S1600000x1 ![0] bcast_S1600000_S1600000x1_0 : (⟨S1600000, .i32⟩ : BufTy).Contents (Elt F) → (⟨S1600000x1, .i32⟩ : BufTy).Contents (Elt F)),
    ternary main_v296 main_v297 main_v289 main_v298 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_57 (constant S_ .f32 0x3F800000#32),
    TRef.unary (TRef.of (T := ⟨S_, .f32⟩) main_cst_57) (TRef.of (T := ⟨S_, .f32⟩) main_call14_v0) id,
    TRef.unary (TRef.of (T := ⟨S_, .f32⟩) main_call14_v0) (TRef.of (T := ⟨S100000, .f32⟩) main_call14_v1) (broadcastInDim S100000 ![] bcast_S_S100000),
    TRef.binary (TRef.of (T := ⟨S100000, .f32⟩) main_call14_v1) (TRef.of (T := ⟨S100000, .f32⟩) main_v298) (TRef.of (T := ⟨S100000, .f32⟩) main_v299) maximumf,
    unary main_v299 main_v300 (broadcastInDim S100000x1 ![0] bcast_S100000_S100000x1_0 : (⟨S100000, .f32⟩ : BufTy).Contents (Elt F) → (⟨S100000x1, .f32⟩ : BufTy).Contents (Elt F)),
    unary main_v300 main_v301 (broadcastInDim S100000x64 ![0, 1] bcast_S100000x1_S100000x64_0_1 : (⟨S100000x1, .f32⟩ : BufTy).Contents (Elt F) → (⟨S100000x64, .f32⟩ : BufTy).Contents (Elt F)),
    binary main_v295 main_v301 main_v302 (Host.divf : (⟨S100000x64, .f32⟩ : BufTy).Contents (Elt F) → (⟨S100000x64, .f32⟩ : BufTy).Contents (Elt F) → (⟨S100000x64, .f32⟩ : BufTy).Contents (Elt F)),
    unary main_arg6 main_v303 ((extractStridedSlice S1x64x16 ![5, 0, 0] · slices_S8x64x16_S1x64x16_5_0_0) : (⟨S8x64x16, .f32⟩ : BufTy).Contents (Elt F) → (⟨S1x64x16, .f32⟩ : BufTy).Contents (Elt F)),
    reshape main_v303 main_v304 rfl shapeCasts_S1x64x16_S64x16,
    binary main_v302 main_v304 main_v305 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v286 main_v305 main_v306 (addf : (⟨S100000x16, .f32⟩ : BufTy).Contents (Elt F) → (⟨S100000x16, .f32⟩ : BufTy).Contents (Elt F) → (⟨S100000x16, .f32⟩ : BufTy).Contents (Elt F)) ]

noncomputable def wl_part16 : List (Ref sig .tc) :=
  [main_c_54, main_v287, main_v288, main_v289, main_v290, main_v291, main_v292, main_cst_55, main_v293, main_v294, main_v295, main_cst_56, main_v296, main_v297, main_v298, main_cst_57, main_call14_v0, main_call14_v1, main_v299, main_v300, main_v301, main_v302, main_v303, main_v304, main_v305, main_v306]

theorem keep_part16 (W : Valuation τ sig (Elt F)) {r : Ref sig .tc} (hr : r ∉ wl_part16) :
    after (ops_part16 : List (HloOp τ sig (Elt F))) W (Proc.devRef .tc r) = W (Proc.devRef .tc r) :=
  keep_of rfl W hr

abbrev ops_part17 : List (HloOp τ sig (Elt F)) :=
  [ nullary main_c_58 (constantI S_ 32 6#32),
    unary main_c_58 main_v307 (broadcastInDim S1600000 ![] bcast_S_S1600000 : (⟨S_, .i32⟩ : BufTy).Contents (Elt F) → (⟨S1600000, .i32⟩ : BufTy).Contents (Elt F)),
    binary main_arg2 main_v307 main_v308 (cmpi .eq : (⟨S1600000, .i32⟩ : BufTy).Contents (Elt F) → (⟨S1600000, .i32⟩ : BufTy).Contents (Elt F) → (⟨S1600000, .i1⟩ : BufTy).Contents (Elt F)),
    unary main_v308 main_v309 (uitofp .f32 : (⟨S1600000, .i1⟩ : BufTy).Contents (Elt F) → (⟨S1600000, .f32⟩ : BufTy).Contents (Elt F)),
    unary main_v309 main_v310 (broadcastInDim S1600000x1 ![0] bcast_S1600000_S1600000x1_0 : (⟨S1600000, .f32⟩ : BufTy).Contents (Elt F) → (⟨S1600000x1, .f32⟩ : BufTy).Contents (Elt F)),
    unary main_v310 main_v311 (broadcastInDim S1600000x64 ![0, 1] bcast_S1600000x1_S1600000x64_0_1 : (⟨S1600000x1, .f32⟩ : BufTy).Contents (Elt F) → (⟨S1600000x64, .f32⟩ : BufTy).Contents (Elt F)),
    binary main_v182 main_v311 main_v312 (mulf : (⟨S1600000x64, .f32⟩ : BufTy).Contents (Elt F) → (⟨S1600000x64, .f32⟩ : BufTy).Contents (Elt F) → (⟨S1600000x64, .f32⟩ : BufTy).Contents (Elt F)),
    nullary main_cst_59 (constant S_ .f32 0x00000000#32),
    unary main_cst_59 main_v313 (broadcastInDim S100000x64 ![] bcast_S_S100000x64 : (⟨S_, .f32⟩ : BufTy).Contents (Elt F) → (⟨S100000x64, .f32⟩ : BufTy).Contents (Elt F)),
    unary main_v3 main_v314 (broadcastInDim S1600000x1 ![0] bcast_S1600000_S1600000x1_0 : (⟨S1600000, .i32⟩ : BufTy).Contents (Elt F) → (⟨S1600000x1, .i32⟩ : BufTy).Contents (Elt F)),
    ternary main_v313 main_v314 main_v312 main_v315 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_60 (constant S_ .f32 0x00000000#32),
    unary main_cst_60 main_v316 (broadcastInDim S100000 ![] bcast_S_S100000 : (⟨S_, .f32⟩ : BufTy).Contents (Elt F) → (⟨S100000, .f32⟩ : BufTy).Contents (Elt F)),
    unary main_v3 main_v317 (broadcastInDim S1600000x1 ![0] bcast_S1600000_S1600000x1_0 : (⟨S1600000, .i32⟩ : BufTy).Contents (Elt F) → (⟨S1600000x1, .i32⟩ : BufTy).Contents (Elt F)),
    ternary main_v316 main_v317 main_v309 main_v318 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_61 (constant S_ .f32 0x3F800000#32),
    TRef.unary (TRef.of (T := ⟨S_, .f32⟩) main_cst_61) (TRef.of (T := ⟨S_, .f32⟩) main_call15_v0) id,
    TRef.unary (TRef.of (T := ⟨S_, .f32⟩) main_call15_v0) (TRef.of (T := ⟨S100000, .f32⟩) main_call15_v1) (broadcastInDim S100000 ![] bcast_S_S100000),
    TRef.binary (TRef.of (T := ⟨S100000, .f32⟩) main_call15_v1) (TRef.of (T := ⟨S100000, .f32⟩) main_v318) (TRef.of (T := ⟨S100000, .f32⟩) main_v319) maximumf,
    unary main_v319 main_v320 (broadcastInDim S100000x1 ![0] bcast_S100000_S100000x1_0 : (⟨S100000, .f32⟩ : BufTy).Contents (Elt F) → (⟨S100000x1, .f32⟩ : BufTy).Contents (Elt F)),
    unary main_v320 main_v321 (broadcastInDim S100000x64 ![0, 1] bcast_S100000x1_S100000x64_0_1 : (⟨S100000x1, .f32⟩ : BufTy).Contents (Elt F) → (⟨S100000x64, .f32⟩ : BufTy).Contents (Elt F)),
    binary main_v315 main_v321 main_v322 (Host.divf : (⟨S100000x64, .f32⟩ : BufTy).Contents (Elt F) → (⟨S100000x64, .f32⟩ : BufTy).Contents (Elt F) → (⟨S100000x64, .f32⟩ : BufTy).Contents (Elt F)),
    unary main_arg6 main_v323 ((extractStridedSlice S1x64x16 ![6, 0, 0] · slices_S8x64x16_S1x64x16_6_0_0) : (⟨S8x64x16, .f32⟩ : BufTy).Contents (Elt F) → (⟨S1x64x16, .f32⟩ : BufTy).Contents (Elt F)),
    reshape main_v323 main_v324 rfl shapeCasts_S1x64x16_S64x16,
    binary main_v322 main_v324 main_v325 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v306 main_v325 main_v326 (addf : (⟨S100000x16, .f32⟩ : BufTy).Contents (Elt F) → (⟨S100000x16, .f32⟩ : BufTy).Contents (Elt F) → (⟨S100000x16, .f32⟩ : BufTy).Contents (Elt F)) ]

noncomputable def wl_part17 : List (Ref sig .tc) :=
  [main_c_58, main_v307, main_v308, main_v309, main_v310, main_v311, main_v312, main_cst_59, main_v313, main_v314, main_v315, main_cst_60, main_v316, main_v317, main_v318, main_cst_61, main_call15_v0, main_call15_v1, main_v319, main_v320, main_v321, main_v322, main_v323, main_v324, main_v325, main_v326]

theorem keep_part17 (W : Valuation τ sig (Elt F)) {r : Ref sig .tc} (hr : r ∉ wl_part17) :
    after (ops_part17 : List (HloOp τ sig (Elt F))) W (Proc.devRef .tc r) = W (Proc.devRef .tc r) :=
  keep_of rfl W hr

abbrev ops_part18 : List (HloOp τ sig (Elt F)) :=
  [ nullary main_c_62 (constantI S_ 32 7#32),
    unary main_c_62 main_v327 (broadcastInDim S1600000 ![] bcast_S_S1600000 : (⟨S_, .i32⟩ : BufTy).Contents (Elt F) → (⟨S1600000, .i32⟩ : BufTy).Contents (Elt F)),
    binary main_arg2 main_v327 main_v328 (cmpi .eq : (⟨S1600000, .i32⟩ : BufTy).Contents (Elt F) → (⟨S1600000, .i32⟩ : BufTy).Contents (Elt F) → (⟨S1600000, .i1⟩ : BufTy).Contents (Elt F)),
    unary main_v328 main_v329 (uitofp .f32 : (⟨S1600000, .i1⟩ : BufTy).Contents (Elt F) → (⟨S1600000, .f32⟩ : BufTy).Contents (Elt F)),
    unary main_v329 main_v330 (broadcastInDim S1600000x1 ![0] bcast_S1600000_S1600000x1_0 : (⟨S1600000, .f32⟩ : BufTy).Contents (Elt F) → (⟨S1600000x1, .f32⟩ : BufTy).Contents (Elt F)),
    unary main_v330 main_v331 (broadcastInDim S1600000x64 ![0, 1] bcast_S1600000x1_S1600000x64_0_1 : (⟨S1600000x1, .f32⟩ : BufTy).Contents (Elt F) → (⟨S1600000x64, .f32⟩ : BufTy).Contents (Elt F)),
    binary main_v182 main_v331 main_v332 (mulf : (⟨S1600000x64, .f32⟩ : BufTy).Contents (Elt F) → (⟨S1600000x64, .f32⟩ : BufTy).Contents (Elt F) → (⟨S1600000x64, .f32⟩ : BufTy).Contents (Elt F)),
    nullary main_cst_63 (constant S_ .f32 0x00000000#32),
    unary main_cst_63 main_v333 (broadcastInDim S100000x64 ![] bcast_S_S100000x64 : (⟨S_, .f32⟩ : BufTy).Contents (Elt F) → (⟨S100000x64, .f32⟩ : BufTy).Contents (Elt F)),
    unary main_v3 main_v334 (broadcastInDim S1600000x1 ![0] bcast_S1600000_S1600000x1_0 : (⟨S1600000, .i32⟩ : BufTy).Contents (Elt F) → (⟨S1600000x1, .i32⟩ : BufTy).Contents (Elt F)),
    ternary main_v333 main_v334 main_v332 main_v335 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_64 (constant S_ .f32 0x00000000#32),
    unary main_cst_64 main_v336 (broadcastInDim S100000 ![] bcast_S_S100000 : (⟨S_, .f32⟩ : BufTy).Contents (Elt F) → (⟨S100000, .f32⟩ : BufTy).Contents (Elt F)),
    unary main_v3 main_v337 (broadcastInDim S1600000x1 ![0] bcast_S1600000_S1600000x1_0 : (⟨S1600000, .i32⟩ : BufTy).Contents (Elt F) → (⟨S1600000x1, .i32⟩ : BufTy).Contents (Elt F)),
    ternary main_v336 main_v337 main_v329 main_v338 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_65 (constant S_ .f32 0x3F800000#32),
    TRef.unary (TRef.of (T := ⟨S_, .f32⟩) main_cst_65) (TRef.of (T := ⟨S_, .f32⟩) main_call16_v0) id,
    TRef.unary (TRef.of (T := ⟨S_, .f32⟩) main_call16_v0) (TRef.of (T := ⟨S100000, .f32⟩) main_call16_v1) (broadcastInDim S100000 ![] bcast_S_S100000),
    TRef.binary (TRef.of (T := ⟨S100000, .f32⟩) main_call16_v1) (TRef.of (T := ⟨S100000, .f32⟩) main_v338) (TRef.of (T := ⟨S100000, .f32⟩) main_v339) maximumf,
    unary main_v339 main_v340 (broadcastInDim S100000x1 ![0] bcast_S100000_S100000x1_0 : (⟨S100000, .f32⟩ : BufTy).Contents (Elt F) → (⟨S100000x1, .f32⟩ : BufTy).Contents (Elt F)),
    unary main_v340 main_v341 (broadcastInDim S100000x64 ![0, 1] bcast_S100000x1_S100000x64_0_1 : (⟨S100000x1, .f32⟩ : BufTy).Contents (Elt F) → (⟨S100000x64, .f32⟩ : BufTy).Contents (Elt F)),
    binary main_v335 main_v341 main_v342 (Host.divf : (⟨S100000x64, .f32⟩ : BufTy).Contents (Elt F) → (⟨S100000x64, .f32⟩ : BufTy).Contents (Elt F) → (⟨S100000x64, .f32⟩ : BufTy).Contents (Elt F)),
    unary main_arg6 main_v343 ((extractStridedSlice S1x64x16 ![7, 0, 0] · slices_S8x64x16_S1x64x16_7_0_0) : (⟨S8x64x16, .f32⟩ : BufTy).Contents (Elt F) → (⟨S1x64x16, .f32⟩ : BufTy).Contents (Elt F)),
    reshape main_v343 main_v344 rfl shapeCasts_S1x64x16_S64x16,
    binary main_v342 main_v344 main_v345 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v326 main_v345 main_v346 (addf : (⟨S100000x16, .f32⟩ : BufTy).Contents (Elt F) → (⟨S100000x16, .f32⟩ : BufTy).Contents (Elt F) → (⟨S100000x16, .f32⟩ : BufTy).Contents (Elt F)) ]

noncomputable def wl_part18 : List (Ref sig .tc) :=
  [main_c_62, main_v327, main_v328, main_v329, main_v330, main_v331, main_v332, main_cst_63, main_v333, main_v334, main_v335, main_cst_64, main_v336, main_v337, main_v338, main_cst_65, main_call16_v0, main_call16_v1, main_v339, main_v340, main_v341, main_v342, main_v343, main_v344, main_v345, main_v346]

theorem keep_part18 (W : Valuation τ sig (Elt F)) {r : Ref sig .tc} (hr : r ∉ wl_part18) :
    after (ops_part18 : List (HloOp τ sig (Elt F))) W (Proc.devRef .tc r) = W (Proc.devRef .tc r) :=
  keep_of rfl W hr

abbrev ops_part19 : List (HloOp τ sig (Elt F)) :=
  [ nullary main_cst_66 (constant S_ .f32 0x00000000#32),
    binary main_v346 main_cst_66 main_v347 ((fun x v => Host.reduceAdd x v reducesTo_S100000x16_S16_d0 h_S_) : (⟨S100000x16, .f32⟩ : BufTy).Contents (Elt F) → (⟨S_, .f32⟩ : BufTy).Contents (Elt F) → (⟨S16, .f32⟩ : BufTy).Contents (Elt F)),
    unary main_v347 main_v348 (broadcastInDim S1x16 ![1] bcast_S16_S1x16_1 : (⟨S16, .f32⟩ : BufTy).Contents (Elt F) → (⟨S1x16, .f32⟩ : BufTy).Contents (Elt F)),
    nullary main_cst_67 (constant S_ .f32 0x47C35000#32),
    unary main_cst_67 main_v349 (broadcastInDim S1x16 ![] bcast_S_S1x16 : (⟨S_, .f32⟩ : BufTy).Contents (Elt F) → (⟨S1x16, .f32⟩ : BufTy).Contents (Elt F)),
    binary main_v348 main_v349 main_v350 (Host.divf : (⟨S1x16, .f32⟩ : BufTy).Contents (Elt F) → (⟨S1x16, .f32⟩ : BufTy).Contents (Elt F) → (⟨S1x16, .f32⟩ : BufTy).Contents (Elt F)),
    TRef.nullary (TRef.of (T := ⟨S_, .f32⟩) main_call17_cst) (constant S_ .f32 0xFF800000#32),
    TRef.binary (TRef.of (T := ⟨S1x16, .f32⟩) main_v350) (TRef.of (T := ⟨S_, .f32⟩) main_call17_cst) (TRef.of (T := ⟨S1, .f32⟩) main_call17_v0) (fun x v => Host.reduce FloatOps.maximumf x v reducesTo_S1x16_S1_d1 h_S_),
    TRef.nullary (TRef.of (T := ⟨S_, .f32⟩) main_call17_cst_0) (constant S_ .f32 0xFF800000#32),
    TRef.unary (TRef.of (T := ⟨S_, .f32⟩) main_call17_cst_0) (TRef.of (T := ⟨S1, .f32⟩) main_call17_v1) (broadcastInDim S1 ![] bcast_S_S1),
    TRef.binary (TRef.of (T := ⟨S1, .f32⟩) main_call17_v1) (TRef.of (T := ⟨S1, .f32⟩) main_call17_v0) (TRef.of (T := ⟨S1, .f32⟩) main_call17_v2) maximumf,
    TRef.unary (TRef.of (T := ⟨S1, .f32⟩) main_call17_v2) (TRef.of (T := ⟨S1x1, .f32⟩) main_call17_v3) (broadcastInDim S1x1 ![0] bcast_S1_S1x1_0),
    TRef.unary (TRef.of (T := ⟨S1x1, .f32⟩) main_call17_v3) (TRef.of (T := ⟨S1x16, .f32⟩) main_call17_v4) (broadcastInDim S1x16 ![0, 1] bcast_S1x1_S1x16_0_1),
    TRef.binary (TRef.of (T := ⟨S1x16, .f32⟩) main_v350) (TRef.of (T := ⟨S1x16, .f32⟩) main_call17_v4) (TRef.of (T := ⟨S1x16, .f32⟩) main_call17_v5) subf,
    TRef.unary (TRef.of (T := ⟨S1x16, .f32⟩) main_call17_v5) (TRef.of (T := ⟨S1x16, .f32⟩) main_call17_v6) Host.exp,
    TRef.nullary (TRef.of (T := ⟨S_, .f32⟩) main_call17_cst_1) (constant S_ .f32 0x00000000#32),
    TRef.binary (TRef.of (T := ⟨S1x16, .f32⟩) main_call17_v6) (TRef.of (T := ⟨S_, .f32⟩) main_call17_cst_1) (TRef.of (T := ⟨S1, .f32⟩) main_call17_v7) (fun x v => Host.reduceAdd x v reducesTo_S1x16_S1_d1 h_S_),
    TRef.unary (TRef.of (T := ⟨S1, .f32⟩) main_call17_v7) (TRef.of (T := ⟨S1x1, .f32⟩) main_call17_v8) (broadcastInDim S1x1 ![0] bcast_S1_S1x1_0),
    TRef.unary (TRef.of (T := ⟨S1x1, .f32⟩) main_call17_v8) (TRef.of (T := ⟨S1x1, .f32⟩) main_call17_v9) Host.log,
    TRef.unary (TRef.of (T := ⟨S1x1, .f32⟩) main_call17_v9) (TRef.of (T := ⟨S1x16, .f32⟩) main_call17_v10) (broadcastInDim S1x16 ![0, 1] bcast_S1x1_S1x16_0_1),
    TRef.binary (TRef.of (T := ⟨S1x16, .f32⟩) main_call17_v5) (TRef.of (T := ⟨S1x16, .f32⟩) main_call17_v10) (TRef.of (T := ⟨S1x16, .f32⟩) main_v351) subf ]

noncomputable def wl_part19 : List (Ref sig .tc) :=
  [main_cst_66, main_v347, main_v348, main_cst_67, main_v349, main_v350, main_call17_cst, main_call17_v0, main_call17_cst_0, main_call17_v1, main_call17_v2, main_call17_v3, main_call17_v4, main_call17_v5, main_call17_v6, main_call17_cst_1, main_call17_v7, main_call17_v8, main_call17_v9, main_call17_v10, main_v351]

theorem keep_part19 (W : Valuation τ sig (Elt F)) {r : Ref sig .tc} (hr : r ∉ wl_part19) :
    after (ops_part19 : List (HloOp τ sig (Elt F))) W (Proc.devRef .tc r) = W (Proc.devRef .tc r) :=
  keep_of rfl W hr

abbrev ops : List (HloOp τ sig (Elt F)) :=
  ops_part1 ++ (ops_part2 ++ (ops_part3 ++ (ops_part4 ++ (ops_part5 ++ (ops_part6 ++ (ops_part7 ++ (ops_part8 ++ (ops_part9 ++ (ops_part10 ++ (ops_part11 ++ (ops_part12 ++ (ops_part13 ++ (ops_part14 ++ (ops_part15 ++ (ops_part16 ++ (ops_part17 ++ (ops_part18 ++ (ops_part19))))))))))))))))))

theorem main_eq (c : Dev nD) : main (F := F) c = seq ops := by chain_rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., reshape_bufs_sub .., binary_bufs_sub .., binary_bufs_sub .., nullary_bufs_sub .., binary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ops_fresh : ∀ op ∈ (ops : List (HloOp τ sig (Elt F))), op.fresh = ∅ :=
  List.map_inj_left.mp rfl

end Cert.ReferenceIdeal.Hand

end
-- ==== Proof.RefRun.lean ====
import proofs.«409165_j17514876633598_2_alg».proof.Proof.RefRead
import proofs.«409165_j17514876633598_2_alg».proof.Proof.RefOps

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F] (W : Valuation τ sig (Elt F))
  (x0 : (⟨S100000x64, .f32⟩ : BufTy).Contents (Elt F)) (x1 : (⟨S2x1600000, .i32⟩ : BufTy).Contents (Elt F))
  (x2 : (⟨S1600000, .i32⟩ : BufTy).Contents (Elt F)) (x3 : (⟨S8x64x64, .f32⟩ : BufTy).Contents (Elt F))
  (x4 : (⟨S64x64, .f32⟩ : BufTy).Contents (Elt F)) (x5 : (⟨S64, .f32⟩ : BufTy).Contents (Elt F))
  (x6 : (⟨S8x64x16, .f32⟩ : BufTy).Contents (Elt F)) (x7 : (⟨S64x16, .f32⟩ : BufTy).Contents (Elt F))
  (x8 : (⟨S16, .f32⟩ : BufTy).Contents (Elt F))

structure Args : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8

noncomputable def argRefs : List (Ref sig .tc) :=
  [main_arg0, main_arg1, main_arg2, main_arg3, main_arg4, main_arg5, main_arg6, main_arg7, main_arg8]

-- The arguments, both edge-index rows, the gathered rows `g` of the layer and the layer's running sum `r`.
structure St (g : Ref sig .tc) (gv : g.ty.Contents (Elt F)) (r : Ref sig .tc) (v : r.ty.Contents (Elt F)) : Prop where
  args : Args W x0 x1 x2 x3 x4 x5 x6 x7 x8
  h1 : W (Proc.devRef .tc main_v1) = val_main_v1 x1
  h3 : W (Proc.devRef .tc main_v3) = val_main_v3 x1
  hg : W (Proc.devRef .tc g) = gv
  acc : W (Proc.devRef .tc r) = v

-- The first layer gathers rows of the argument `x0`, the second rows of the first layer's activated sum.
abbrev L1 := St W x0 x1 x2 x3 x4 x5 x6 x7 x8 main_v10 (val_main_v10 x0 x1)
abbrev L2 := St W x0 x1 x2 x3 x4 x5 x6 x7 x8 main_v182 (val_main_v182 x0 x1 x2 x3 x4 x5)

variable {W x0 x1 x2 x3 x4 x5 x6 x7 x8} {os : List (HloOp τ sig (Elt F))} {wl : List (Ref sig .tc)}

-- Operations that write no argument keep the arguments.
theorem Args.keep (h : Args W x0 x1 x2 x3 x4 x5 x6 x7 x8)
    (k : ∀ {b : Ref sig .tc}, b ∉ wl → after os W (Proc.devRef .tc b) = W (Proc.devRef .tc b)) (hd : ∀ b ∈ argRefs, b ∉ wl) :
    Args (after os W) x0 x1 x2 x3 x4 x5 x6 x7 x8 :=
  ⟨(k (hd _ (by decide))).trans h.a0, (k (hd _ (by decide))).trans h.a1, (k (hd _ (by decide))).trans h.a2,
   (k (hd _ (by decide))).trans h.a3, (k (hd _ (by decide))).trans h.a4, (k (hd _ (by decide))).trans h.a5,
   (k (hd _ (by decide))).trans h.a6, (k (hd _ (by decide))).trans h.a7, (k (hd _ (by decide))).trans h.a8⟩

-- Operations that write none of the carried buffers keep them; the running sum moves to the buffer they compute.
theorem St.step {g r r' : Ref sig .tc} {gv v v'} (h : St W x0 x1 x2 x3 x4 x5 x6 x7 x8 g gv r v)
    (k : ∀ {b : Ref sig .tc}, b ∉ wl → after os W (Proc.devRef .tc b) = W (Proc.devRef .tc b))
    (hd : ∀ b ∈ argRefs ++ [main_v1, main_v3, g], b ∉ wl) (hv : after os W (Proc.devRef .tc r') = v') :
    St (after os W) x0 x1 x2 x3 x4 x5 x6 x7 x8 g gv r' v' :=
  ⟨h.args.keep k fun b hb => hd b (List.mem_append_left _ hb), (k (hd _ (by simp))).trans h.h1,
   (k (hd _ (by simp))).trans h.h3, (k (hd _ (by simp))).trans h.hg, hv⟩

theorem step1 (h : Args W x0 x1 x2 x3 x4 x5 x6 x7 x8) :
    L1 (after ops_part1 W) x0 x1 x2 x3 x4 x5 x6 x7 x8 main_v14 (val_main_v14 x0 x4 x5) :=
  ⟨h.keep (keep_part1 W) (by decide), by after_results_simp; rw [h.a1]; rfl, by after_results_simp; rw [h.a1]; rfl,
   by after_results_simp; rw [h.a1, h.a0]; rfl, by after_results_simp; rw [h.a5, h.a4, h.a0]; rfl⟩

theorem step2 (h : L1 W x0 x1 x2 x3 x4 x5 x6 x7 x8 main_v14 (val_main_v14 x0 x4 x5)) :
    L1 (after ops_part2 W) x0 x1 x2 x3 x4 x5 x6 x7 x8 main_v34 (val_main_v34 x0 x1 x2 x3 x4 x5) :=
  h.step (keep_part2 W) (by decide) (by after_results_simp; rw [h.args.a3, h.args.a2, h.h3, h.hg, h.acc]; rfl)

theorem step3 (h : L1 W x0 x1 x2 x3 x4 x5 x6 x7 x8 main_v34 (val_main_v34 x0 x1 x2 x3 x4 x5)) :
    L1 (after ops_part3 W) x0 x1 x2 x3 x4 x5 x6 x7 x8 main_v54 (val_main_v54 x0 x1 x2 x3 x4 x5) :=
  h.step (keep_part3 W) (by decide) (by after_results_simp; rw [h.args.a3, h.args.a2, h.h3, h.hg, h.acc]; rfl)

theorem step4 (h : L1 W x0 x1 x2 x3 x4 x5 x6 x7 x8 main_v54 (val_main_v54 x0 x1 x2 x3 x4 x5)) :
    L1 (after ops_part4 W) x0 x1 x2 x3 x4 x5 x6 x7 x8 main_v74 (val_main_v74 x0 x1 x2 x3 x4 x5) :=
  h.step (keep_part4 W) (by decide) (by after_results_simp; rw [h.args.a3, h.args.a2, h.h3, h.hg, h.acc]; rfl)

theorem step5 (h : L1 W x0 x1 x2 x3 x4 x5 x6 x7 x8 main_v74 (val_main_v74 x0 x1 x2 x3 x4 x5)) :
    L1 (after ops_part5 W) x0 x1 x2 x3 x4 x5 x6 x7 x8 main_v94 (val_main_v94 x0 x1 x2 x3 x4 x5) :=
  h.step (keep_part5 W) (by decide) (by after_results_simp; rw [h.args.a3, h.args.a2, h.h3, h.hg, h.acc]; rfl)

theorem step6 (h : L1 W x0 x1 x2 x3 x4 x5 x6 x7 x8 main_v94 (val_main_v94 x0 x1 x2 x3 x4 x5)) :
    L1 (after ops_part6 W) x0 x1 x2 x3 x4 x5 x6 x7 x8 main_v114 (val_main_v114 x0 x1 x2 x3 x4 x5) :=
  h.step (keep_part6 W) (by decide) (by after_results_simp; rw [h.args.a3, h.args.a2, h.h3, h.hg, h.acc]; rfl)

theorem step7 (h : L1 W x0 x1 x2 x3 x4 x5 x6 x7 x8 main_v114 (val_main_v114 x0 x1 x2 x3 x4 x5)) :
    L1 (after ops_part7 W) x0 x1 x2 x3 x4 x5 x6 x7 x8 main_v134 (val_main_v134 x0 x1 x2 x3 x4 x5) :=
  h.step (keep_part7 W) (by decide) (by after_results_simp; rw [h.args.a3, h.args.a2, h.h3, h.hg, h.acc]; rfl)

theorem step8 (h : L1 W x0 x1 x2 x3 x4 x5 x6 x7 x8 main_v134 (val_main_v134 x0 x1 x2 x3 x4 x5)) :
    L1 (after ops_part8 W) x0 x1 x2 x3 x4 x5 x6 x7 x8 main_v154 (val_main_v154 x0 x1 x2 x3 x4 x5) :=
  h.step (keep_part8 W) (by decide) (by after_results_simp; rw [h.args.a3, h.args.a2, h.h3, h.hg, h.acc]; rfl)

theorem step9 (h : L1 W x0 x1 x2 x3 x4 x5 x6 x7 x8 main_v154 (val_main_v154 x0 x1 x2 x3 x4 x5)) :
    L1 (after ops_part9 W) x0 x1 x2 x3 x4 x5 x6 x7 x8 main_v174 (val_main_v174 x0 x1 x2 x3 x4 x5) :=
  h.step (keep_part9 W) (by decide) (by after_results_simp; rw [h.args.a3, h.args.a2, h.h3, h.hg, h.acc]; rfl)

theorem step10 (h : L1 W x0 x1 x2 x3 x4 x5 x6 x7 x8 main_v174 (val_main_v174 x0 x1 x2 x3 x4 x5)) :
    L2 (after ops_part10 W) x0 x1 x2 x3 x4 x5 x6 x7 x8 main_v186 (val_main_v186 x0 x1 x2 x3 x4 x5 x7 x8) :=
  ⟨h.args.keep (keep_part10 W) (by decide), (keep_part10 W (by decide)).trans h.h1, (keep_part10 W (by decide)).trans h.h3,
   by after_results_simp; rw [h.h1, h.acc]; rfl, by after_results_simp; rw [h.args.a8, h.args.a7, h.acc]; rfl⟩

theorem step11 (h : L2 W x0 x1 x2 x3 x4 x5 x6 x7 x8 main_v186 (val_main_v186 x0 x1 x2 x3 x4 x5 x7 x8)) :
    L2 (after ops_part11 W) x0 x1 x2 x3 x4 x5 x6 x7 x8 main_v206 (val_main_v206 x0 x1 x2 x3 x4 x5 x6 x7 x8) :=
  h.step (keep_part11 W) (by decide) (by after_results_simp; rw [h.args.a6, h.args.a2, h.h3, h.hg, h.acc]; rfl)

theorem step12 (h : L2 W x0 x1 x2 x3 x4 x5 x6 x7 x8 main_v206 (val_main_v206 x0 x1 x2 x3 x4 x5 x6 x7 x8)) :
    L2 (after ops_part12 W) x0 x1 x2 x3 x4 x5 x6 x7 x8 main_v226 (val_main_v226 x0 x1 x2 x3 x4 x5 x6 x7 x8) :=
  h.step (keep_part12 W) (by decide) (by after_results_simp; rw [h.args.a6, h.args.a2, h.h3, h.hg, h.acc]; rfl)

theorem step13 (h : L2 W x0 x1 x2 x3 x4 x5 x6 x7 x8 main_v226 (val_main_v226 x0 x1 x2 x3 x4 x5 x6 x7 x8)) :
    L2 (after ops_part13 W) x0 x1 x2 x3 x4 x5 x6 x7 x8 main_v246 (val_main_v246 x0 x1 x2 x3 x4 x5 x6 x7 x8) :=
  h.step (keep_part13 W) (by decide) (by after_results_simp; rw [h.args.a6, h.args.a2, h.h3, h.hg, h.acc]; rfl)

theorem step14 (h : L2 W x0 x1 x2 x3 x4 x5 x6 x7 x8 main_v246 (val_main_v246 x0 x1 x2 x3 x4 x5 x6 x7 x8)) :
    L2 (after ops_part14 W) x0 x1 x2 x3 x4 x5 x6 x7 x8 main_v266 (val_main_v266 x0 x1 x2 x3 x4 x5 x6 x7 x8) :=
  h.step (keep_part14 W) (by decide) (by after_results_simp; rw [h.args.a6, h.args.a2, h.h3, h.hg, h.acc]; rfl)

theorem step15 (h : L2 W x0 x1 x2 x3 x4 x5 x6 x7 x8 main_v266 (val_main_v266 x0 x1 x2 x3 x4 x5 x6 x7 x8)) :
    L2 (after ops_part15 W) x0 x1 x2 x3 x4 x5 x6 x7 x8 main_v286 (val_main_v286 x0 x1 x2 x3 x4 x5 x6 x7 x8) :=
  h.step (keep_part15 W) (by decide) (by after_results_simp; rw [h.args.a6, h.args.a2, h.h3, h.hg, h.acc]; rfl)

theorem step16 (h : L2 W x0 x1 x2 x3 x4 x5 x6 x7 x8 main_v286 (val_main_v286 x0 x1 x2 x3 x4 x5 x6 x7 x8)) :
    L2 (after ops_part16 W) x0 x1 x2 x3 x4 x5 x6 x7 x8 main_v306 (val_main_v306 x0 x1 x2 x3 x4 x5 x6 x7 x8) :=
  h.step (keep_part16 W) (by decide) (by after_results_simp; rw [h.args.a6, h.args.a2, h.h3, h.hg, h.acc]; rfl)

theorem step17 (h : L2 W x0 x1 x2 x3 x4 x5 x6 x7 x8 main_v306 (val_main_v306 x0 x1 x2 x3 x4 x5 x6 x7 x8)) :
    L2 (after ops_part17 W) x0 x1 x2 x3 x4 x5 x6 x7 x8 main_v326 (val_main_v326 x0 x1 x2 x3 x4 x5 x6 x7 x8) :=
  h.step (keep_part17 W) (by decide) (by after_results_simp; rw [h.args.a6, h.args.a2, h.h3, h.hg, h.acc]; rfl)

theorem step18 (h : L2 W x0 x1 x2 x3 x4 x5 x6 x7 x8 main_v326 (val_main_v326 x0 x1 x2 x3 x4 x5 x6 x7 x8)) :
    L2 (after ops_part18 W) x0 x1 x2 x3 x4 x5 x6 x7 x8 main_v346 (val_main_v346 x0 x1 x2 x3 x4 x5 x6 x7 x8) :=
  h.step (keep_part18 W) (by decide) (by after_results_simp; rw [h.args.a6, h.args.a2, h.h3, h.hg, h.acc]; rfl)

theorem step19 (h : L2 W x0 x1 x2 x3 x4 x5 x6 x7 x8 main_v346 (val_main_v346 x0 x1 x2 x3 x4 x5 x6 x7 x8)) :
    L2 (after ops_part19 W) x0 x1 x2 x3 x4 x5 x6 x7 x8 main_v351 (val_main_v351 x0 x1 x2 x3 x4 x5 x6 x7 x8) :=
  h.step (keep_part19 W) (by decide) (by after_results_simp; rw [h.acc]; rfl)

theorem after_ops {V : Valuation τ sig (Elt F)} (h : Args V x0 x1 x2 x3 x4 x5 x6 x7 x8) :
    L2 (after ops V) x0 x1 x2 x3 x4 x5 x6 x7 x8 main_v351 (val_main_v351 x0 x1 x2 x3 x4 x5 x6 x7 x8) := by
  simp only [ops, StableHlo.after_append]
  exact step19 (step18 (step17 (step16 (step15 (step14 (step13 (step12 (step11 (step10 (step9 (step8 (step7 (step6 (step5 (step4 (step3 (step2 (step1 h))))))))))))))))))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v351)
        = Cert.ReferenceIdeal.ReadP.val_main_v351 (F := F) (m ((c.tc : Thread nD τ).loc main_arg0))
            (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => by
      have hS := after_ops (V := launchContents m c) ⟨rfl, rfl, rfl, rfl, rfl, rfl, rfl, rfl, rfl⟩
      exact ⟨(h c main_v351).trans hS.acc, (h c main_arg0).trans hS.args.a0, (h c main_arg1).trans hS.args.a1,
        (h c main_arg2).trans hS.args.a2, (h c main_arg3).trans hS.args.a3, (h c main_arg4).trans hS.args.a4,
        (h c main_arg5).trans hS.args.a5, (h c main_arg6).trans hS.args.a6, (h c main_arg7).trans hS.args.a7,
        (h c main_arg8).trans hS.args.a8⟩)
    (run_seq scopedRefs_eq scopedSems_eq defs main (fun _ => ops) main_eq (fun _ => ops_sub) m ρ (fun _ => ops_fresh))

end Cert.ReferenceIdeal.Hand

end
-- ==== Proof.RefVal.lean ====
import proofs.«409165_j17514876633598_2_alg».proof.Proof.RefRead
import proofs.«409165_j17514876633598_2_alg».proof.Proof.SpecArr
import proofs.«409165_j17514876633598_2_alg».proof.Proof.Algebra
import proofs.«409165_j17514876633598_2_alg».proof.Proof.LibSegNorm
import proofs.«409165_j17514876633598_2_alg».proof.Proof.LibGather
import proofs.«409165_j17514876633598_2_alg».proof.Proof.LibScatter
import Idealize.ShloMosaic.Lib.StackMember
import Idealize.ShloMosaic.Lib.ValueIdxRank1
import Idealize.ShloMosaic.Lib.IdealHost
import Idealize.ShloMosaic.Lib.StableHlo.Predicate

noncomputable section

namespace Cert.ReferenceIdeal.Hand

open Cert.ReferenceIdeal Cert.ReferenceIdeal.Gen Cert.ReferenceIdeal.ReadP Idealize.ShloMosaic Idealize.ShloMosaic.ValueIdx
open Cert.Proof Cert.SpecArr

variable (x0 : FVec Ideal S100000x64 .f32) (x1 : IVec S2x1600000 32) (x2 : IVec S1600000 32)
  (x3 : FVec Ideal S8x64x64 .f32) (x4 : FVec Ideal S64x64 .f32) (x5 : FVec Ideal S64 .f32)
  (x6 : FVec Ideal S8x64x16 .f32) (x7 : FVec Ideal S64x16 .f32) (x8 : FVec Ideal S16 .f32)

-- A coordinate below n is itself, and is 0 when n = 1.
theorem unit_coord {n k : Nat} (h : k < n) : k = if n = 1 then 0 else k := by
  split <;> omega

section Reads
variable {α : Type}

theorem bc_col {n : Nat} (h : (⟨1, ![n]⟩ : Shape).BroadcastsInDim ⟨2, ![n, 1]⟩ ![0])
    (y : (⟨1, ![n]⟩ : Shape).Idx → α) (i : (⟨2, ![n, 1]⟩ : Shape).Idx) :
    broadcastInDim _ ![0] h y i = y (ix1 (i 0)) :=
  broadcastInDim_apply _ h y i _ fun a => match a with
    | ⟨0, _⟩ => unit_coord (i 0).isLt

theorem bc_row {n C : Nat} (h : (⟨2, ![n, 1]⟩ : Shape).BroadcastsInDim ⟨2, ![n, C]⟩ ![0, 1])
    (y : (⟨2, ![n, 1]⟩ : Shape).Idx → α) (e : Fin n) (f : Fin C) :
    broadcastInDim _ ![0, 1] h y (ix2 e f) = y (ix2 e 0) :=
  broadcastInDim_apply _ h y _ _ fun a => match a with
    | ⟨0, _⟩ => unit_coord e.isLt
    | ⟨1, _⟩ => (if_pos rfl).symm

theorem bc_lead {C : Nat} (h : (⟨1, ![C]⟩ : Shape).BroadcastsInDim ⟨2, ![1, C]⟩ ![1])
    (y : (⟨1, ![C]⟩ : Shape).Idx → α) (a : Fin 1) (o : Fin C) :
    broadcastInDim _ ![1] h y (ix2 a o) = y (ix1 o) :=
  broadcastInDim_apply _ h y _ _ fun a => match a with
    | ⟨0, _⟩ => unit_coord o.isLt

-- Row r of the two-row edge array, reshaped to a vector, read at edge e.
theorem col_read (x : S2x1600000.Idx → α) (r : Fin 2) (hs : S2x1600000.Slices ![r.val, 0] S1x1600000) (e : Fin 1600000) :
    shapeCast S1600000 (extractStridedSlice S1x1600000 ![r.val, 0] x hs) shapeCasts_S1x1600000_S1600000 (ix1 e)
      = x (ix2 r e) :=
  (shapeCast_apply _ _ (ix1 e) (ix2 0 e) (by
    rw [Shape.rowMajor_val_two, Shape.rowMajor_val_one]
    show 0 * 1600000 + e.val = e.val
    omega)).trans
    (extractStridedSlice_apply _ x hs _ _ fun a => match a with
      | ⟨0, _⟩ => rfl
      | ⟨1, _⟩ => (Nat.zero_add _).symm)

end Reads

theorem src_word (G : Graph x1 x2) (e : Fin 1600000) :
    val_main_v1 (F := Ideal) x1 (ix1 e) = BitVec.ofNat 32 (G.src e).val :=
  (col_read x1 0 _ e).trans (G.hsrc e)

theorem dst_word (G : Graph x1 x2) (e : Fin 1600000) :
    val_main_v3 (F := Ideal) x1 (ix1 e) = BitVec.ofNat 32 (G.dst e).val :=
  (col_read x1 1 _ e).trans (G.hdst e)

theorem node_toInt (n : Fin 100000) : (BitVec.ofNat 32 n.val).toInt = n.val :=
  StableHlo.Predicate.toInt_ofNat_small n.val (by have := n.isLt; omega)

-- A source is not negative, so the choice between it and its shift by the number of nodes keeps it.
theorem sel_word (G : Graph x1 x2) (e : Fin 1600000) :
    val_main_v8 (F := Ideal) x1 (ix1 e) = BitVec.ofNat 32 (G.src e).val := by
  have h : IntOp.cmpi .slt (BitVec.ofNat 32 (G.src e).val) 0#32 = 0#1 := eq_zero_of_ne_one fun h => by
    rw [IntOp.cmpi_slt, node_toInt, show (0#32 : BitVec 32).toInt = 0 from rfl] at h
    omega
  show Scalar.select (IntOp.cmpi .slt (val_main_v1 (F := Ideal) x1 (ix1 e)) 0#32) _ (val_main_v1 (F := Ideal) x1 (ix1 e)) = _
  rw [src_word x1 x2 G e, h, select_zero]

theorem gather_src (G : Graph x1 x2) (z : FVec Ideal S100000x64 .f32) (e : Fin 1600000) (f : Fin 64) :
    Host.gather gather_S100000x64_S1600000x1_S1600000x64_1_0_n_n_0_1_164 z (val_main_v9 (F := Ideal) x1) (ix2 e f)
      = z (ix2 (G.src e) f) := by
  refine (Cert.LibGather.gather_row_apply (N := 100000) (by norm_num)
    gather_S100000x64_S1600000x1_S1600000x64_1_0_n_n_0_1_164_wf z _ e f).trans (congrArg (fun k => z (ix2 k f)) (Fin.ext ?_))
  show min (val_main_v9 (F := Ideal) x1 (ix2 e 0)).toInt.toNat (100000 - 1) = _
  rw [val_main_v9, bc_col, sel_word x1 x2 G e, node_toInt, Int.toNat_natCast]
  have := (G.src e).isLt
  omega

theorem mask_read (G : Graph x1 x2) (r : Fin 8) (e : Fin 1600000) :
    relMask (F := Ideal) x2 (BitVec.ofNat 32 r.val) (ix1 e) = if G.et e = r then (1 : EReal) else 0 := by
  show (((IntOp.cmpi .eq (x2 (ix1 e)) (BitVec.ofNat 32 r.val)).toNat : ℝ) : EReal) = _
  rw [G.het e]
  by_cases h : G.et e = r
  · rw [if_pos h, h, IntOp.cmpi_eq.mpr rfl]
    simp
  · have h0 : IntOp.cmpi .eq (BitVec.ofNat 32 (G.et e).val) (BitVec.ofNat 32 r.val) = 0#1 :=
      eq_zero_of_ne_one fun h1 => h (Fin.ext (by
        have h' := congrArg BitVec.toNat (IntOp.cmpi_eq.mp h1)
        rw [BitVec.toNat_ofNat, BitVec.toNat_ofNat] at h'
        have := (G.et e).isLt
        have := r.isLt
        omega))
    rw [if_neg h, h0]
    simp

-- The word of the destination column at an edge, read signed, is a node exactly when the edge ends there.
theorem dst_iff (G : Graph x1 x2) (i : S1600000x1.Idx) (n : Fin 100000) :
    (val_main_v22 (F := Ideal) x1 i).toInt = (n.val : Int) ↔ G.dst (i 0) = n := by
  rw [show (val_main_v22 (F := Ideal) x1 i).toInt = ((G.dst (i 0)).val : Int) from
    (congrArg BitVec.toInt ((bc_col _ _ i).trans (dst_word x1 x2 G (i 0)))).trans (node_toInt _)]
  exact ⟨fun h => Fin.ext (by exact_mod_cast h), fun h => by rw [h]⟩

theorem rowScatter_read (G : Graph x1 x2) (a : FVec Ideal S100000x64 .f32) (upd : FVec Ideal S1600000x64 .f32)
    (n : Fin 100000) (f : Fin 64) :
    Host.scatterAdd (F := Ideal) scatter_S100000x64_S1600000x1_S1600000x64_1_0_0_1 a (val_main_v22 (F := Ideal) x1) upd (ix2 n f)
      = a (ix2 n f) + ∑ e : Fin 1600000, if G.dst e = n then upd (ix2 e f) else 0 := by
  refine (Cert.LibScatter.scatterAdd_row_apply (N := 100000) (R := 1600000) (C := 64)
    scatter_S100000x64_S1600000x1_S1600000x64_1_0_0_1_wf a _ upd n f).trans ?_
  rw [Finset.sum_filter]
  exact congrArg (a (ix2 n f) + ·) (Finset.sum_congr rfl fun e _ => if_congr (dst_iff x1 x2 G _ n) rfl rfl)

theorem vecScatter_read (G : Graph x1 x2) (a : FVec Ideal S100000 .f32) (upd : FVec Ideal S1600000 .f32) (n : Fin 100000) :
    Host.scatterAdd (F := Ideal) scatter_S100000_S1600000x1_S1600000_n_0_0_1 a (val_main_v22 (F := Ideal) x1) upd (ix1 n)
      = a (ix1 n) + ∑ e : Fin 1600000, if G.dst e = n then upd (ix1 e) else 0 := by
  show a (ix1 n) + ∑ j ∈ Finset.univ.filter _, upd j = _
  rw [Finset.sum_filter]
  refine congrArg (a (ix1 n) + ·) (Fintype.sum_equiv idxEquiv1.symm
    (fun e : Fin 1600000 => if G.dst e = n then upd (ix1 e) else 0) _ fun e => if_congr ?_ rfl rfl).symm
  exact ((SegNorm.vecScatter_resultIdx (N := 100000) (E := 1600000)
    scatter_S100000_S1600000x1_S1600000_n_0_0_1_wf _ (ix1 e) (ix1 n)).trans (dst_iff x1 x2 G _ n)).symm

theorem nbrMean_read (G : Graph x1 x2) (z : FVec Ideal S100000x64 .f32) (r : Fin 8) (n : Fin 100000) (f : Fin 64) :
    nbrMean (F := Ideal) x1 x2 (Host.gather gather_S100000x64_S1600000x1_S1600000x64_1_0_n_n_0_1_164 z (val_main_v9 (F := Ideal) x1))
        (BitVec.ofNat 32 r.val) (ix2 n f) = Cert.Spec.mean G.src G.dst G.et (mat2 z) n r f := by
  rw [nbrMean, hostDivf_apply, rowScatter_read x1 x2 G, broadcastInDim_scalar_apply, constant_apply, bc_row, bc_col,
    maximumf_apply, broadcastInDim_scalar_apply, vecScatter_read x1 x2 G, broadcastInDim_scalar_apply, constant_apply, id_eq, constant_apply, Ideal.ofBits_zero_f32, Ideal.ofBits_one_f32, zero_add, zero_add]
  refine (congrArg₂ Ideal.div (Finset.sum_congr rfl fun e _ => ?_)
    (congrArg (max 1) (Finset.sum_congr rfl fun e _ => ?_))).trans (Cert.Algebra.masked_mean G.src G.dst G.et (mat2 z) n r f)
  · rw [mulf_apply, gather_src x1 x2 G, bc_row, bc_col, mask_read x1 x2 G]
    rfl
  · rw [mask_read x1 x2 G]

section Layer
variable {C : Nat} (w : FVec Ideal ⟨3, ![8, 64, C]⟩ .f32)
  (hs : ∀ r : Fin 8, (⟨3, ![8, 64, C]⟩ : Shape).Slices ![r.val, 0, 0] ⟨3, ![1, 64, C]⟩)
  (hc : (⟨3, ![1, 64, C]⟩ : Shape).ShapeCasts ⟨2, ![64, C]⟩)

theorem slice_read (r : Fin 8) (f : Fin 64) (o : Fin C) :
    shapeCast _ (extractStridedSlice ⟨3, ![1, 64, C]⟩ ![r.val, 0, 0] w (hs r)) hc (ix2 f o) = ten3 w r f o :=
  (shapeCast_apply _ hc (ix2 f o) (ix3 0 f o) (by
    rw [Shape.rowMajor_val_three, Shape.rowMajor_val_two]
    show (0 * 64 + f.val) * C + o.val = f.val * C + o.val
    rw [Nat.zero_mul, Nat.zero_add])).trans
    (extractStridedSlice_apply _ w (hs r) _ (ix3 r f o) fun a => match a with
      | ⟨0, _⟩ => rfl
      | ⟨1, _⟩ => by show f.val = 0 + f.val; omega
      | ⟨2, _⟩ => by show o.val = 0 + o.val; omega)

-- The neighbourhood means of relation r, of the rows of z at the sources, times slice r of the weights.
def relAt (z : FVec Ideal S100000x64 .f32) (r : Fin 8) : FVec Ideal ⟨2, ![100000, C]⟩ .f32 :=
  relTerm (F := Ideal) x1 x2 (DotDims.plain 100000 64 C) w ![r.val, 0, 0] (hs r) hc
    (Host.gather gather_S100000x64_S1600000x1_S1600000x64_1_0_n_n_0_1_164 z (val_main_v9 (F := Ideal) x1)) (BitVec.ofNat 32 r.val)

theorem relAt_read (G : Graph x1 x2) (z : FVec Ideal S100000x64 .f32) (r : Fin 8) (n : Fin 100000) (o : Fin C) :
    relAt x1 x2 w hs hc z r (ix2 n o) = ∑ f, Cert.Spec.mean G.src G.dst G.et (mat2 z) n r f * ten3 w r f o := by
  refine (StackMember.dotGeneral_plain_apply none _ _ n o).trans (Finset.sum_congr rfl fun f _ => ?_)
  rw [nbrMean_read x1 x2 G, slice_read]

-- The root product, the bias and the eight relation terms, added in this order, are the convolution.
theorem conv_read (G : Graph x1 x2) (z : FVec Ideal S100000x64 .f32) (root : FVec Ideal ⟨2, ![64, C]⟩ .f32)
    (b : FVec Ideal ⟨1, ![C]⟩ .f32) (h1 : (⟨1, ![C]⟩ : Shape).BroadcastsInDim ⟨2, ![1, C]⟩ ![1])
    (h2 : (⟨2, ![1, C]⟩ : Shape).BroadcastsInDim ⟨2, ![100000, C]⟩ ![0, 1]) (i : (⟨2, ![100000, C]⟩ : Shape).Idx) :
    Host.dotGeneral (DotDims.plain 100000 64 C) none z root i + broadcastInDim _ ![0, 1] h2 (broadcastInDim _ ![1] h1 b) i
      + relAt x1 x2 w hs hc z 0 i + relAt x1 x2 w hs hc z 1 i + relAt x1 x2 w hs hc z 2 i + relAt x1 x2 w hs hc z 3 i
      + relAt x1 x2 w hs hc z 4 i + relAt x1 x2 w hs hc z 5 i + relAt x1 x2 w hs hc z 6 i + relAt x1 x2 w hs hc z 7 i
      = Cert.Spec.conv G.src G.dst G.et (ten3 w) (mat2 root) (vec1 b) (mat2 z) (i 0) (i 1) := by
  obtain ⟨n, o, rfl⟩ : ∃ (n : Fin 100000) (o : Fin C), i = ix2 n o := ⟨i 0, i 1, eq_ix2 i⟩
  refine (Cert.Algebra.add_eight _ fun r => relAt x1 x2 w hs hc z r (ix2 n o)).trans ?_
  simp only [relAt_read x1 x2 w hs hc G]
  rw [StackMember.dotGeneral_plain_apply, broadcastInDim_apply _ h2 _ (ix2 n o) (ix2 0 o) fun a => match a with
      | ⟨0, _⟩ => (if_pos rfl).symm
      | ⟨1, _⟩ => unit_coord o.isLt, bc_lead]
  exact add_right_comm _ _ _

end Layer

theorem ref_h1 (G : Graph x1 x2) : val_main_v175 (F := Ideal) x0 x1 x2 x3 x4 x5 = specH1 G x0 x3 x4 x5 :=
  funext fun i => congrArg₂ max (conv_read x1 x2 x3 (by decide) shapeCasts_S1x64x64_S64x64 G x0 x4 x5 _ _ i)
    ((broadcastInDim_scalar_apply _ _ _).trans Ideal.ofBits_zero_f32)

theorem pool_read (G : Graph x1 x2) (o : Fin 16) :
    val_main_v350 (F := Ideal) x0 x1 x2 x3 x4 x5 x6 x7 x8 (ix2 (0 : Fin 1) o)
      = Cert.Spec.pool invN (Cert.Spec.conv G.src G.dst G.et (ten3 x6) (mat2 x7) (vec1 x8) (mat2 (specH1 G x0 x3 x4 x5))) o := by
  rw [val_main_v350, hostDivf_apply, bc_lead, hostReduceAdd_apply, Ideal.hostReduceAdd_single _ (by decide), constant_apply,
    Ideal.ofBits_zero_f32, zero_add, broadcastInDim_scalar_apply, constant_apply,
    show Ideal.ofBits .f32 0x47C35000#32 = ((100000 : ℝ) : EReal) by
      simp [Ideal.ofBits, Ideal.ieee, -EReal.coe_mul] <;> norm_num,
    Ideal.div_coe (by norm_num), ← ref_h1 x0 x1 x2 x3 x4 x5 G]
  exact congrArg (· * invN) (Finset.sum_congr rfl fun k _ =>
    conv_read x1 x2 x6 (by decide) shapeCasts_S1x64x16_S64x16 G _ x7 x8 _ _ _)

theorem rowMax_read (y : FVec Ideal S1x16 .f32) (j : S1.Idx) :
    max (Ideal.ofBits .f32 0xFF800000#32)
        (Host.reduce (FloatOps.maximumf (F := Ideal) (φ := .f32)) y (constant S_ .f32 0xFF800000#32) reducesTo_S1x16_S1_d1 h_S_ j)
      = Cert.Spec.rowMax fun k : Fin 16 => y (ix2 (0 : Fin 1) k) := by
  rw [Host.reduce_eq_fold_single (s := S1x16) (t := S1) (a := 1) _ y _ reducesTo_S1x16_S1_d1 (by decide) h_S_ j, constant_apply,
    show Ideal.ofBits .f32 0xFF800000#32 = (⊥ : EReal) by simp [Ideal.ofBits, Ideal.ieee], max_bot_left]
  refine congrArg (Finset.univ.fold max ⊥) (funext fun k => congrArg y (funext fun c => ?_))
  match c with
  | ⟨0, _⟩ => exact Subsingleton.elim (α := Fin 1) _ _
  | ⟨1, _⟩ => exact Fin.ext rfl

theorem shifted_read (y : FVec Ideal S1x16 .f32) (k : Fin 16) :
    shifted (F := Ideal) y (ix2 0 k) = y (ix2 0 k) - Cert.Spec.rowMax fun k => y (ix2 0 k) := by
  rw [shifted, subf_apply, bc_row, bc_col, maximumf_apply, broadcastInDim_scalar_apply, constant_apply, rowMax_read]

theorem logSoftmax_read (y : FVec Ideal S1x16 .f32) (o : Fin 16) :
    subf (F := Ideal) (shifted (F := Ideal) y) (broadcastInDim S1x16 ![0, 1] bcast_S1x1_S1x16_0_1 (Host.log (broadcastInDim S1x1 ![0] bcast_S1_S1x1_0
      (Host.reduceAdd (Host.exp (shifted (F := Ideal) y)) (constant S_ .f32 0x00000000#32) reducesTo_S1x16_S1_d1 h_S_)))) (ix2 0 o)
      = Cert.Spec.logSoftmax (Cert.Spec.rowMax fun k => y (ix2 0 k)) (fun k => y (ix2 0 k)) o := by
  rw [subf_apply, bc_row, shifted_read]
  show _ - Ideal.log (broadcastInDim (s := S1) S1x1 ![0] bcast_S1_S1x1_0 _ _) = _
  rw [bc_col, hostReduceAdd_apply, Ideal.hostReduceAdd_single _ (by decide), constant_apply, Ideal.ofBits_zero_f32, zero_add]
  refine congrArg (fun s => _ - Ideal.log s) (Finset.sum_congr rfl fun k _ => ?_)
  refine (congrArg (fun j => Ideal.exp (shifted (F := Ideal) y j)) (funext fun c => ?_)).trans (congrArg Ideal.exp (shifted_read y k))
  match c with
  | ⟨0, _⟩ => rfl
  | ⟨1, _⟩ => rfl

theorem ref_out (G : Graph x1 x2) :
    Cert.ReferenceIdeal.ReadP.val_main_v351 (F := Ideal) x0 x1 x2 x3 x4 x5 x6 x7 x8 = specOut G x0 x3 x4 x5 x6 x7 x8 := by
  funext i
  obtain ⟨a, o, rfl⟩ : ∃ (a : Fin 1) (o : Fin 16), i = ix2 a o := ⟨i 0, i 1, eq_ix2 i⟩
  obtain rfl : a = 0 := Subsingleton.elim _ _
  rw [specOut_eq, ← show (fun k : Fin 16 => val_main_v350 (F := Ideal) x0 x1 x2 x3 x4 x5 x6 x7 x8 (ix2 (0 : Fin 1) k)) = _ from
    funext (pool_read x0 x1 x2 x3 x4 x5 x6 x7 x8 G)]
  exact logSoftmax_read _ o

end Cert.ReferenceIdeal.Hand

end
-- ==== Proof.PreDecode.lean ====
import proofs.«409165_j17514876633598_2_alg».proof.Pre_finite_inputs
import proofs.«409165_j17514876633598_2_alg».proof.Proof.Gen.Pre_finite_inputs
import proofs.«409165_j17514876633598_2_alg».proof.Proof.Graph
import Idealize.ShloMosaic.PureOps.Ideal
import Idealize.ShloMosaic.Lib.ReduceAll
import Idealize.ShloMosaic.Lib.StableHlo.Predicate

noncomputable section

namespace Cert.Proof

open Idealize.ShloMosaic Idealize.ShloMosaic.ValueIdx Cert.Pre_finite_inputs

-- A word that is at least zero and below n < 2³¹ when read signed is below n when read unsigned.
private theorem toNat_lt_of_signed_range (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide] at h0
  rw [IntOp.cmpi_slt, StableHlo.Predicate.toInt_ofNat_small n hn] at h1
  have hc := BitVec.toInt_eq_toNat_cond w
  split at hc <;> omega

private theorem eq_ofNat_toNat (w : BitVec 32) : w = BitVec.ofNat 32 w.toNat :=
  BitVec.eq_of_toNat_eq (by rw [BitVec.toNat_ofNat]; exact (Nat.mod_eq_of_lt w.isLt).symm)

-- Inputs that meet the precondition describe a graph: every entry of the two integer arrays is in range.
theorem graph_of_pre [Cert.Pre_finite_inputs.Facts]
    (a0 : FVec Ideal S100000x64 .f32) (a1 : IVec S2x1600000 32) (a2 : IVec S1600000 32)
    (a3 : FVec Ideal S8x64x64 .f32) (a4 : FVec Ideal S64x64 .f32) (a5 : FVec Ideal S64 .f32)
    (a6 : FVec Ideal S8x64x16 .f32) (a7 : FVec Ideal S64x16 .f32) (a8 : FVec Ideal S16 .f32)
    (h : Cert.Pre_finite_inputs.fn (F := Ideal) a0 a1 a2 a3 a4 a5 a6 a7 a8 = fun _ => 1#1) :
    Nonempty (Graph a1 a2) := by
  have h0 := congrFun h ix0
  dsimp only [Cert.Pre_finite_inputs.fn, Cert.Pre_finite_inputs.fn_part1, Cert.Pre_finite_inputs.fn_part2, andi] at h0
  rw [IntOp.andi_eq_one, IntOp.andi_eq_one, IntOp.andi_eq_one, IntOp.andi_eq_one] at h0
  obtain ⟨⟨⟨⟨-, h36⟩, h40⟩, h44⟩, h48⟩ := h0
  have hn : ∀ i : S2x1600000.Idx, (a1 i).toNat < 100000 := fun i => toNat_lt_of_signed_range _ 100000 (by norm_num)
    (Host.reduce_andi_all _ _ _ _ _ h36 i) (Host.reduce_andi_all _ _ _ _ _ h40 i)
  have hr : ∀ i : S1600000.Idx, (a2 i).toNat < 8 := fun i => toNat_lt_of_signed_range _ 8 (by norm_num)
    (Host.reduce_andi_all _ _ _ _ _ h44 i) (Host.reduce_andi_all _ _ _ _ _ h48 i)
  exact ⟨{ src := fun e => ⟨(a1 (ix2 (0 : Fin 2) e)).toNat, hn _⟩
           dst := fun e => ⟨(a1 (ix2 (1 : Fin 2) e)).toNat, hn _⟩
           et := fun e => ⟨(a2 (ix1 e)).toNat, hr _⟩
           hsrc := fun e => eq_ofNat_toNat _
           hdst := fun e => eq_ofNat_toNat _
           het := fun e => eq_ofNat_toNat _ }⟩

end Cert.Proof

end
-- ==== Proof.lean ====
import proofs.«409165_j17514876633598_2_alg».proof.Defs
import proofs.«409165_j17514876633598_2_alg».proof.Proof.Gen.Kernel
import proofs.«409165_j17514876633598_2_alg».proof.Proof.Gen.KernelIdeal
import proofs.«409165_j17514876633598_2_alg».proof.Proof.Gen.ReferenceIdeal
import proofs.«409165_j17514876633598_2_alg».proof.Proof.Gen.Pre_finite_inputs
import proofs.«409165_j17514876633598_2_alg».proof.Proof.K.Launch
import proofs.«409165_j17514876633598_2_alg».proof.Proof.KI.Launch
import proofs.«409165_j17514876633598_2_alg».proof.Proof.KI.KernelSpec
import proofs.«409165_j17514876633598_2_alg».proof.Proof.RefRun
import proofs.«409165_j17514876633598_2_alg».proof.Proof.RefVal
import proofs.«409165_j17514876633598_2_alg».proof.Proof.PreDecode
import Idealize.ShloMosaic.PureOps.IdealRules
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame_all (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame_all (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

theorem preserves : Cert.preserves_Kernel_KernelIdeal :=
  IdealRules.named_const.statement Cert.KernelIdeal.κ "inv_100000" .f32 0x3727C5AC#32 ((1 / 100000 : ℝ) : EReal) rfl

-- Both idealized programs end with the specification's result row of the graph the inputs describe.
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hG := fun c => graph_of_pre _ _ _ _ _ _ _ _ _ (hpre c)
  refine ⟨_, (θ_run Cert.KernelIdeal.defs _ _).mono (fun _ h c => ⟨(h c).1.trans
      (Cert.KernelIdeal.Hand.kernel_out m c (Classical.choice (hG c))), (h c).2⟩)
      (Cert.KernelIdeal.Hand.run_value (F := Ideal) m ρ),
    (θ_run Cert.ReferenceIdeal.defs _ _).mono (fun _ h c => ⟨(h c).1.trans ?_, (h c).2⟩)
      (Cert.ReferenceIdeal.Hand.run (F := Ideal) m' ρ')⟩
  obtain ⟨h0, h1, h2, h3, h4, h5, h6, h7, h8⟩ := hagree c
  rw [h0, h1, h2, h3, h4, h5, h6, h7, h8]
  exact Cert.ReferenceIdeal.Hand.ref_out _ _ _ _ _ _ _ _ _ (Classical.choice (hG c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
